-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x32 : Shape := ⟨2, ![20000, 32]⟩
abbrev S2x200000 : Shape := ⟨2, ![2, 200000]⟩
abbrev S200000x8 : Shape := ⟨2, ![200000, 8]⟩
abbrev S20000 : Shape := ⟨1, ![20000]⟩
abbrev S16x8 : Shape := ⟨2, ![16, 8]⟩
abbrev S16 : Shape := ⟨1, ![16]⟩
abbrev S256x32 : Shape := ⟨2, ![256, 32]⟩
abbrev S256 : Shape := ⟨1, ![256]⟩
abbrev S512x528 : Shape := ⟨2, ![512, 528]⟩
abbrev S512 : Shape := ⟨1, ![512]⟩
abbrev S256x512 : Shape := ⟨2, ![256, 512]⟩
abbrev S256x528 : Shape := ⟨2, ![256, 528]⟩
abbrev S128x256 : Shape := ⟨2, ![128, 256]⟩
abbrev S128 : Shape := ⟨1, ![128]⟩
abbrev S12x128 : Shape := ⟨2, ![12, 128]⟩
abbrev S12 : Shape := ⟨1, ![12]⟩
abbrev S_ : Shape := ⟨0, ![]⟩

class Facts : Prop where
  bcast_S_S20000x32 : S_.BroadcastsInDim S20000x32 (![] : Fin 0 → Fin S20000x32.rank)
  reducesTo_S20000x32_S_d0_1 : S20000x32.ReducesTo [0, 1] S_
  h_S_ : 0 < S_.numel
  bcast_S_S200000x8 : S_.BroadcastsInDim S200000x8 (![] : Fin 0 → Fin S200000x8.rank)
  reducesTo_S200000x8_S_d0_1 : S200000x8.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_
  bcast_S_S512x528 : S_.BroadcastsInDim S512x528 (![] : Fin 0 → Fin S512x528.rank)
  reducesTo_S512x528_S_d0_1 : S512x528.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256x528 : S_.BroadcastsInDim S256x528 (![] : Fin 0 → Fin S256x528.rank)
  reducesTo_S256x528_S_d0_1 : S256x528.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S12x128 : S_.BroadcastsInDim S12x128 (![] : Fin 0 → Fin S12x128.rank)
  reducesTo_S12x128_S_d0_1 : S12x128.ReducesTo [0, 1] S_
  bcast_S_S12 : S_.BroadcastsInDim S12 (![] : Fin 0 → Fin S12.rank)
  reducesTo_S12_S_d0 : S12.ReducesTo [0] S_
  bcast_S_S2x200000 : S_.BroadcastsInDim S2x200000 (![] : Fin 0 → Fin S2x200000.rank)
  reducesTo_S2x200000_S_d0_1 : S2x200000.ReducesTo [0, 1] S_

variable [Facts]

def fn_part10 {F : FTy → Type} [FloatOps F] (main_arg27 : FVec F S256 .f32) (main_arg31 : FVec F S128 .f32) (main_v166 : IVec S_ 1) (main_v169 : IVec S_ 1) : IVec S_ 1 :=
  let main_v170 : IVec S_ 1 := andi main_v166 main_v169
  let main_cst_68 : FVec F S_ .f32 := constant S_ .f32 0x00000000#32
  let main_v171 : FVec F S256 .f32 := broadcastInDim S256 ![] bcast_S_S256 main_cst_68
  let main_v172 : IVec S256 1 := cmpf .oge main_arg27 main_v171
  let main_c_69 : IVec S_ 1 := constantI S_ 1 1#1
  let main_v173 : IVec S_ 1 := (fun x v => Host.reduce IntOp.andi x v reducesTo_S256_S_d0 h_S_) main_v172 main_c_69
  let main_v174 : IVec S_ 1 := andi main_v170 main_v173
  let main_cst_70 : FVec F S_ .f32 := constant S_ .f32 0x00000000#32
  let main_v175 : FVec F S128 .f32 := broadcastInDim S128 ![] bcast_S_S128 main_cst_70
  let main_v176 : IVec S128 1 := cmpf .oge main_arg31 main_v175
  let main_c_71 : IVec S_ 1 := constantI S_ 1 1#1
  let main_v177 : IVec S_ 1 := (fun x v => Host.reduce IntOp.andi x v reducesTo_S128_S_d0 h_S_) main_v176 main_c_71
  let main_v178 : IVec S_ 1 := andi main_v174 main_v177
  main_v178

def fn_part9 {F : FTy → Type} [FloatOps F] (main_arg1 : IVec S2x200000 32) (main_arg23 : FVec F S256 .f32) (main_arg27 : FVec F S256 .f32) (main_arg31 : FVec F S128 .f32) (main_arg33 : FVec F S12 .f32) (main_v153 : IVec S_ 1) : IVec S_ 1 :=
  let main_v154 : FVec F S12 .f32 := Host.absf main_arg33
  let main_cst_60 : FVec F S_ .f32 := constant S_ .f32 0x7F800000#32
  let main_v155 : FVec F S12 .f32 := broadcastInDim S12 ![] bcast_S_S12 main_cst_60
  let main_v156 : IVec S12 1 := cmpf .olt main_v154 main_v155
  let main_c_61 : IVec S_ 1 := constantI S_ 1 1#1
  let main_v157 : IVec S_ 1 := (fun x v => Host.reduce IntOp.andi x v reducesTo_S12_S_d0 h_S_) main_v156 main_c_61
  let main_v158 : IVec S_ 1 := andi main_v153 main_v157
  let main_c_62 : IVec S_ 32 := constantI S_ 32 0#32
  let main_v159 : IVec S2x200000 32 := broadcastInDim S2x200000 ![] bcast_S_S2x200000 main_c_62
  let main_v160 : IVec S2x200000 1 := cmpi .sge main_arg1 main_v159
  let main_c_63 : IVec S_ 1 := constantI S_ 1 1#1
  let main_v161 : IVec S_ 1 := (fun x v => Host.reduce IntOp.andi x v reducesTo_S2x200000_S_d0_1 h_S_) main_v160 main_c_63
  let main_v162 : IVec S_ 1 := andi main_v158 main_v161
  let main_c_64 : IVec S_ 32 := constantI S_ 32 20000#32
  let main_v163 : IVec S2x200000 32 := broadcastInDim S2x200000 ![] bcast_S_S2x200000 main_c_64
  let main_v164 : IVec S2x200000 1 := cmpi .slt main_arg1 main_v163
  let main_c_65 : IVec S_ 1 := constantI S_ 1 1#1
  let main_v165 : IVec S_ 1 := (fun x v => Host.reduce IntOp.andi x v reducesTo_S2x200000_S_d0_1 h_S_) main_v164 main_c_65
  let main_v166 : IVec S_ 1 := andi main_v162 main_v165
  let main_cst_66 : FVec F S_ .f32 := constant S_ .f32 0x00000000#32
  let main_v167 : FVec F S256 .f32 := broadcastInDim S256 ![] bcast_S_S256 main_cst_66
  let main_v168 : IVec S256 1 := cmpf .oge main_arg23 main_v167
  let main_c_67 : IVec S_ 1 := constantI S_ 1 1#1
  let main_v169 : IVec S_ 1 := (fun x v => Host.reduce IntOp.andi x v reducesTo_S256_S_d0 h_S_) main_v168 main_c_67
  fn_part10 (F := F) main_arg27 main_arg31 main_v166 main_v169

def fn_part8 {F : FTy → Type} [FloatOps F] (main_arg1 : IVec S2x200000 32) (main_arg23 : FVec F S256 .f32) (main_arg27 : FVec F S256 .f32) (main_arg30 : FVec F S128 .f32) (main_arg31 : FVec F S128 .f32) (main_arg32 : FVec F S12x128 .f32) (main_arg33 : FVec F S12 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S12x128 .f32 := Host.absf main_arg32
  let main_cst_58 : FVec F S_ .f32 := constant S_ .f32 0x7F800000#32
  let main_v150 : FVec F S12x128 .f32 := broadcastInDim S12x128 ![] bcast_S_S12x128 main_cst_58
  let main_v151 : IVec S12x128 1 := cmpf .olt main_v149 main_v150
  let main_c_59 : IVec S_ 1 := constantI S_ 1 1#1
  let main_v152 : IVec S_ 1 := (fun x v => Host.reduce IntOp.andi x v reducesTo_S12x128_S_d0_1 h_S_) main_v151 main_c_59
  let main_v153 : IVec S_ 1 := andi main_v148 main_v152
  fn_part9 (F := F) main_arg1 main_arg23 main_arg27 main_arg31 main_arg33 main_v153

def fn_part7 {F : FTy → Type} [FloatOps F] (main_arg1 : IVec S2x200000 32) (main_arg23 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg1 main_arg23 main_arg27 main_arg30 main_arg31 main_arg32 main_arg33 main_v133 main_v136

def fn_part6 {F : FTy → Type} [FloatOps F] (main_arg1 : IVec S2x200000 32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg26
  fn_part7 (F := F) main_arg1 main_arg23 main_arg27 main_arg28 main_arg29 main_arg30 main_arg31 main_arg32 main_arg33 main_v118 main_v119

def fn_part5 {F : FTy → Type} [FloatOps F] (main_arg1 : IVec S2x200000 32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg1 main_arg23 main_arg24 main_arg25 main_arg26 main_arg27 main_arg28 main_arg29 main_arg30 main_arg31 main_arg32 main_arg33 main_v98 main_v101 main_c_39

def fn_part4 {F : FTy → Type} [FloatOps F] (main_arg1 : IVec S2x200000 32) (main_arg16 : FVec F S256x528 .f32) (main_arg17 : FVec F S256 .f32) (main_arg18 : FVec F S128x256 .f32) (main_arg19 : FVec F S128 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v63 : IVec S_ 1) (main_v67 : IVec S_ 1) : IVec S_ 1 :=
  let main_v68 : IVec S_ 1 := andi main_v63 main_v67
  let main_v69 : FVec F S256x528 .f32 := Host.absf main_arg16
  let main_cst_26 : FVec F S_ .f32 := constant S_ .f32 0x7F800000#32
  let main_v70 : FVec F S256x528 .f32 := broadcastInDim S256x528 ![] bcast_S_S256x528 main_cst_26
  let main_v71 : IVec S256x528 1 := cmpf .olt main_v69 main_v70
  let main_c_27 : IVec S_ 1 := constantI S_ 1 1#1
  let main_v72 : IVec S_ 1 := (fun x v => Host.reduce IntOp.andi x v reducesTo_S256x528_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S128x256 .f32 := Host.absf main_arg18
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg1 : IVec S2x200000 32) (main_arg13 : FVec F S512 .f32) (main_arg14 : FVec F S256x512 .f32) (main_arg15 : FVec F S256 .f32) (main_arg16 : FVec F S256x528 .f32) (main_arg17 : FVec F S256 .f32) (main_arg18 : FVec F S128x256 .f32) (main_arg19 : FVec F S128 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v48 : IVec S_ 1) (main_v49 : FVec F S512x528 .f32) (main_v50 : FVec F S512x528 .f32) : IVec S_ 1 :=
  let main_v51 : IVec S512x528 1 := cmpf .olt main_v49 main_v50
  let main_c_19 : IVec S_ 1 := constantI S_ 1 1#1
  let main_v52 : IVec S_ 1 := (fun x v => Host.reduce IntOp.andi x v reducesTo_S512x528_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S256x512 .f32 := Host.absf main_arg14
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg1 : IVec S2x200000 32) (main_arg9 : FVec F S512 .f32) (main_arg10 : FVec F S256x512 .f32) (main_arg11 : FVec F S256 .f32) (main_arg12 : FVec F S512x528 .f32) (main_arg13 : FVec F S512 .f32) (main_arg14 : FVec F S256x512 .f32) (main_arg15 : FVec F S256 .f32) (main_arg16 : FVec F S256x528 .f32) (main_arg17 : FVec F S256 .f32) (main_arg18 : FVec F S128x256 .f32) (main_arg19 : FVec F S128 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x512 .f32 := Host.absf main_arg10
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x528 .f32 := Host.absf main_arg12
  let main_cst_18 : FVec F S_ .f32 := constant S_ .f32 0x7F800000#32
  let main_v50 : FVec F S512x528 .f32 := broadcastInDim S512x528 ![] bcast_S_S512x528 main_cst_18
  fn_part3 (F := F) main_arg1 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg1 : IVec S2x200000 32) (main_arg6 : FVec F S256x32 .f32) (main_arg7 : FVec F S256 .f32) (main_arg8 : FVec F S512x528 .f32) (main_arg9 : FVec F S512 .f32) (main_arg10 : FVec F S256x512 .f32) (main_arg11 : FVec F S256 .f32) (main_arg12 : FVec F S512x528 .f32) (main_arg13 : FVec F S512 .f32) (main_arg14 : FVec F S256x512 .f32) (main_arg15 : FVec F S256 .f32) (main_arg16 : FVec F S256x528 .f32) (main_arg17 : FVec F S256 .f32) (main_arg18 : FVec F S128x256 .f32) (main_arg19 : FVec F S128 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S256x32 .f32 := Host.absf main_arg6
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x528 .f32 := Host.absf main_arg8
  let main_cst_10 : FVec F S_ .f32 := constant S_ .f32 0x7F800000#32
  let main_v30 : FVec F S512x528 .f32 := broadcastInDim S512x528 ![] bcast_S_S512x528 main_cst_10
  let main_v31 : IVec S512x528 1 := cmpf .olt main_v29 main_v30
  let main_c_11 : IVec S_ 1 := constantI S_ 1 1#1
  let main_v32 : IVec S_ 1 := (fun x v => Host.reduce IntOp.andi x v reducesTo_S512x528_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S20000x32 .f32) (main_arg1 : IVec S2x200000 32) (main_arg2 : FVec F S200000x8 .f32) (main_arg3 : IVec S20000 32) (main_arg4 : FVec F S16x8 .f32) (main_arg5 : FVec F S16 .f32) (main_arg6 : FVec F S256x32 .f32) (main_arg7 : FVec F S256 .f32) (main_arg8 : FVec F S512x528 .f32) (main_arg9 : FVec F S512 .f32) (main_arg10 : FVec F S256x512 .f32) (main_arg11 : FVec F S256 .f32) (main_arg12 : FVec F S512x528 .f32) (main_arg13 : FVec F S512 .f32) (main_arg14 : FVec F S256x512 .f32) (main_arg15 : FVec F S256 .f32) (main_arg16 : FVec F S256x528 .f32) (main_arg17 : FVec F S256 .f32) (main_arg18 : FVec F S128x256 .f32) (main_arg19 : FVec F S128 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128 .f32) (main_arg29 : FVec F S128 .f32) (main_arg30 : FVec F S128 .f32) (main_arg31 : FVec F S128 .f32) (main_arg32 : FVec F S12x128 .f32) (main_arg33 : FVec F S12 .f32) : IVec S_ 1 :=
  let main_v0 : FVec F S20000x32 .f32 := Host.absf main_arg0
  let main_cst : FVec F S_ .f32 := constant S_ .f32 0x7F800000#32
  let main_v1 : FVec F S20000x32 .f32 := broadcastInDim S20000x32 ![] bcast_S_S20000x32 main_cst
  let main_v2 : IVec S20000x32 1 := cmpf .olt main_v0 main_v1
  let main_c : IVec S_ 1 := constantI S_ 1 1#1
  let main_v3 : IVec S_ 1 := (fun x v => Host.reduce IntOp.andi x v reducesTo_S20000x32_S_d0_1 h_S_) main_v2 main_c
  let main_v4 : FVec F S200000x8 .f32 := Host.absf main_arg2
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S16x8 .f32 := Host.absf main_arg4
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S20000x32 : Shape := ⟨2, ![20000, 32]⟩
abbrev S2x200000 : Shape := ⟨2, ![2, 200000]⟩
abbrev S200000x8 : Shape := ⟨2, ![200000, 8]⟩
abbrev S20000 : Shape := ⟨1, ![20000]⟩
abbrev S16x8 : Shape := ⟨2, ![16, 8]⟩
abbrev S16 : Shape := ⟨1, ![16]⟩
abbrev S256x32 : Shape := ⟨2, ![256, 32]⟩
abbrev S256 : Shape := ⟨1, ![256]⟩
abbrev S512x528 : Shape := ⟨2, ![512, 528]⟩
abbrev S512 : Shape := ⟨1, ![512]⟩
abbrev S256x512 : Shape := ⟨2, ![256, 512]⟩
abbrev S256x528 : Shape := ⟨2, ![256, 528]⟩
abbrev S128x256 : Shape := ⟨2, ![128, 256]⟩
abbrev S128 : Shape := ⟨1, ![128]⟩
abbrev S12x128 : Shape := ⟨2, ![12, 128]⟩
abbrev S12 : Shape := ⟨1, ![12]⟩
abbrev S1x200000 : Shape := ⟨2, ![1, 200000]⟩
abbrev S200000 : Shape := ⟨1, ![200000]⟩
abbrev S8x16 : Shape := ⟨2, ![8, 16]⟩
abbrev S1x16 : Shape := ⟨2, ![1, 16]⟩
abbrev S200000x16 : Shape := ⟨2, ![200000, 16]⟩
abbrev S2000x8 : Shape := ⟨2, ![2000, 8]⟩
abbrev S2000x16 : Shape := ⟨2, ![2000, 16]⟩
abbrev S32x256 : Shape := ⟨2, ![32, 256]⟩
abbrev S1x256 : Shape := ⟨2, ![1, 256]⟩
abbrev S20000x256 : Shape := ⟨2, ![20000, 256]⟩
abbrev S2000x32 : Shape := ⟨2, ![2000, 32]⟩
abbrev S2000x256 : Shape := ⟨2, ![2000, 256]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x256 : Shape := ⟨2, ![200000, 256]⟩
abbrev S200000x528 : Shape := ⟨2, ![200000, 528]⟩
abbrev S528x512 : Shape := ⟨2, ![528, 512]⟩
abbrev S512x256 : Shape := ⟨2, ![512, 256]⟩
abbrev S1x512 : Shape := ⟨2, ![1, 512]⟩
abbrev S2000x528 : Shape := ⟨2, ![2000, 528]⟩
abbrev S2000x512 : Shape := ⟨2, ![2000, 512]⟩
abbrev S20000x1 : Shape := ⟨2, ![20000, 1]⟩
abbrev S2000x1 : Shape := ⟨2, ![2000, 1]⟩
abbrev S528x256 : Shape := ⟨2, ![528, 256]⟩
abbrev S256x128 : Shape := ⟨2, ![256, 128]⟩
abbrev S1x128 : Shape := ⟨2, ![1, 128]⟩
abbrev S200000x128 : Shape := ⟨2, ![200000, 128]⟩
abbrev S2000x128 : Shape := ⟨2, ![2000, 128]⟩
abbrev S20000x128 : Shape := ⟨2, ![20000, 128]⟩
abbrev S512x128 : Shape := ⟨2, ![512, 128]⟩
abbrev S512x1 : Shape := ⟨2, ![512, 1]⟩
abbrev S128x12 : Shape := ⟨2, ![128, 12]⟩
abbrev S1x12 : Shape := ⟨2, ![1, 12]⟩
abbrev S512x12 : Shape := ⟨2, ![512, 12]⟩

abbrev nBuf : Space → Nat
  | .hbm => 267
  | .vmem => 70
  | .smem => 0
  | _ => 0

abbrev hbmTy0_0 (i : Nat) : BufTy := match i % 128 with
  | 0 => ⟨S20000x32, .f32⟩
  | 1 => ⟨S2x200000, .i32⟩
  | 2 => ⟨S200000x8, .f32⟩
  | 3 => ⟨S20000, .i32⟩
  | 4 => ⟨S16x8, .f32⟩
  | 5 => ⟨S16, .f32⟩
  | 6 => ⟨S256x32, .f32⟩
  | 7 => ⟨S256, .f32⟩
  | 8 => ⟨S512x528, .f32⟩
  | 9 => ⟨S512, .f32⟩
  | 10 => ⟨S256x512, .f32⟩
  | 11 => ⟨S256, .f32⟩
  | 12 => ⟨S512x528, .f32⟩
  | 13 => ⟨S512, .f32⟩
  | 14 => ⟨S256x512, .f32⟩
  | 15 => ⟨S256, .f32⟩
  | 16 => ⟨S256x528, .f32⟩
  | 17 => ⟨S256, .f32⟩
  | 18 => ⟨S128x256, .f32⟩
  | 19 => ⟨S128, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256, .f32⟩
  | 27 => ⟨S256, .f32⟩
  | 28 => ⟨S128, .f32⟩
  | 29 => ⟨S128, .f32⟩
  | 30 => ⟨S128, .f32⟩
  | 31 => ⟨S128, .f32⟩
  | 32 => ⟨S12x128, .f32⟩
  | 33 => ⟨S12, .f32⟩
  | 34 => ⟨S1x200000, .i32⟩
  | 35 => ⟨S200000, .i32⟩
  | 36 => ⟨S1x200000, .i32⟩
  | 37 => ⟨S200000, .i32⟩
  | 38 => ⟨S8x16, .f32⟩
  | 39 => ⟨S1x16, .f32⟩
  | 40 => ⟨S200000x16, .f32⟩
  | 41 => ⟨S32x256, .f32⟩
  | 42 => ⟨S1x256, .f32⟩
  | 43 => ⟨S20000x256, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S1, .i32⟩
  | 53 => ⟨S_, .i32⟩
  | 54 => ⟨S200000x1, .i32⟩
  | 55 => ⟨S200000x1, .i1⟩
  | 56 => ⟨S1x1, .i32⟩
  | 57 => ⟨S200000x1, .i32⟩
  | 58 => ⟨S200000x1, .i1⟩
  | 59 => ⟨S200000x1, .i1⟩
  | 60 => ⟨S_, .i1⟩
  | 61 => ⟨S200000, .i1⟩
  | 62 => ⟨S200000x256, .f32⟩
  | 63 => ⟨S200000x256, .i1⟩
  | 64 => ⟨S_, .f32⟩
  | 65 => ⟨S200000x256, .f32⟩
  | 66 => ⟨S200000x256, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S1, .i32⟩
  | 76 => ⟨S_, .i32⟩
  | 77 => ⟨S200000x1, .i32⟩
  | 78 => ⟨S200000x1, .i1⟩
  | 79 => ⟨S1x1, .i32⟩
  | 80 => ⟨S200000x1, .i32⟩
  | 81 => ⟨S200000x1, .i1⟩
  | 82 => ⟨S200000x1, .i1⟩
  | 83 => ⟨S_, .i1⟩
  | 84 => ⟨S200000, .i1⟩
  | 85 => ⟨S200000x256, .f32⟩
  | 86 => ⟨S200000x256, .i1⟩
  | 87 => ⟨S_, .f32⟩
  | 88 => ⟨S200000x256, .f32⟩
  | 89 => ⟨S200000x256, .f32⟩
  | 90 => ⟨S200000x528, .f32⟩
  | 91 => ⟨S528x512, .f32⟩
  | 92 => ⟨S512x256, .f32⟩
  | 93 => ⟨S1x512, .f32⟩
  | 94 => ⟨S1x256, .f32⟩
  | 95 => ⟨S200000x256, .f32⟩
  | 96 => ⟨S_, .f32⟩
  | 97 => ⟨S20000x256, .f32⟩
  | 98 => ⟨S200000x1, .i32⟩
  | 99 => ⟨S20000x256, .f32⟩
  | 100 => ⟨S_, .f32⟩
  | 101 => ⟨S200000, .f32⟩
  | 102 => ⟨S_, .f32⟩
  | 103 => ⟨S20000, .f32⟩
  | 104 => ⟨S200000x1, .i32⟩
  | 105 => ⟨S20000, .f32⟩
  | 106 => ⟨S20000x1, .f32⟩
  | 107 => ⟨S1x256, .f32⟩
  | 108 => ⟨S1x256, .f32⟩
  | 109 => ⟨S1x256, .f32⟩
  | 110 => ⟨S1x256, .f32⟩
  | 111 => ⟨S20000x256, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S1, .i32⟩
  | 121 => ⟨S_, .i32⟩
  | 122 => ⟨S200000x1, .i32⟩
  | 123 => ⟨S200000x1, .i1⟩
  | 124 => ⟨S1x1, .i32⟩
  | 125 => ⟨S200000x1, .i32⟩
  | 126 => ⟨S200000x1, .i1⟩
  | 127 => ⟨S200000x1, .i1⟩
  | _ => ⟨S20000x32, .f32⟩

abbrev hbmTy0_1 (i : Nat) : BufTy := match i % 128 with
  | 0 => ⟨S_, .i1⟩
  | 1 => ⟨S200000, .i1⟩
  | 2 => ⟨S200000x256, .f32⟩
  | 3 => ⟨S200000x256, .i1⟩
  | 4 => ⟨S_, .f32⟩
  | 5 => ⟨S200000x256, .f32⟩
  | 6 => ⟨S200000x256, .f32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S1, .i32⟩
  | 16 => ⟨S_, .i32⟩
  | 17 => ⟨S200000x1, .i32⟩
  | 18 => ⟨S200000x1, .i1⟩
  | 19 => ⟨S1x1, .i32⟩
  | 20 => ⟨S200000x1, .i32⟩
  | 21 => ⟨S200000x1, .i1⟩
  | 22 => ⟨S200000x1, .i1⟩
  | 23 => ⟨S_, .i1⟩
  | 24 => ⟨S200000, .i1⟩
  | 25 => ⟨S200000x256, .f32⟩
  | 26 => ⟨S200000x256, .i1⟩
  | 27 => ⟨S_, .f32⟩
  | 28 => ⟨S200000x256, .f32⟩
  | 29 => ⟨S200000x256, .f32⟩
  | 30 => ⟨S200000x528, .f32⟩
  | 31 => ⟨S528x512, .f32⟩
  | 32 => ⟨S512x256, .f32⟩
  | 33 => ⟨S1x512, .f32⟩
  | 34 => ⟨S1x256, .f32⟩
  | 35 => ⟨S200000x256, .f32⟩
  | 36 => ⟨S_, .f32⟩
  | 37 => ⟨S20000x256, .f32⟩
  | 38 => ⟨S200000x1, .i32⟩
  | 39 => ⟨S20000x256, .f32⟩
  | 40 => ⟨S_, .f32⟩
  | 41 => ⟨S200000, .f32⟩
  | 42 => ⟨S_, .f32⟩
  | 43 => ⟨S20000, .f32⟩
  | 44 => ⟨S200000x1, .i32⟩
  | 45 => ⟨S20000, .f32⟩
  | 46 => ⟨S20000x1, .f32⟩
  | 47 => ⟨S1x256, .f32⟩
  | 48 => ⟨S1x256, .f32⟩
  | 49 => ⟨S1x256, .f32⟩
  | 50 => ⟨S1x256, .f32⟩
  | 51 => ⟨S20000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S1, .i32⟩
  | 61 => ⟨S_, .i32⟩
  | 62 => ⟨S200000x1, .i32⟩
  | 63 => ⟨S200000x1, .i1⟩
  | 64 => ⟨S1x1, .i32⟩
  | 65 => ⟨S200000x1, .i32⟩
  | 66 => ⟨S200000x1, .i1⟩
  | 67 => ⟨S200000x1, .i1⟩
  | 68 => ⟨S_, .i1⟩
  | 69 => ⟨S200000, .i1⟩
  | 70 => ⟨S200000x256, .f32⟩
  | 71 => ⟨S200000x256, .i1⟩
  | 72 => ⟨S_, .f32⟩
  | 73 => ⟨S200000x256, .f32⟩
  | 74 => ⟨S200000x256, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S1, .i32⟩
  | 84 => ⟨S_, .i32⟩
  | 85 => ⟨S200000x1, .i32⟩
  | 86 => ⟨S200000x1, .i1⟩
  | 87 => ⟨S1x1, .i32⟩
  | 88 => ⟨S200000x1, .i32⟩
  | 89 => ⟨S200000x1, .i1⟩
  | 90 => ⟨S200000x1, .i1⟩
  | 91 => ⟨S_, .i1⟩
  | 92 => ⟨S200000, .i1⟩
  | 93 => ⟨S200000x256, .f32⟩
  | 94 => ⟨S200000x256, .i1⟩
  | 95 => ⟨S_, .f32⟩
  | 96 => ⟨S200000x256, .f32⟩
  | 97 => ⟨S200000x256, .f32⟩
  | 98 => ⟨S200000x528, .f32⟩
  | 99 => ⟨S528x256, .f32⟩
  | 100 => ⟨S256x128, .f32⟩
  | 101 => ⟨S1x256, .f32⟩
  | 102 => ⟨S1x128, .f32⟩
  | 103 => ⟨S200000x128, .f32⟩
  | 104 => ⟨S_, .f32⟩
  | 105 => ⟨S20000x128, .f32⟩
  | 106 => ⟨S200000x1, .i32⟩
  | 107 => ⟨S20000x128, .f32⟩
  | 108 => ⟨S_, .f32⟩
  | 109 => ⟨S200000, .f32⟩
  | 110 => ⟨S_, .f32⟩
  | 111 => ⟨S20000, .f32⟩
  | 112 => ⟨S200000x1, .i32⟩
  | 113 => ⟨S20000, .f32⟩
  | 114 => ⟨S20000x1, .f32⟩
  | 115 => ⟨S1x128, .f32⟩
  | 116 => ⟨S1x128, .f32⟩
  | 117 => ⟨S1x128, .f32⟩
  | 118 => ⟨S1x128, .f32⟩
  | 119 => ⟨S20000x128, .f32⟩
  | 120 => ⟨S_, .f32⟩
  | 121 => ⟨S512x128, .f32⟩
  | 122 => ⟨S20000x1, .i32⟩
  | 123 => ⟨S512x128, .f32⟩
  | 124 => ⟨S_, .f32⟩
  | 125 => ⟨S20000, .f32⟩
  | 126 => ⟨S_, .f32⟩
  | 127 => ⟨S512, .f32⟩
  | _ => ⟨S20000x32, .f32⟩

abbrev hbmTy0_2 (i : Nat) : BufTy := match i % 128 with
  | 0 => ⟨S20000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x128, .f32⟩
  | 7 => ⟨S512x128, .f32⟩
  | 8 => ⟨S128x12, .f32⟩
  | 9 => ⟨S1x12, .f32⟩
  | 10 => ⟨S512x12, .f32⟩
  | _ => ⟨S20000x32, .f32⟩

abbrev hbmTy (i : Nat) : BufTy := match i / 128 with
  | 0 => hbmTy0_0 i
  | 1 => hbmTy0_1 i
  | 2 => hbmTy0_2 i
  | _ => ⟨S20000x32, .f32⟩

abbrev bufTy : (tb : Table) → Fin (tcTables nBuf tb) → BufTy
  | .hbm, ⟨i, _⟩ => hbmTy i
  | .local _ .vmem, ⟨0, _⟩ => ⟨S2000x8, .f32⟩
  | .local _ .vmem, ⟨1, _⟩ => ⟨S2000x8, .f32⟩
  | .local _ .vmem, ⟨2, _⟩ => ⟨S8x16, .f32⟩
  | .local _ .vmem, ⟨3, _⟩ => ⟨S1x16, .f32⟩
  | .local _ .vmem, ⟨4, _⟩ => ⟨S2000x16, .f32⟩
  | .local _ .vmem, ⟨5, _⟩ => ⟨S2000x16, .f32⟩
  | .local _ .vmem, ⟨6, _⟩ => ⟨S2000x32, .f32⟩
  | .local _ .vmem, ⟨7, _⟩ => ⟨S2000x32, .f32⟩
  | .local _ .vmem, ⟨8, _⟩ => ⟨S32x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x528, .f32⟩
  | .local _ .vmem, ⟨13, _⟩ => ⟨S2000x528, .f32⟩
  | .local _ .vmem, ⟨14, _⟩ => ⟨S528x512, .f32⟩
  | .local _ .vmem, ⟨15, _⟩ => ⟨S1x512, .f32⟩
  | .local _ .vmem, ⟨16, _⟩ => ⟨S512x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x528, .f32⟩
  | .local _ .vmem, ⟨31, _⟩ => ⟨S2000x528, .f32⟩
  | .local _ .vmem, ⟨32, _⟩ => ⟨S528x512, .f32⟩
  | .local _ .vmem, ⟨33, _⟩ => ⟨S1x512, .f32⟩
  | .local _ .vmem, ⟨34, _⟩ => ⟨S512x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x1, .f32⟩
  | .local _ .vmem, ⟨41, _⟩ => ⟨S2000x1, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S2000x528, .f32⟩
  | .local _ .vmem, ⟨49, _⟩ => ⟨S2000x528, .f32⟩
  | .local _ .vmem, ⟨50, _⟩ => ⟨S528x256, .f32⟩
  | .local _ .vmem, ⟨51, _⟩ => ⟨S1x256, .f32⟩
  | .local _ .vmem, ⟨52, _⟩ => ⟨S256x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x1, .f32⟩
  | .local _ .vmem, ⟨59, _⟩ => ⟨S2000x1, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S512x128, .f32⟩
  | .local _ .vmem, ⟨67, _⟩ => ⟨S128x12, .f32⟩
  | .local _ .vmem, ⟨68, _⟩ => ⟨S1x12, .f32⟩
  | .local _ .vmem, ⟨69, _⟩ => ⟨S512x12, .f32⟩
  | _, _ => ⟨S20000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v10 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v11 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_cst : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_cst_0 : Ref sig .tc := ⟨.hbm, 100, rfl⟩
abbrev main_v21 : Ref sig .tc := ⟨.hbm, 101, rfl⟩
abbrev main_cst_1 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v31 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_cst_2 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_cst_3 : Ref sig .tc := ⟨.hbm, 168, rfl⟩
abbrev main_v42 : Ref sig .tc := ⟨.hbm, 169, rfl⟩
abbrev main_cst_4 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_call4_c : Ref sig .tc := ⟨.hbm, 180, rfl⟩
abbrev main_call4_v0 : Ref sig .tc := ⟨.hbm, 181, rfl⟩
abbrev main_call4_v1 : Ref sig .tc := ⟨.hbm, 182, rfl⟩
abbrev main_call4_c_0 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_call4_v5 : Ref sig .tc := ⟨.hbm, 187, rfl⟩
abbrev main_call4_c_1 : Ref sig .tc := ⟨.hbm, 188, rfl⟩
abbrev main_call4_c_2 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_v11 : Ref sig .tc := ⟨.hbm, 195, rfl⟩
abbrev main_call4_c_3 : Ref sig .tc := ⟨.hbm, 196, rfl⟩
abbrev main_call4_v12 : Ref sig .tc := ⟨.hbm, 197, rfl⟩
abbrev main_call4_v13 : Ref sig .tc := ⟨.hbm, 198, rfl⟩
abbrev main_call4_v14 : Ref sig .tc := ⟨.hbm, 199, rfl⟩
abbrev main_call4_cst : Ref sig .tc := ⟨.hbm, 200, rfl⟩
abbrev main_call4_v15 : Ref sig .tc := ⟨.hbm, 201, rfl⟩
abbrev main_v52 : Ref sig .tc := ⟨.hbm, 202, rfl⟩
abbrev main_call5_c : Ref sig .tc := ⟨.hbm, 203, rfl⟩
abbrev main_call5_v0 : Ref sig .tc := ⟨.hbm, 204, rfl⟩
abbrev main_call5_v1 : Ref sig .tc := ⟨.hbm, 205, rfl⟩
abbrev main_call5_c_0 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_c_1 : Ref sig .tc := ⟨.hbm, 211, rfl⟩
abbrev main_call5_c_2 : Ref sig .tc := ⟨.hbm, 212, rfl⟩
abbrev main_call5_v6 : Ref sig .tc := ⟨.hbm, 213, rfl⟩
abbrev main_call5_v7 : Ref sig .tc := ⟨.hbm, 214, rfl⟩
abbrev main_call5_v8 : Ref sig .tc := ⟨.hbm, 215, rfl⟩
abbrev main_call5_v9 : Ref sig .tc := ⟨.hbm, 216, rfl⟩
abbrev main_call5_v10 : Ref sig .tc := ⟨.hbm, 217, rfl⟩
abbrev main_call5_v11 : Ref sig .tc := ⟨.hbm, 218, rfl⟩
abbrev main_call5_c_3 : Ref sig .tc := ⟨.hbm, 219, rfl⟩
abbrev main_call5_v12 : Ref sig .tc := ⟨.hbm, 220, rfl⟩
abbrev main_call5_v13 : Ref sig .tc := ⟨.hbm, 221, rfl⟩
abbrev main_call5_v14 : Ref sig .tc := ⟨.hbm, 222, rfl⟩
abbrev main_call5_cst : Ref sig .tc := ⟨.hbm, 223, rfl⟩
abbrev main_call5_v15 : Ref sig .tc := ⟨.hbm, 224, rfl⟩
abbrev main_v53 : Ref sig .tc := ⟨.hbm, 225, rfl⟩
abbrev main_v54 : Ref sig .tc := ⟨.hbm, 226, rfl⟩
abbrev main_v55 : Ref sig .tc := ⟨.hbm, 227, rfl⟩
abbrev main_v56 : Ref sig .tc := ⟨.hbm, 228, rfl⟩
abbrev main_v57 : Ref sig .tc := ⟨.hbm, 229, rfl⟩
abbrev main_v58 : Ref sig .tc := ⟨.hbm, 230, rfl⟩
abbrev main_v59 : Ref sig .tc := ⟨.hbm, 231, rfl⟩
abbrev main_cst_5 : Ref sig .tc := ⟨.hbm, 232, rfl⟩
abbrev main_v60 : Ref sig .tc := ⟨.hbm, 233, rfl⟩
abbrev main_v61 : Ref sig .tc := ⟨.hbm, 234, rfl⟩
abbrev main_v62 : Ref sig .tc := ⟨.hbm, 235, rfl⟩
abbrev main_cst_6 : Ref sig .tc := ⟨.hbm, 236, rfl⟩
abbrev main_v63 : Ref sig .tc := ⟨.hbm, 237, rfl⟩
abbrev main_cst_7 : Ref sig .tc := ⟨.hbm, 238, rfl⟩
abbrev main_v64 : Ref sig .tc := ⟨.hbm, 239, rfl⟩
abbrev main_v65 : Ref sig .tc := ⟨.hbm, 240, rfl⟩
abbrev main_v66 : Ref sig .tc := ⟨.hbm, 241, rfl⟩
abbrev main_v67 : Ref sig .tc := ⟨.hbm, 242, rfl⟩
abbrev main_v68 : Ref sig .tc := ⟨.hbm, 243, rfl⟩
abbrev main_v69 : Ref sig .tc := ⟨.hbm, 244, rfl⟩
abbrev main_v70 : Ref sig .tc := ⟨.hbm, 245, rfl⟩
abbrev main_v71 : Ref sig .tc := ⟨.hbm, 246, rfl⟩
abbrev main_v72 : Ref sig .tc := ⟨.hbm, 247, rfl⟩
abbrev main_cst_8 : Ref sig .tc := ⟨.hbm, 248, rfl⟩
abbrev main_v73 : Ref sig .tc := ⟨.hbm, 249, rfl⟩
abbrev main_v74 : Ref sig .tc := ⟨.hbm, 250, rfl⟩
abbrev main_v75 : Ref sig .tc := ⟨.hbm, 251, rfl⟩
abbrev main_cst_9 : Ref sig .tc := ⟨.hbm, 252, rfl⟩
abbrev main_v76 : Ref sig .tc := ⟨.hbm, 253, rfl⟩
abbrev main_cst_10 : Ref sig .tc := ⟨.hbm, 254, rfl⟩
abbrev main_v77 : Ref sig .tc := ⟨.hbm, 255, rfl⟩
abbrev main_v78 : Ref sig .tc := ⟨.hbm, 256, rfl⟩
abbrev main_v79 : Ref sig .tc := ⟨.hbm, 257, rfl⟩
abbrev main_cst_11 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_v83 : Ref sig .tc := ⟨.hbm, 262, rfl⟩
abbrev main_v84 : Ref sig .tc := ⟨.hbm, 263, rfl⟩
abbrev main_v85 : Ref sig .tc := ⟨.hbm, 264, rfl⟩
abbrev main_v86 : Ref sig .tc := ⟨.hbm, 265, rfl⟩
abbrev main_v87 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg6_1 : Ref sig .tc := ⟨.vmem, 65, rfl⟩
abbrev cc8_stg0_0 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg3_0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem6_1 : DmaSem sig := 65
abbrev cc8_sem0_0 : DmaSem sig := 66
abbrev cc8_sem1_0 : DmaSem sig := 67
abbrev cc8_sem2_0 : DmaSem sig := 68
abbrev cc8_sem3_0 : DmaSem sig := 69

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x528 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S528x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x528 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S528x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x528 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S528x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x12 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x12 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x12 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S16x8_S8x16_1_0 : S16x8.Transposes [1, 0] S8x16
  shapeCasts_S16_S1x16 : S16.ShapeCasts S1x16
  inb_S2000x8_S2000x8_0_0 : ∀ a, (![0, 0] : Fin 2 → Nat) a + S2000x8.size a ≤ S2000x8.size a
  h_S2000x8 : 0 < S2000x8.numel
  bitsLt_bf16_f32 : FTy.bits .bf16 < FTy.bits .f32
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  transposes_S256x32_S32x256_1_0 : S256x32.Transposes [1, 0] S32x256
  shapeCasts_S256_S1x256 : S256.ShapeCasts S1x256
  inb_S2000x32_S2000x32_0_0 : ∀ a, (![0, 0] : Fin 2 → Nat) a + S2000x32.size a ≤ S2000x32.size a
  h_S2000x32 : 0 < S2000x32.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  concatenates_S200000x256_S200000x256_S200000x16_S200000x528_d1 : Shape.Concatenates [S200000x256, S200000x256, S200000x16] S200000x528 1
  transposes_S512x528_S528x512_1_0 : S512x528.Transposes [1, 0] S528x512
  transposes_S256x512_S512x256_1_0 : S256x512.Transposes [1, 0] S512x256
  shapeCasts_S512_S1x512 : S512.ShapeCasts S1x512
  inb_S2000x528_S2000x528_0_0 : ∀ a, (![0, 0] : Fin 2 → Nat) a + S2000x528.size a ≤ S2000x528.size a
  h_S2000x528 : 0 < S2000x528.numel
  shapeCasts_S2000x528_S2000x528 : S2000x528.ShapeCasts S2000x528
  inb_S528x512_S528x512_0_0 : ∀ a, (![0, 0] : Fin 2 → Nat) a + S528x512.size a ≤ S528x512.size a
  h_S528x512 : 0 < S528x512.numel
  shapeCasts_S528x512_S528x512 : S528x512.ShapeCasts S528x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x256_S2000x256 : S2000x256.ShapeCasts S2000x256
  broadcasts_S2000x1_S2000x256 : S2000x1.Broadcasts S2000x256
  transposes_S256x528_S528x256_1_0 : S256x528.Transposes [1, 0] S528x256
  transposes_S128x256_S256x128_1_0 : S128x256.Transposes [1, 0] S256x128
  shapeCasts_S128_S1x128 : S128.ShapeCasts S1x128
  inb_S528x256_S528x256_0_0 : ∀ a, (![0, 0] : Fin 2 → Nat) a + S528x256.size a ≤ S528x256.size a
  h_S528x256 : 0 < S528x256.numel
  shapeCasts_S528x256_S528x256 : S528x256.ShapeCasts S528x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S20000x128 : S_.BroadcastsInDim S20000x128 (![] : Fin 0 → Fin S20000x128.rank)
  shapeCasts_S2000x128_S2000x128 : S2000x128.ShapeCasts S2000x128
  broadcasts_S2000x1_S2000x128 : S2000x1.Broadcasts S2000x128
  bcast_S_S512x128 : S_.BroadcastsInDim S512x128 (![] : Fin 0 → Fin S512x128.rank)
  bcast_S20000_S20000x1_0 : S20000.BroadcastsInDim S20000x1 (![0] : Fin 1 → Fin S20000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S12x128_S128x12_1_0 : S12x128.Transposes [1, 0] S128x12
  shapeCasts_S12_S1x12 : S12.ShapeCasts S1x12
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  dot_S2000x8_S8x16_S2000x16_1_0_0_1_n_n_wf : DotDims.WF S2000x8 S8x16 S2000x16 [1] [0] [0] [1] [] []
  dot_S2000x32_S32x256_S2000x256_1_0_0_1_n_n_wf : DotDims.WF S2000x32 S32x256 S2000x256 [1] [0] [0] [1] [] []
  gather_S20000x256_S200000x1_S200000x256_1_0_n_n_0_1_1256_wf : GatherDims.WF S20000x256 S200000x1 S200000x256 [1] [0] [] [0] [] 1 ![1, 256]
  dot_S2000x528_S528x512_S2000x512_1_0_0_1_n_n_wf : DotDims.WF S2000x528 S528x512 S2000x512 [1] [0] [0] [1] [] []
  dot_S2000x512_S512x256_S2000x256_1_0_0_1_n_n_wf : DotDims.WF S2000x512 S512x256 S2000x256 [1] [0] [0] [1] [] []
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S2000x528_S528x256_S2000x256_1_0_0_1_n_n_wf : DotDims.WF S2000x528 S528x256 S2000x256 [1] [0] [0] [1] [] []
  dot_S2000x256_S256x128_S2000x128_1_0_0_1_n_n_wf : DotDims.WF S2000x256 S256x128 S2000x128 [1] [0] [0] [1] [] []
  scatter_S20000x128_S200000x1_S200000x128_1_0_0_1_wf : ScatterDims.WF S20000x128 S200000x1 S200000x128 [1] [0] [0] 1
  scatter_S512x128_S20000x1_S20000x128_1_0_0_1_wf : ScatterDims.WF S512x128 S20000x1 S20000x128 [1] [0] [0] 1
  scatter_S512_S20000x1_S20000_n_0_0_1_wf : ScatterDims.WF S512 S20000x1 S20000 [] [0] [0] 1
  dot_S512x128_S128x12_S512x12_1_0_0_1_n_n_wf : DotDims.WF S512x128 S128x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S200000x8.size a
  hwx0_0 : ∀ i : grid0.Coords, EltTy.bits .f32 = 32 ∨ (Rect.block (s := S200000x8) S2000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S8x16.size a
  hwx0_1 : ∀ i : grid0.Coords, EltTy.bits .f32 = 32 ∨ (Rect.block (s := S8x16) S8x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S200000x16.size a
  hwx0_3 : ∀ i : grid0.Coords, EltTy.bits .f32 = 32 ∨ (Rect.block (s := S200000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S20000x32.size a
  hwx1_0 : ∀ i : grid1.Coords, EltTy.bits .f32 = 32 ∨ (Rect.block (s := S20000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x528.size a ≤ S200000x528.size a
  hwx2_0 : ∀ i : grid2.Coords, EltTy.bits .f32 = 32 ∨ (Rect.block (s := S200000x528) S2000x528.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S528x512.size a ≤ S528x512.size a
  hwx2_1 : ∀ i : grid2.Coords, EltTy.bits .f32 = 32 ∨ (Rect.block (s := S528x512) S528x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .f32 = 32 ∨ (Rect.block (s := S512x256) S512x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S200000x256.size a
  hwx2_5 : ∀ i : grid2.Coords, EltTy.bits .f32 = 32 ∨ (Rect.block (s := S200000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S20000x1.size a
  hwx3_1 : ∀ i : grid3.Coords, EltTy.bits .f32 = 32 ∨ (Rect.block (s := S20000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S20000x256.size a
  hwx3_6 : ∀ i : grid3.Coords, EltTy.bits .f32 = 32 ∨ (Rect.block (s := S20000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x528.size a ≤ S200000x528.size a
  hwx4_0 : ∀ i : grid4.Coords, EltTy.bits .f32 = 32 ∨ (Rect.block (s := S200000x528) S2000x528.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S528x512.size a ≤ S528x512.size a
  hwx4_1 : ∀ i : grid4.Coords, EltTy.bits .f32 = 32 ∨ (Rect.block (s := S528x512) S528x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S512x256.size a
  hwx4_3 : ∀ i : grid4.Coords, EltTy.bits .f32 = 32 ∨ (Rect.block (s := S512x256) S512x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S200000x256.size a
  hwx4_5 : ∀ i : grid4.Coords, EltTy.bits .f32 = 32 ∨ (Rect.block (s := S200000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S20000x1.size a
  hwx5_1 : ∀ i : grid5.Coords, EltTy.bits .f32 = 32 ∨ (Rect.block (s := S20000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S20000x256.size a
  hwx5_6 : ∀ i : grid5.Coords, EltTy.bits .f32 = 32 ∨ (Rect.block (s := S20000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x528.size a ≤ S200000x528.size a
  hwx6_0 : ∀ i : grid6.Coords, EltTy.bits .f32 = 32 ∨ (Rect.block (s := S200000x528) S2000x528.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S528x256.size a ≤ S528x256.size a
  hwx6_1 : ∀ i : grid6.Coords, EltTy.bits .f32 = 32 ∨ (Rect.block (s := S528x256) S528x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S200000x128.size a
  hwx6_5 : ∀ i : grid6.Coords, EltTy.bits .f32 = 32 ∨ (Rect.block (s := S200000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S20000x1.size a
  hwx7_1 : ∀ i : grid7.Coords, EltTy.bits .f32 = 32 ∨ (Rect.block (s := S20000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S20000x128.size a
  hwx7_6 : ∀ i : grid7.Coords, EltTy.bits .f32 = 32 ∨ (Rect.block (s := S20000x128) S2000x128.size (cc7_transform_6 i) (hinb7_6 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x12.size a ≤ S128x12.size a
  hwx8_1 : ∀ i : grid8.Coords, EltTy.bits .f32 = 32 ∨ (Rect.block (s := S128x12) S128x12.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x12.size a ≤ S1x12.size a
  hwx8_2 : ∀ i : grid8.Coords, EltTy.bits .f32 = 32 ∨ (Rect.block (s := S1x12) S1x12.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x12.size a ≤ S512x12.size a
  hwx8_3 : ∀ i : grid8.Coords, EltTy.bits .f32 = 32 ∨ (Rect.block (s := S512x12) S512x12.size (cc8_transform_3 i) (hinb8_3 i)).WholeWords (EltTy.packing .f32)

variable [Facts₀]

def dot_S2000x8_S8x16_S2000x16_1_0_0_1_n_n : DotDims S2000x8 S8x16 S2000x16 where
  lhsContracting := [1]
  rhsContracting := [0]
  lhsNonContracting := [0]
  rhsNonContracting := [1]
  lhsBatch := []
  rhsBatch := []
  wf := dot_S2000x8_S8x16_S2000x16_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S2000x528_S528x512_S2000x512_1_0_0_1_n_n : DotDims S2000x528 S528x512 S2000x512 where
  lhsContracting := [1]
  rhsContracting := [0]
  lhsNonContracting := [0]
  rhsNonContracting := [1]
  lhsBatch := []
  rhsBatch := []
  wf := dot_S2000x528_S528x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S2000x528_S528x256_S2000x256_1_0_0_1_n_n : DotDims S2000x528 S528x256 S2000x256 where
  lhsContracting := [1]
  rhsContracting := [0]
  lhsNonContracting := [0]
  rhsNonContracting := [1]
  lhsBatch := []
  rhsBatch := []
  wf := dot_S2000x528_S528x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S512x128_S20000x1_S20000x128_1_0_0_1 : ScatterDims S512x128 S20000x1 S20000x128 where
  updateWindowDims := [1]
  insertedWindowDims := [0]
  scatterDimsToOperandDims := [0]
  indexVectorDim := 1
  wf := scatter_S512x128_S20000x1_S20000x128_1_0_0_1_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf
def dot_S512x128_S128x12_S512x12_1_0_0_1_n_n : DotDims S512x128 S128x12 S512x12 where
  lhsContracting := [1]
  rhsContracting := [0]
  lhsNonContracting := [0]
  rhsNonContracting := [1]
  lhsBatch := []
  rhsBatch := []
  wf := dot_S512x128_S128x12_S512x12_1_0_0_1_n_n_wf

abbrev win0_0 : Pipeline.Window sig grid0 :=
  Pipeline.Window.ofSpec (Memref.whole main_arg2) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S2000x528.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S528x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v20) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v33) S2000x528.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S528x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v38) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v41) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v50) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v51) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v54) S2000x528.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S528x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v56) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v59) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v62) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v68) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v69) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v70) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v71) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v72) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v84) S512x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v85) S128x12.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v86) S1x12.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v87) S512x12.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S20000x32 : Shape := ⟨2, ![20000, 32]⟩
abbrev S2x200000 : Shape := ⟨2, ![2, 200000]⟩
abbrev S200000x8 : Shape := ⟨2, ![200000, 8]⟩
abbrev S20000 : Shape := ⟨1, ![20000]⟩
abbrev S16x8 : Shape := ⟨2, ![16, 8]⟩
abbrev S16 : Shape := ⟨1, ![16]⟩
abbrev S256x32 : Shape := ⟨2, ![256, 32]⟩
abbrev S256 : Shape := ⟨1, ![256]⟩
abbrev S512x528 : Shape := ⟨2, ![512, 528]⟩
abbrev S512 : Shape := ⟨1, ![512]⟩
abbrev S256x512 : Shape := ⟨2, ![256, 512]⟩
abbrev S256x528 : Shape := ⟨2, ![256, 528]⟩
abbrev S128x256 : Shape := ⟨2, ![128, 256]⟩
abbrev S128 : Shape := ⟨1, ![128]⟩
abbrev S12x128 : Shape := ⟨2, ![12, 128]⟩
abbrev S12 : Shape := ⟨1, ![12]⟩
abbrev S1x200000 : Shape := ⟨2, ![1, 200000]⟩
abbrev S200000 : Shape := ⟨1, ![200000]⟩
abbrev S8x16 : Shape := ⟨2, ![8, 16]⟩
abbrev S200000x16 : Shape := ⟨2, ![200000, 16]⟩
abbrev S1x16 : Shape := ⟨2, ![1, 16]⟩
abbrev S_ : Shape := ⟨0, ![]⟩
abbrev S32x256 : Shape := ⟨2, ![32, 256]⟩
abbrev S20000x256 : Shape := ⟨2, ![20000, 256]⟩
abbrev S1x256 : Shape := ⟨2, ![1, 256]⟩
abbrev S200000x1 : Shape := ⟨2, ![200000, 1]⟩
abbrev S200000x256 : Shape := ⟨2, ![200000, 256]⟩
abbrev S200000x528 : Shape := ⟨2, ![200000, 528]⟩
abbrev S528x512 : Shape := ⟨2, ![528, 512]⟩
abbrev S200000x512 : Shape := ⟨2, ![200000, 512]⟩
abbrev S1x512 : Shape := ⟨2, ![1, 512]⟩
abbrev S512x256 : Shape := ⟨2, ![512, 256]⟩
abbrev S20000x1 : Shape := ⟨2, ![20000, 1]⟩
abbrev S528x256 : Shape := ⟨2, ![528, 256]⟩
abbrev S256x128 : Shape := ⟨2, ![256, 128]⟩
abbrev S200000x128 : Shape := ⟨2, ![200000, 128]⟩
abbrev S1x128 : Shape := ⟨2, ![1, 128]⟩
abbrev S20000x128 : Shape := ⟨2, ![20000, 128]⟩
abbrev S512x128 : Shape := ⟨2, ![512, 128]⟩
abbrev S512x1 : Shape := ⟨2, ![512, 1]⟩
abbrev S128x12 : Shape := ⟨2, ![128, 12]⟩
abbrev S512x12 : Shape := ⟨2, ![512, 12]⟩
abbrev S1x12 : Shape := ⟨2, ![1, 12]⟩

abbrev nBuf : Space → Nat
  | .hbm => 284
  | .vmem => 0
  | .smem => 0
  | _ => 0

abbrev hbmTy0_0 (i : Nat) : BufTy := match i % 128 with
  | 0 => ⟨S20000x32, .f32⟩
  | 1 => ⟨S2x200000, .i32⟩
  | 2 => ⟨S200000x8, .f32⟩
  | 3 => ⟨S20000, .i32⟩
  | 4 => ⟨S16x8, .f32⟩
  | 5 => ⟨S16, .f32⟩
  | 6 => ⟨S256x32, .f32⟩
  | 7 => ⟨S256, .f32⟩
  | 8 => ⟨S512x528, .f32⟩
  | 9 => ⟨S512, .f32⟩
  | 10 => ⟨S256x512, .f32⟩
  | 11 => ⟨S256, .f32⟩
  | 12 => ⟨S512x528, .f32⟩
  | 13 => ⟨S512, .f32⟩
  | 14 => ⟨S256x512, .f32⟩
  | 15 => ⟨S256, .f32⟩
  | 16 => ⟨S256x528, .f32⟩
  | 17 => ⟨S256, .f32⟩
  | 18 => ⟨S128x256, .f32⟩
  | 19 => ⟨S128, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256, .f32⟩
  | 27 => ⟨S256, .f32⟩
  | 28 => ⟨S128, .f32⟩
  | 29 => ⟨S128, .f32⟩
  | 30 => ⟨S128, .f32⟩
  | 31 => ⟨S128, .f32⟩
  | 32 => ⟨S12x128, .f32⟩
  | 33 => ⟨S12, .f32⟩
  | 34 => ⟨S1x200000, .i32⟩
  | 35 => ⟨S200000, .i32⟩
  | 36 => ⟨S1x200000, .i32⟩
  | 37 => ⟨S200000, .i32⟩
  | 38 => ⟨S8x16, .f32⟩
  | 39 => ⟨S200000x16, .f32⟩
  | 40 => ⟨S1x16, .f32⟩
  | 41 => ⟨S200000x16, .f32⟩
  | 42 => ⟨S200000x16, .f32⟩
  | 43 => ⟨S_, .f32⟩
  | 44 => ⟨S200000x16, .f32⟩
  | 45 => ⟨S200000x16, .f32⟩
  | 46 => ⟨S32x256, .f32⟩
  | 47 => ⟨S20000x256, .f32⟩
  | 48 => ⟨S1x256, .f32⟩
  | 49 => ⟨S20000x256, .f32⟩
  | 50 => ⟨S20000x256, .f32⟩
  | 51 => ⟨S_, .f32⟩
  | 52 => ⟨S20000x256, .f32⟩
  | 53 => ⟨S20000x256, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x256, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x256, .f32⟩
  | 72 => ⟨S200000x528, .f32⟩
  | 73 => ⟨S528x512, .f32⟩
  | 74 => ⟨S200000x512, .f32⟩
  | 75 => ⟨S1x512, .f32⟩
  | 76 => ⟨S200000x512, .f32⟩
  | 77 => ⟨S200000x512, .f32⟩
  | 78 => ⟨S_, .f32⟩
  | 79 => ⟨S200000x512, .f32⟩
  | 80 => ⟨S200000x512, .f32⟩
  | 81 => ⟨S512x256, .f32⟩
  | 82 => ⟨S200000x256, .f32⟩
  | 83 => ⟨S1x256, .f32⟩
  | 84 => ⟨S200000x256, .f32⟩
  | 85 => ⟨S200000x256, .f32⟩
  | 86 => ⟨S_, .f32⟩
  | 87 => ⟨S20000x256, .f32⟩
  | 88 => ⟨S200000x1, .i32⟩
  | 89 => ⟨S20000x256, .f32⟩
  | 90 => ⟨S_, .f32⟩
  | 91 => ⟨S200000, .f32⟩
  | 92 => ⟨S_, .f32⟩
  | 93 => ⟨S20000, .f32⟩
  | 94 => ⟨S200000x1, .i32⟩
  | 95 => ⟨S20000, .f32⟩
  | 96 => ⟨S_, .f32⟩
  | 97 => ⟨S20000, .f32⟩
  | 98 => ⟨S20000, .f32⟩
  | 99 => ⟨S20000x1, .f32⟩
  | 100 => ⟨S20000x256, .f32⟩
  | 101 => ⟨S20000x256, .f32⟩
  | 102 => ⟨S1x256, .f32⟩
  | 103 => ⟨S20000x256, .f32⟩
  | 104 => ⟨S20000x256, .f32⟩
  | 105 => ⟨S_, .f32⟩
  | 106 => ⟨S256, .f32⟩
  | 107 => ⟨S256, .f32⟩
  | 108 => ⟨S256, .f32⟩
  | 109 => ⟨S1x256, .f32⟩
  | 110 => ⟨S20000x256, .f32⟩
  | 111 => ⟨S20000x256, .f32⟩
  | 112 => ⟨S1x256, .f32⟩
  | 113 => ⟨S20000x256, .f32⟩
  | 114 => ⟨S20000x256, .f32⟩
  | 115 => ⟨S1x256, .f32⟩
  | 116 => ⟨S20000x256, .f32⟩
  | 117 => ⟨S20000x256, .f32⟩
  | 118 => ⟨S_, .f32⟩
  | 119 => ⟨S20000x256, .f32⟩
  | 120 => ⟨S20000x256, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S20000x32, .f32⟩

abbrev hbmTy0_1 (i : Nat) : BufTy := match i % 128 with
  | 0 => ⟨S200000x1, .i32⟩
  | 1 => ⟨S200000x256, .f32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x256, .f32⟩
  | 11 => ⟨S200000x528, .f32⟩
  | 12 => ⟨S528x512, .f32⟩
  | 13 => ⟨S200000x512, .f32⟩
  | 14 => ⟨S1x512, .f32⟩
  | 15 => ⟨S200000x512, .f32⟩
  | 16 => ⟨S200000x512, .f32⟩
  | 17 => ⟨S_, .f32⟩
  | 18 => ⟨S200000x512, .f32⟩
  | 19 => ⟨S200000x512, .f32⟩
  | 20 => ⟨S512x256, .f32⟩
  | 21 => ⟨S200000x256, .f32⟩
  | 22 => ⟨S1x256, .f32⟩
  | 23 => ⟨S200000x256, .f32⟩
  | 24 => ⟨S200000x256, .f32⟩
  | 25 => ⟨S_, .f32⟩
  | 26 => ⟨S20000x256, .f32⟩
  | 27 => ⟨S200000x1, .i32⟩
  | 28 => ⟨S20000x256, .f32⟩
  | 29 => ⟨S_, .f32⟩
  | 30 => ⟨S200000, .f32⟩
  | 31 => ⟨S_, .f32⟩
  | 32 => ⟨S20000, .f32⟩
  | 33 => ⟨S200000x1, .i32⟩
  | 34 => ⟨S20000, .f32⟩
  | 35 => ⟨S_, .f32⟩
  | 36 => ⟨S20000, .f32⟩
  | 37 => ⟨S20000, .f32⟩
  | 38 => ⟨S20000x1, .f32⟩
  | 39 => ⟨S20000x256, .f32⟩
  | 40 => ⟨S20000x256, .f32⟩
  | 41 => ⟨S1x256, .f32⟩
  | 42 => ⟨S20000x256, .f32⟩
  | 43 => ⟨S20000x256, .f32⟩
  | 44 => ⟨S_, .f32⟩
  | 45 => ⟨S256, .f32⟩
  | 46 => ⟨S256, .f32⟩
  | 47 => ⟨S256, .f32⟩
  | 48 => ⟨S1x256, .f32⟩
  | 49 => ⟨S20000x256, .f32⟩
  | 50 => ⟨S20000x256, .f32⟩
  | 51 => ⟨S1x256, .f32⟩
  | 52 => ⟨S20000x256, .f32⟩
  | 53 => ⟨S20000x256, .f32⟩
  | 54 => ⟨S1x256, .f32⟩
  | 55 => ⟨S20000x256, .f32⟩
  | 56 => ⟨S20000x256, .f32⟩
  | 57 => ⟨S_, .f32⟩
  | 58 => ⟨S20000x256, .f32⟩
  | 59 => ⟨S20000x256, .f32⟩
  | 60 => ⟨S_, .i32⟩
  | 61 => ⟨S200000, .i32⟩
  | 62 => ⟨S200000, .i1⟩
  | 63 => ⟨S_, .i32⟩
  | 64 => ⟨S200000, .i32⟩
  | 65 => ⟨S200000, .i32⟩
  | 66 => ⟨S200000, .i32⟩
  | 67 => ⟨S200000x1, .i32⟩
  | 68 => ⟨S200000x256, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x256, .f32⟩
  | 78 => ⟨S200000x528, .f32⟩
  | 79 => ⟨S528x256, .f32⟩
  | 80 => ⟨S200000x256, .f32⟩
  | 81 => ⟨S1x256, .f32⟩
  | 82 => ⟨S200000x256, .f32⟩
  | 83 => ⟨S200000x256, .f32⟩
  | 84 => ⟨S_, .f32⟩
  | 85 => ⟨S200000x256, .f32⟩
  | 86 => ⟨S200000x256, .f32⟩
  | 87 => ⟨S256x128, .f32⟩
  | 88 => ⟨S200000x128, .f32⟩
  | 89 => ⟨S1x128, .f32⟩
  | 90 => ⟨S200000x128, .f32⟩
  | 91 => ⟨S200000x128, .f32⟩
  | 92 => ⟨S_, .f32⟩
  | 93 => ⟨S20000x128, .f32⟩
  | 94 => ⟨S200000x1, .i32⟩
  | 95 => ⟨S20000x128, .f32⟩
  | 96 => ⟨S_, .f32⟩
  | 97 => ⟨S200000, .f32⟩
  | 98 => ⟨S_, .f32⟩
  | 99 => ⟨S20000, .f32⟩
  | 100 => ⟨S200000x1, .i32⟩
  | 101 => ⟨S20000, .f32⟩
  | 102 => ⟨S_, .f32⟩
  | 103 => ⟨S20000, .f32⟩
  | 104 => ⟨S20000, .f32⟩
  | 105 => ⟨S20000x1, .f32⟩
  | 106 => ⟨S20000x128, .f32⟩
  | 107 => ⟨S20000x128, .f32⟩
  | 108 => ⟨S1x128, .f32⟩
  | 109 => ⟨S20000x128, .f32⟩
  | 110 => ⟨S20000x128, .f32⟩
  | 111 => ⟨S_, .f32⟩
  | 112 => ⟨S128, .f32⟩
  | 113 => ⟨S128, .f32⟩
  | 114 => ⟨S128, .f32⟩
  | 115 => ⟨S1x128, .f32⟩
  | 116 => ⟨S20000x128, .f32⟩
  | 117 => ⟨S20000x128, .f32⟩
  | 118 => ⟨S1x128, .f32⟩
  | 119 => ⟨S20000x128, .f32⟩
  | 120 => ⟨S20000x128, .f32⟩
  | 121 => ⟨S1x128, .f32⟩
  | 122 => ⟨S20000x128, .f32⟩
  | 123 => ⟨S20000x128, .f32⟩
  | 124 => ⟨S_, .f32⟩
  | 125 => ⟨S20000x128, .f32⟩
  | 126 => ⟨S20000x128, .f32⟩
  | 127 => ⟨S_, .f32⟩
  | _ => ⟨S20000x32, .f32⟩

abbrev hbmTy0_2 (i : Nat) : BufTy := match i % 128 with
  | 0 => ⟨S512x128, .f32⟩
  | 1 => ⟨S20000x1, .i32⟩
  | 2 => ⟨S512x128, .f32⟩
  | 3 => ⟨S_, .f32⟩
  | 4 => ⟨S20000, .f32⟩
  | 5 => ⟨S_, .f32⟩
  | 6 => ⟨S512, .f32⟩
  | 7 => ⟨S20000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x128, .f32⟩
  | 14 => ⟨S512x128, .f32⟩
  | 15 => ⟨S128x12, .f32⟩
  | 16 => ⟨S512x12, .f32⟩
  | 17 => ⟨S1x12, .f32⟩
  | 18 => ⟨S512x12, .f32⟩
  | 19 => ⟨S512x12, .f32⟩
  | 20 => ⟨S512x12, .f32⟩
  | 21 => ⟨S512x12, .f32⟩
  | 22 => ⟨S_, .f32⟩
  | 23 => ⟨S512x12, .f32⟩
  | 24 => ⟨S512x12, .f32⟩
  | 25 => ⟨S_, .f32⟩
  | 26 => ⟨S512x12, .f32⟩
  | 27 => ⟨S512x12, .f32⟩
  | _ => ⟨S20000x32, .f32⟩

abbrev hbmTy (i : Nat) : BufTy := match i / 128 with
  | 0 => hbmTy0_0 i
  | 1 => hbmTy0_1 i
  | 2 => hbmTy0_2 i
  | _ => ⟨S20000x32, .f32⟩

abbrev bufTy : (tb : Table) → Fin (tcTables nBuf tb) → BufTy
  | .hbm, ⟨i, _⟩ => hbmTy i
  | _, _ => ⟨S20000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_call0_cst : Ref sig .tc := ⟨.hbm, 43, rfl⟩
abbrev main_call0_v0 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call1_cst : Ref sig .tc := ⟨.hbm, 51, rfl⟩
abbrev main_call1_v0 : Ref sig .tc := ⟨.hbm, 52, rfl⟩
abbrev main_v15 : Ref sig .tc := ⟨.hbm, 53, rfl⟩
abbrev main_c : Ref sig .tc := ⟨.hbm, 54, rfl⟩
abbrev main_v16 : Ref sig .tc := ⟨.hbm, 55, rfl⟩
abbrev main_v17 : Ref sig .tc := ⟨.hbm, 56, rfl⟩
abbrev main_c_0 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_1 : Ref sig .tc := ⟨.hbm, 63, rfl⟩
abbrev main_v23 : Ref sig .tc := ⟨.hbm, 64, rfl⟩
abbrev main_v24 : Ref sig .tc := ⟨.hbm, 65, rfl⟩
abbrev main_c_2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call2_cst : Ref sig .tc := ⟨.hbm, 78, rfl⟩
abbrev main_call2_v0 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_3 : Ref sig .tc := ⟨.hbm, 90, rfl⟩
abbrev main_v45 : Ref sig .tc := ⟨.hbm, 91, rfl⟩
abbrev main_cst_4 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_5 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_6 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call3_cst : Ref sig .tc := ⟨.hbm, 118, rfl⟩
abbrev main_call3_v0 : Ref sig .tc := ⟨.hbm, 119, rfl⟩
abbrev main_v69 : Ref sig .tc := ⟨.hbm, 120, rfl⟩
abbrev main_c_7 : Ref sig .tc := ⟨.hbm, 121, rfl⟩
abbrev main_v70 : Ref sig .tc := ⟨.hbm, 122, rfl⟩
abbrev main_v71 : Ref sig .tc := ⟨.hbm, 123, rfl⟩
abbrev main_c_8 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_c_9 : Ref sig .tc := ⟨.hbm, 130, rfl⟩
abbrev main_v77 : Ref sig .tc := ⟨.hbm, 131, rfl⟩
abbrev main_v78 : Ref sig .tc := ⟨.hbm, 132, rfl⟩
abbrev main_c_10 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_call4_cst : Ref sig .tc := ⟨.hbm, 145, rfl⟩
abbrev main_call4_v0 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_11 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_12 : Ref sig .tc := ⟨.hbm, 157, rfl⟩
abbrev main_v99 : Ref sig .tc := ⟨.hbm, 158, rfl⟩
abbrev main_cst_13 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_14 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_15 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_call5_cst : Ref sig .tc := ⟨.hbm, 185, rfl⟩
abbrev main_call5_v0 : Ref sig .tc := ⟨.hbm, 186, rfl⟩
abbrev main_v123 : Ref sig .tc := ⟨.hbm, 187, rfl⟩
abbrev main_c_16 : Ref sig .tc := ⟨.hbm, 188, rfl⟩
abbrev main_v124 : Ref sig .tc := ⟨.hbm, 189, rfl⟩
abbrev main_v125 : Ref sig .tc := ⟨.hbm, 190, rfl⟩
abbrev main_c_17 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_c_18 : Ref sig .tc := ⟨.hbm, 197, rfl⟩
abbrev main_v131 : Ref sig .tc := ⟨.hbm, 198, rfl⟩
abbrev main_v132 : Ref sig .tc := ⟨.hbm, 199, rfl⟩
abbrev main_c_19 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_call6_cst : Ref sig .tc := ⟨.hbm, 212, rfl⟩
abbrev main_call6_v0 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_20 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_21 : Ref sig .tc := ⟨.hbm, 224, rfl⟩
abbrev main_v153 : Ref sig .tc := ⟨.hbm, 225, rfl⟩
abbrev main_cst_22 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_23 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_24 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_call7_cst : Ref sig .tc := ⟨.hbm, 252, rfl⟩
abbrev main_call7_v0 : Ref sig .tc := ⟨.hbm, 253, rfl⟩
abbrev main_v177 : Ref sig .tc := ⟨.hbm, 254, rfl⟩
abbrev main_cst_25 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_cst_26 : Ref sig .tc := ⟨.hbm, 259, rfl⟩
abbrev main_v181 : Ref sig .tc := ⟨.hbm, 260, rfl⟩
abbrev main_cst_27 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_cst_28 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_cst_29 : Ref sig .tc := ⟨.hbm, 278, rfl⟩
abbrev main_v197 : Ref sig .tc := ⟨.hbm, 279, rfl⟩
abbrev main_v198 : Ref sig .tc := ⟨.hbm, 280, rfl⟩
abbrev main_cst_30 : Ref sig .tc := ⟨.hbm, 281, rfl⟩
abbrev main_v199 : Ref sig .tc := ⟨.hbm, 282, rfl⟩
abbrev main_v200 : Ref sig .tc := ⟨.hbm, 283, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S16x8_S8x16_1_0 : S16x8.Transposes [1, 0] S8x16
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  transposes_S256x32_S32x256_1_0 : S256x32.Transposes [1, 0] S32x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x16_S200000x528_d1 : Shape.Concatenates [S200000x256, S200000x256, S200000x16] S200000x528 1
  transposes_S512x528_S528x512_1_0 : S512x528.Transposes [1, 0] S528x512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  transposes_S256x512_S512x256_1_0 : S256x512.Transposes [1, 0] S512x256
  bcast_S1x256_S200000x256_0_1 : S1x256.BroadcastsInDim S200000x256 (![0, 1] : Fin 2 → Fin S200000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S256 : S_.BroadcastsInDim S256 (![] : Fin 0 → Fin S256.rank)
  transposes_S256x528_S528x256_1_0 : S256x528.Transposes [1, 0] S528x256
  bcast_S_S200000x256 : S_.BroadcastsInDim S200000x256 (![] : Fin 0 → Fin S200000x256.rank)
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S128 : S_.BroadcastsInDim S128 (![] : Fin 0 → Fin S128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S12x128_S128x12_1_0 : S12x128.Transposes [1, 0] S128x12
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  bcast_S_S512x12 : S_.BroadcastsInDim S512x12 (![] : Fin 0 → Fin S512x12.rank)
  dot_S200000x8_S8x16_S200000x16_1_0_0_1_n_n_wf : DotDims.WF S200000x8 S8x16 S200000x16 [1] [0] [0] [1] [] []
  dot_S20000x32_S32x256_S20000x256_1_0_0_1_n_n_wf : DotDims.WF S20000x32 S32x256 S20000x256 [1] [0] [0] [1] [] []
  gather_S20000x256_S200000x1_S200000x256_1_0_n_n_0_1_1256_wf : GatherDims.WF S20000x256 S200000x1 S200000x256 [1] [0] [] [0] [] 1 ![1, 256]
  dot_S200000x528_S528x512_S200000x512_1_0_0_1_n_n_wf : DotDims.WF S200000x528 S528x512 S200000x512 [1] [0] [0] [1] [] []
  dot_S200000x512_S512x256_S200000x256_1_0_0_1_n_n_wf : DotDims.WF S200000x512 S512x256 S200000x256 [1] [0] [0] [1] [] []
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S200000x528_S528x256_S200000x256_1_0_0_1_n_n_wf : DotDims.WF S200000x528 S528x256 S200000x256 [1] [0] [0] [1] [] []
  dot_S200000x256_S256x128_S200000x128_1_0_0_1_n_n_wf : DotDims.WF S200000x256 S256x128 S200000x128 [1] [0] [0] [1] [] []
  scatter_S20000x128_S200000x1_S200000x128_1_0_0_1_wf : ScatterDims.WF S20000x128 S200000x1 S200000x128 [1] [0] [0] 1
  scatter_S512x128_S20000x1_S20000x128_1_0_0_1_wf : ScatterDims.WF S512x128 S20000x1 S20000x128 [1] [0] [0] 1
  scatter_S512_S20000x1_S20000_n_0_0_1_wf : ScatterDims.WF S512 S20000x1 S20000 [] [0] [0] 1
  dot_S512x128_S128x12_S512x12_1_0_0_1_n_n_wf : DotDims.WF S512x128 S128x12 S512x12 [1] [0] [0] [1] [] []

variable [Facts₀]

def dot_S200000x8_S8x16_S200000x16_1_0_0_1_n_n : DotDims S200000x8 S8x16 S200000x16 where
  lhsContracting := [1]
  rhsContracting := [0]
  lhsNonContracting := [0]
  rhsNonContracting := [1]
  lhsBatch := []
  rhsBatch := []
  wf := dot_S200000x8_S8x16_S200000x16_1_0_0_1_n_n_wf
def dot_S20000x32_S32x256_S20000x256_1_0_0_1_n_n : DotDims S20000x32 S32x256 S20000x256 where
  lhsContracting := [1]
  rhsContracting := [0]
  lhsNonContracting := [0]
  rhsNonContracting := [1]
  lhsBatch := []
  rhsBatch := []
  wf := dot_S20000x32_S32x256_S20000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def dot_S200000x528_S528x512_S200000x512_1_0_0_1_n_n : DotDims S200000x528 S528x512 S200000x512 where
  lhsContracting := [1]
  rhsContracting := [0]
  lhsNonContracting := [0]
  rhsNonContracting := [1]
  lhsBatch := []
  rhsBatch := []
  wf := dot_S200000x528_S528x512_S200000x512_1_0_0_1_n_n_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S200000x528_S528x256_S200000x256_1_0_0_1_n_n : DotDims S200000x528 S528x256 S200000x256 where
  lhsContracting := [1]
  rhsContracting := [0]
  lhsNonContracting := [0]
  rhsNonContracting := [1]
  lhsBatch := []
  rhsBatch := []
  wf := dot_S200000x528_S528x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S512x128_S20000x1_S20000x128_1_0_0_1 : ScatterDims S512x128 S20000x1 S20000x128 where
  updateWindowDims := [1]
  insertedWindowDims := [0]
  scatterDimsToOperandDims := [0]
  indexVectorDim := 1
  wf := scatter_S512x128_S20000x1_S20000x128_1_0_0_1_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf
def dot_S512x128_S128x12_S512x12_1_0_0_1_n_n : DotDims S512x128 S128x12 S512x12 where
  lhsContracting := [1]
  rhsContracting := [0]
  lhsNonContracting := [0]
  rhsNonContracting := [1]
  lhsBatch := []
  rhsBatch := []
  wf := dot_S512x128_S128x12_S512x12_1_0_0_1_n_n_wf

class Facts : Prop extends Facts₀ where

variable [Facts]
-- ==== Proof.RefRead.lean ====
import proofs.«424575_j83829171683414_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S20000x32, .f32⟩ : BufTy).Contents (Elt F))
  (x1 : (⟨S2x200000, .i32⟩ : BufTy).Contents (Elt F))
  (x2 : (⟨S200000x8, .f32⟩ : BufTy).Contents (Elt F))
  (x3 : (⟨S20000, .i32⟩ : BufTy).Contents (Elt F))
  (x4 : (⟨S16x8, .f32⟩ : BufTy).Contents (Elt F))
  (x5 : (⟨S16, .f32⟩ : BufTy).Contents (Elt F))
  (x6 : (⟨S256x32, .f32⟩ : BufTy).Contents (Elt F))
  (x7 : (⟨S256, .f32⟩ : BufTy).Contents (Elt F))
  (x8 : (⟨S512x528, .f32⟩ : BufTy).Contents (Elt F))
  (x9 : (⟨S512, .f32⟩ : BufTy).Contents (Elt F))
  (x10 : (⟨S256x512, .f32⟩ : BufTy).Contents (Elt F))
  (x11 : (⟨S256, .f32⟩ : BufTy).Contents (Elt F))
  (x12 : (⟨S512x528, .f32⟩ : BufTy).Contents (Elt F))
  (x13 : (⟨S512, .f32⟩ : BufTy).Contents (Elt F))
  (x14 : (⟨S256x512, .f32⟩ : BufTy).Contents (Elt F))
  (x15 : (⟨S256, .f32⟩ : BufTy).Contents (Elt F))
  (x16 : (⟨S256x528, .f32⟩ : BufTy).Contents (Elt F))
  (x17 : (⟨S256, .f32⟩ : BufTy).Contents (Elt F))
  (x18 : (⟨S128x256, .f32⟩ : BufTy).Contents (Elt F))
  (x19 : (⟨S128, .f32⟩ : BufTy).Contents (Elt F))
  (x20 : (⟨S256, .f32⟩ : BufTy).Contents (Elt F))
  (x21 : (⟨S256, .f32⟩ : BufTy).Contents (Elt F))
  (x22 : (⟨S256, .f32⟩ : BufTy).Contents (Elt F))
  (x23 : (⟨S256, .f32⟩ : BufTy).Contents (Elt F))
  (x24 : (⟨S256, .f32⟩ : BufTy).Contents (Elt F))
  (x25 : (⟨S256, .f32⟩ : BufTy).Contents (Elt F))
  (x26 : (⟨S256, .f32⟩ : BufTy).Contents (Elt F))
  (x27 : (⟨S256, .f32⟩ : BufTy).Contents (Elt F))
  (x28 : (⟨S128, .f32⟩ : BufTy).Contents (Elt F))
  (x29 : (⟨S128, .f32⟩ : BufTy).Contents (Elt F))
  (x30 : (⟨S128, .f32⟩ : BufTy).Contents (Elt F))
  (x31 : (⟨S128, .f32⟩ : BufTy).Contents (Elt F))
  (x32 : (⟨S12x128, .f32⟩ : BufTy).Contents (Elt F))
  (x33 : (⟨S12, .f32⟩ : BufTy).Contents (Elt F))

def val_main_v0 : (⟨S1x200000, .i32⟩ : BufTy).Contents (Elt F) :=
  extractStridedSlice S1x200000 ![0, 0] (x1) slices_S2x200000_S1x200000_0_0
abbrev idx_main_v0 (i : S1x200000.Idx) : S2x200000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x200000.Idx) :
    val_main_v0 (F := F) x1 i = x1 (idx_main_v0 i) := by
  unfold val_main_v0
  exact extractStridedSlice_apply ![0, 0] x1 slices_S2x200000_S1x200000_0_0 i (idx_main_v0 i) (fun a => match a with
    | ⟨0, _⟩ => by show (i 0).val = 0 + (i 0).val; omega
    | ⟨1, _⟩ => by show (i 1).val = 0 + (i 1).val; omega)

def val_main_v1 : (⟨S200000, .i32⟩ : BufTy).Contents (Elt F) :=
  shapeCast _ (val_main_v0 (F := F) x1) shapeCasts_S1x200000_S200000
abbrev idx_main_v1 (i : S200000.Idx) : S1x200000.Idx := fun a => match a with
  | ⟨0, _⟩ => ⟨0, Nat.one_pos⟩
  | ⟨1, _⟩ => ⟨((i 0).val) % 200000, by have h0 : (i 0).val < 200000 := (i 0).isLt; show ((i 0).val) % 200000 < 200000; omega⟩
theorem val_main_v1_apply (i : S200000.Idx) :
    val_main_v1 (F := F) x1 i = val_main_v0 (F := F) x1 (idx_main_v1 i) := by
  unfold val_main_v1
  generalize val_main_v0 (F := F) x1 = y
  exact shapeCast_apply y shapeCasts_S1x200000_S200000 i (idx_main_v1 i)
    (by rewrite [Shape.rowMajor_val_two, Shape.rowMajor_val_one]; have h0 : (i 0).val < 200000 := (i 0).isLt; show 0 * 200000 + ((i 0).val) % 200000 = (i 0).val; omega)

def val_main_v2 : (⟨S1x200000, .i32⟩ : BufTy).Contents (Elt F) :=
  extractStridedSlice S1x200000 ![1, 0] (x1) slices_S2x200000_S1x200000_1_0
abbrev idx_main_v2 (i : S1x200000.Idx) : S2x200000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x200000.Idx) :
    val_main_v2 (F := F) x1 i = x1 (idx_main_v2 i) := by
  unfold val_main_v2
  exact extractStridedSlice_apply ![1, 0] x1 slices_S2x200000_S1x200000_1_0 i (idx_main_v2 i) (fun a => match a with
    | ⟨0, _⟩ => by show 1 + (i 0).val = 1 + (i 0).val; omega
    | ⟨1, _⟩ => by show (i 1).val = 0 + (i 1).val; omega)

def val_main_v3 : (⟨S200000, .i32⟩ : BufTy).Contents (Elt F) :=
  shapeCast _ (val_main_v2 (F := F) x1) shapeCasts_S1x200000_S200000
abbrev idx_main_v3 (i : S200000.Idx) : S1x200000.Idx := fun a => match a with
  | ⟨0, _⟩ => ⟨0, Nat.one_pos⟩
  | ⟨1, _⟩ => ⟨((i 0).val) % 200000, by have h0 : (i 0).val < 200000 := (i 0).isLt; show ((i 0).val) % 200000 < 200000; omega⟩
theorem val_main_v3_apply (i : S200000.Idx) :
    val_main_v3 (F := F) x1 i = val_main_v2 (F := F) x1 (idx_main_v3 i) := by
  unfold val_main_v3
  generalize val_main_v2 (F := F) x1 = y
  exact shapeCast_apply y shapeCasts_S1x200000_S200000 i (idx_main_v3 i)
    (by rewrite [Shape.rowMajor_val_two, Shape.rowMajor_val_one]; have h0 : (i 0).val < 200000 := (i 0).isLt; show 0 * 200000 + ((i 0).val) % 200000 = (i 0).val; omega)

def val_main_v4 : (⟨S8x16, .f32⟩ : BufTy).Contents (Elt F) :=
  transpose S8x16 [1, 0] (x4) transposes_S16x8_S8x16_1_0

def val_main_v5 : (⟨S200000x16, .f32⟩ : BufTy).Contents (Elt F) :=
  Host.dotGeneral dot_S200000x8_S8x16_S200000x16_1_0_0_1_n_n none (x2) (val_main_v4 (F := F) x4)

def val_main_v6 : (⟨S1x16, .f32⟩ : BufTy).Contents (Elt F) :=
  broadcastInDim S1x16 ![1] bcast_S16_S1x16_1 (x5)

def val_main_v7 : (⟨S200000x16, .f32⟩ : BufTy).Contents (Elt F) :=
  broadcastInDim S200000x16 ![0, 1] bcast_S1x16_S200000x16_0_1 (val_main_v6 (F := F) x5)

def val_main_v8 : (⟨S200000x16, .f32⟩ : BufTy).Contents (Elt F) :=
  addf (val_main_v5 (F := F) x2 x4) (val_main_v7 (F := F) x5)
def val_main_call0_cst : (⟨S_, .f32⟩ : BufTy).Contents (Elt F) :=
  constant S_ .f32 0x00000000#32
def val_main_call0_v0 : (⟨S200000x16, .f32⟩ : BufTy).Contents (Elt F) :=
  broadcastInDim S200000x16 ![] bcast_S_S200000x16 (val_main_call0_cst (F := F))

def val_main_v9 : (⟨S200000x16, .f32⟩ : BufTy).Contents (Elt F) :=
  maximumf (val_main_v8 (F := F) x2 x4 x5) (val_main_call0_v0 (F := F))

def val_main_v10 : (⟨S32x256, .f32⟩ : BufTy).Contents (Elt F) :=
  transpose S32x256 [1, 0] (x6) transposes_S256x32_S32x256_1_0

def val_main_v11 : (⟨S20000x256, .f32⟩ : BufTy).Contents (Elt F) :=
  Host.dotGeneral dot_S20000x32_S32x256_S20000x256_1_0_0_1_n_n none (x0) (val_main_v10 (F := F) x6)

def val_main_v12 : (⟨S1x256, .f32⟩ : BufTy).Contents (Elt F) :=
  broadcastInDim S1x256 ![1] bcast_S256_S1x256_1 (x7)

def val_main_v13 : (⟨S20000x256, .f32⟩ : BufTy).Contents (Elt F) :=
  broadcastInDim S20000x256 ![0, 1] bcast_S1x256_S20000x256_0_1 (val_main_v12 (F := F) x7)

def val_main_v14 : (⟨S20000x256, .f32⟩ : BufTy).Contents (Elt F) :=
  addf (val_main_v11 (F := F) x0 x6) (val_main_v13 (F := F) x7)
def val_main_call1_cst : (⟨S_, .f32⟩ : BufTy).Contents (Elt F) :=
  constant S_ .f32 0x00000000#32
def val_main_call1_v0 : (⟨S20000x256, .f32⟩ : BufTy).Contents (Elt F) :=
  broadcastInDim S20000x256 ![] bcast_S_S20000x256 (val_main_call1_cst (F := F))

def val_main_v15 : (⟨S20000x256, .f32⟩ : BufTy).Contents (Elt F) :=
  maximumf (val_main_v14 (F := F) x0 x6 x7) (val_main_call1_v0 (F := F))

def val_main_c : (⟨S_, .i32⟩ : BufTy).Contents (Elt F) :=
  constantI S_ 32 0#32

def val_main_v16 : (⟨S200000, .i32⟩ : BufTy).Contents (Elt F) :=
  broadcastInDim S200000 ![] bcast_S_S200000 (val_main_c (F := F))

def val_main_v17 : (⟨S200000, .i1⟩ : BufTy).Contents (Elt F) :=
  cmpi .slt (val_main_v3 (F := F) x1) (val_main_v16 (F := F))

def val_main_c_0 : (⟨S_, .i32⟩ : BufTy).Contents (Elt F) :=
  constantI S_ 32 20000#32

def val_main_v18 : (⟨S200000, .i32⟩ : BufTy).Contents (Elt F) :=
  broadcastInDim S200000 ![] bcast_S_S200000 (val_main_c_0 (F := F))

def val_main_v19 : (⟨S200000, .i32⟩ : BufTy).Contents (Elt F) :=
  addi (val_main_v3 (F := F) x1) (val_main_v18 (F := F))

def val_main_v20 : (⟨S200000, .i32⟩ : BufTy).Contents (Elt F) :=
  select (val_main_v17 (F := F) x1) (val_main_v19 (F := F) x1) (val_main_v3 (F := F) x1)

def val_main_v21 : (⟨S200000x1, .i32⟩ : BufTy).Contents (Elt F) :=
  broadcastInDim S200000x1 ![0] bcast_S200000_S200000x1_0 (val_main_v20 (F := F) x1)

def val_main_v22 : (⟨S200000x256, .f32⟩ : BufTy).Contents (Elt F) :=
  Host.gather gather_S20000x256_S200000x1_S200000x256_1_0_n_n_0_1_1256 (val_main_v15 (F := F) x0 x6 x7) (val_main_v21 (F := F) x1)

def val_main_c_1 : (⟨S_, .i32⟩ : BufTy).Contents (Elt F) :=
  constantI S_ 32 0#32

def val_main_v23 : (⟨S200000, .i32⟩ : BufTy).Contents (Elt F) :=
  broadcastInDim S200000 ![] bcast_S_S200000 (val_main_c_1 (F := F))

def val_main_v24 : (⟨S200000, .i1⟩ : BufTy).Contents (Elt F) :=
  cmpi .slt (val_main_v1 (F := F) x1) (val_main_v23 (F := F))

def val_main_c_2 : (⟨S_, .i32⟩ : BufTy).Contents (Elt F) :=
  constantI S_ 32 20000#32

def val_main_v25 : (⟨S200000, .i32⟩ : BufTy).Contents (Elt F) :=
  broadcastInDim S200000 ![] bcast_S_S200000 (val_main_c_2 (F := F))

def val_main_v26 : (⟨S200000, .i32⟩ : BufTy).Contents (Elt F) :=
  addi (val_main_v1 (F := F) x1) (val_main_v25 (F := F))

def val_main_v27 : (⟨S200000, .i32⟩ : BufTy).Contents (Elt F) :=
  select (val_main_v24 (F := F) x1) (val_main_v26 (F := F) x1) (val_main_v1 (F := F) x1)

def val_main_v28 : (⟨S200000x1, .i32⟩ : BufTy).Contents (Elt F) :=
  broadcastInDim S200000x1 ![0] bcast_S200000_S200000x1_0 (val_main_v27 (F := F) x1)

def val_main_v29 : (⟨S200000x256, .f32⟩ : BufTy).Contents (Elt F) :=
  Host.gather gather_S20000x256_S200000x1_S200000x256_1_0_n_n_0_1_1256 (val_main_v15 (F := F) x0 x6 x7) (val_main_v28 (F := F) x1)

def val_main_v30 : (⟨S200000x528, .f32⟩ : BufTy).Contents (Elt F) :=
  concatenate S200000x528 1 [⟨S200000x256, (val_main_v22 (F := F) x0 x1 x6 x7)⟩, ⟨S200000x256, (val_main_v29 (F := F) x0 x1 x6 x7)⟩, ⟨S200000x16, (val_main_v9 (F := F) x2 x4 x5)⟩] concatenates_S200000x256_S200000x256_S200000x16_S200000x528_d1

def val_main_v31 : (⟨S528x512, .f32⟩ : BufTy).Contents (Elt F) :=
  transpose S528x512 [1, 0] (x8) transposes_S512x528_S528x512_1_0

def val_main_v32 : (⟨S200000x512, .f32⟩ : BufTy).Contents (Elt F) :=
  Host.dotGeneral dot_S200000x528_S528x512_S200000x512_1_0_0_1_n_n none (val_main_v30 (F := F) x0 x1 x2 x4 x5 x6 x7) (val_main_v31 (F := F) x8)

def val_main_v33 : (⟨S1x512, .f32⟩ : BufTy).Contents (Elt F) :=
  broadcastInDim S1x512 ![1] bcast_S512_S1x512_1 (x9)

def val_main_v34 : (⟨S200000x512, .f32⟩ : BufTy).Contents (Elt F) :=
  broadcastInDim S200000x512 ![0, 1] bcast_S1x512_S200000x512_0_1 (val_main_v33 (F := F) x9)

def val_main_v35 : (⟨S200000x512, .f32⟩ : BufTy).Contents (Elt F) :=
  addf (val_main_v32 (F := F) x0 x1 x2 x4 x5 x6 x7 x8) (val_main_v34 (F := F) x9)
def val_main_call2_cst : (⟨S_, .f32⟩ : BufTy).Contents (Elt F) :=
  constant S_ .f32 0x00000000#32
def val_main_call2_v0 : (⟨S200000x512, .f32⟩ : BufTy).Contents (Elt F) :=
  broadcastInDim S200000x512 ![] bcast_S_S200000x512 (val_main_call2_cst (F := F))

def val_main_v36 : (⟨S200000x512, .f32⟩ : BufTy).Contents (Elt F) :=
  maximumf (val_main_v35 (F := F) x0 x1 x2 x4 x5 x6 x7 x8 x9) (val_main_call2_v0 (F := F))

def val_main_v37 : (⟨S512x256, .f32⟩ : BufTy).Contents (Elt F) :=
  transpose S512x256 [1, 0] (x10) transposes_S256x512_S512x256_1_0

def val_main_v38 : (⟨S200000x256, .f32⟩ : BufTy).Contents (Elt F) :=
  Host.dotGeneral dot_S200000x512_S512x256_S200000x256_1_0_0_1_n_n none (val_main_v36 (F := F) x0 x1 x2 x4 x5 x6 x7 x8 x9) (val_main_v37 (F := F) x10)

def val_main_v39 : (⟨S1x256, .f32⟩ : BufTy).Contents (Elt F) :=
  broadcastInDim S1x256 ![1] bcast_S256_S1x256_1 (x11)

def val_main_v40 : (⟨S200000x256, .f32⟩ : BufTy).Contents (Elt F) :=
  broadcastInDim S200000x256 ![0, 1] bcast_S1x256_S200000x256_0_1 (val_main_v39 (F := F) x11)

def val_main_v41 : (⟨S200000x256, .f32⟩ : BufTy).Contents (Elt F) :=
  addf (val_main_v38 (F := F) x0 x1 x2 x4 x5 x6 x7 x8 x9 x10) (val_main_v40 (F := F) x11)

def val_main_cst : (⟨S_, .f32⟩ : BufTy).Contents (Elt F) :=
  constant S_ .f32 0x00000000#32

def val_main_v42 : (⟨S20000x256, .f32⟩ : BufTy).Contents (Elt F) :=
  broadcastInDim S20000x256 ![] bcast_S_S20000x256 (val_main_cst (F := F))

def val_main_v43 : (⟨S200000x1, .i32⟩ : BufTy).Contents (Elt F) :=
  broadcastInDim S200000x1 ![0] bcast_S200000_S200000x1_0 (val_main_v3 (F := F) x1)

def val_main_v44 : (⟨S20000x256, .f32⟩ : BufTy).Contents (Elt F) :=
  Host.scatterAdd scatter_S20000x256_S200000x1_S200000x256_1_0_0_1 (val_main_v42 (F := F)) (val_main_v43 (F := F) x1) (val_main_v41 (F := F) x0 x1 x2 x4 x5 x6 x7 x8 x9 x10 x11)

def val_main_cst_3 : (⟨S_, .f32⟩ : BufTy).Contents (Elt F) :=
  constant S_ .f32 0x3F800000#32

def val_main_v45 : (⟨S200000, .f32⟩ : BufTy).Contents (Elt F) :=
  broadcastInDim S200000 ![] bcast_S_S200000 (val_main_cst_3 (F := F))

def val_main_cst_4 : (⟨S_, .f32⟩ : BufTy).Contents (Elt F) :=
  constant S_ .f32 0x00000000#32

def val_main_v46 : (⟨S20000, .f32⟩ : BufTy).Contents (Elt F) :=
  broadcastInDim S20000 ![] bcast_S_S20000 (val_main_cst_4 (F := F))

def val_main_v47 : (⟨S200000x1, .i32⟩ : BufTy).Contents (Elt F) :=
  broadcastInDim S200000x1 ![0] bcast_S200000_S200000x1_0 (val_main_v3 (F := F) x1)

def val_main_v48 : (⟨S20000, .f32⟩ : BufTy).Contents (Elt F) :=
  Host.scatterAdd scatter_S20000_S200000x1_S200000_n_0_0_1 (val_main_v46 (F := F)) (val_main_v47 (F := F) x1) (val_main_v45 (F := F))

def val_main_cst_5 : (⟨S_, .f32⟩ : BufTy).Contents (Elt F) :=
  constant S_ .f32 0x3F800000#32

def val_main_v49 : (⟨S20000, .f32⟩ : BufTy).Contents (Elt F) :=
  broadcastInDim S20000 ![] bcast_S_S20000 (val_main_cst_5 (F := F))

def val_main_v50 : (⟨S20000, .f32⟩ : BufTy).Contents (Elt F) :=
  maximumf (val_main_v48 (F := F) x1) (val_main_v49 (F := F))

def val_main_v51 : (⟨S20000x1, .f32⟩ : BufTy).Contents (Elt F) :=
  broadcastInDim S20000x1 ![0] bcast_S20000_S20000x1_0 (val_main_v50 (F := F) x1)

def val_main_v52 : (⟨S20000x256, .f32⟩ : BufTy).Contents (Elt F) :=
  broadcastInDim S20000x256 ![0, 1] bcast_S20000x1_S20000x256_0_1 (val_main_v51 (F := F) x1)

def val_main_v53 : (⟨S20000x256, .f32⟩ : BufTy).Contents (Elt F) :=
  Host.divf (val_main_v44 (F := F) x0 x1 x2 x4 x5 x6 x7 x8 x9 x10 x11) (val_main_v52 (F := F) x1)

def val_main_v54 : (⟨S1x256, .f32⟩ : BufTy).Contents (Elt F) :=
  broadcastInDim S1x256 ![1] bcast_S256_S1x256_1 (x22)

def val_main_v55 : (⟨S20000x256, .f32⟩ : BufTy).Contents (Elt F) :=
  broadcastInDim S20000x256 ![0, 1] bcast_S1x256_S20000x256_0_1 (val_main_v54 (F := F) x22)

def val_main_v56 : (⟨S20000x256, .f32⟩ : BufTy).Contents (Elt F) :=
  subf (val_main_v53 (F := F) x0 x1 x2 x4 x5 x6 x7 x8 x9 x10 x11) (val_main_v55 (F := F) x22)

def val_main_cst_6 : (⟨S_, .f32⟩ : BufTy).Contents (Elt F) :=
  constant S_ .f32 0x3727C5AC#32

def val_main_v57 : (⟨S256, .f32⟩ : BufTy).Contents (Elt F) :=
  broadcastInDim S256 ![] bcast_S_S256 (val_main_cst_6 (F := F))

def val_main_v58 : (⟨S256, .f32⟩ : BufTy).Contents (Elt F) :=
  addf (x23) (val_main_v57 (F := F))

def val_main_v59 : (⟨S256, .f32⟩ : BufTy).Contents (Elt F) :=
  Host.sqrt (val_main_v58 (F := F) x23)

def val_main_v60 : (⟨S1x256, .f32⟩ : BufTy).Contents (Elt F) :=
  broadcastInDim S1x256 ![1] bcast_S256_S1x256_1 (val_main_v59 (F := F) x23)

def val_main_v61 : (⟨S20000x256, .f32⟩ : BufTy).Contents (Elt F) :=
  broadcastInDim S20000x256 ![0, 1] bcast_S1x256_S20000x256_0_1 (val_main_v60 (F := F) x23)

def val_main_v62 : (⟨S20000x256, .f32⟩ : BufTy).Contents (Elt F) :=
  Host.divf (val_main_v56 (F := F) x0 x1 x2 x4 x5 x6 x7 x8 x9 x10 x11 x22) (val_main_v61 (F := F) x23)

def val_main_v63 : (⟨S1x256, .f32⟩ : BufTy).Contents (Elt F) :=
  broadcastInDim S1x256 ![1] bcast_S256_S1x256_1 (x20)

def val_main_v64 : (⟨S20000x256, .f32⟩ : BufTy).Contents (Elt F) :=
  broadcastInDim S20000x256 ![0, 1] bcast_S1x256_S20000x256_0_1 (val_main_v63 (F := F) x20)

def val_main_v65 : (⟨S20000x256, .f32⟩ : BufTy).Contents (Elt F) :=
  mulf (val_main_v62 (F := F) x0 x1 x2 x4 x5 x6 x7 x8 x9 x10 x11 x22 x23) (val_main_v64 (F := F) x20)

def val_main_v66 : (⟨S1x256, .f32⟩ : BufTy).Contents (Elt F) :=
  broadcastInDim S1x256 ![1] bcast_S256_S1x256_1 (x21)

def val_main_v67 : (⟨S20000x256, .f32⟩ : BufTy).Contents (Elt F) :=
  broadcastInDim S20000x256 ![0, 1] bcast_S1x256_S20000x256_0_1 (val_main_v66 (F := F) x21)

def val_main_v68 : (⟨S20000x256, .f32⟩ : BufTy).Contents (Elt F) :=
  addf (val_main_v65 (F := F) x0 x1 x2 x4 x5 x6 x7 x8 x9 x10 x11 x20 x22 x23) (val_main_v67 (F := F) x21)
def val_main_call3_cst : (⟨S_, .f32⟩ : BufTy).Contents (Elt F) :=
  constant S_ .f32 0x00000000#32
def val_main_call3_v0 : (⟨S20000x256, .f32⟩ : BufTy).Contents (Elt F) :=
  broadcastInDim S20000x256 ![] bcast_S_S20000x256 (val_main_call3_cst (F := F))

def val_main_v69 : (⟨S20000x256, .f32⟩ : BufTy).Contents (Elt F) :=
  maximumf (val_main_v68 (F := F) x0 x1 x2 x4 x5 x6 x7 x8 x9 x10 x11 x20 x21 x22 x23) (val_main_call3_v0 (F := F))

def val_main_c_7 : (⟨S_, .i32⟩ : BufTy).Contents (Elt F) :=
  constantI S_ 32 0#32

def val_main_v70 : (⟨S200000, .i32⟩ : BufTy).Contents (Elt F) :=
  broadcastInDim S200000 ![] bcast_S_S200000 (val_main_c_7 (F := F))

def val_main_v71 : (⟨S200000, .i1⟩ : BufTy).Contents (Elt F) :=
  cmpi .slt (val_main_v3 (F := F) x1) (val_main_v70 (F := F))

def val_main_c_8 : (⟨S_, .i32⟩ : BufTy).Contents (Elt F) :=
  constantI S_ 32 20000#32

def val_main_v72 : (⟨S200000, .i32⟩ : BufTy).Contents (Elt F) :=
  broadcastInDim S200000 ![] bcast_S_S200000 (val_main_c_8 (F := F))

def val_main_v73 : (⟨S200000, .i32⟩ : BufTy).Contents (Elt F) :=
  addi (val_main_v3 (F := F) x1) (val_main_v72 (F := F))

def val_main_v74 : (⟨S200000, .i32⟩ : BufTy).Contents (Elt F) :=
  select (val_main_v71 (F := F) x1) (val_main_v73 (F := F) x1) (val_main_v3 (F := F) x1)

def val_main_v75 : (⟨S200000x1, .i32⟩ : BufTy).Contents (Elt F) :=
  broadcastInDim S200000x1 ![0] bcast_S200000_S200000x1_0 (val_main_v74 (F := F) x1)

def val_main_v76 : (⟨S200000x256, .f32⟩ : BufTy).Contents (Elt F) :=
  Host.gather gather_S20000x256_S200000x1_S200000x256_1_0_n_n_0_1_1256 (val_main_v69 (F := F) x0 x1 x2 x4 x5 x6 x7 x8 x9 x10 x11 x20 x21 x22 x23) (val_main_v75 (F := F) x1)

def val_main_c_9 : (⟨S_, .i32⟩ : BufTy).Contents (Elt F) :=
  constantI S_ 32 0#32

def val_main_v77 : (⟨S200000, .i32⟩ : BufTy).Contents (Elt F) :=
  broadcastInDim S200000 ![] bcast_S_S200000 (val_main_c_9 (F := F))

def val_main_v78 : (⟨S200000, .i1⟩ : BufTy).Contents (Elt F) :=
  cmpi .slt (val_main_v1 (F := F) x1) (val_main_v77 (F := F))

def val_main_c_10 : (⟨S_, .i32⟩ : BufTy).Contents (Elt F) :=
  constantI S_ 32 20000#32

def val_main_v79 : (⟨S200000, .i32⟩ : BufTy).Contents (Elt F) :=
  broadcastInDim S200000 ![] bcast_S_S200000 (val_main_c_10 (F := F))

def val_main_v80 : (⟨S200000, .i32⟩ : BufTy).Contents (Elt F) :=
  addi (val_main_v1 (F := F) x1) (val_main_v79 (F := F))

def val_main_v81 : (⟨S200000, .i32⟩ : BufTy).Contents (Elt F) :=
  select (val_main_v78 (F := F) x1) (val_main_v80 (F := F) x1) (val_main_v1 (F := F) x1)

def val_main_v82 : (⟨S200000x1, .i32⟩ : BufTy).Contents (Elt F) :=
  broadcastInDim S200000x1 ![0] bcast_S200000_S200000x1_0 (val_main_v81 (F := F) x1)

def val_main_v83 : (⟨S200000x256, .f32⟩ : BufTy).Contents (Elt F) :=
  Host.gather gather_S20000x256_S200000x1_S200000x256_1_0_n_n_0_1_1256 (val_main_v69 (F := F) x0 x1 x2 x4 x5 x6 x7 x8 x9 x10 x11 x20 x21 x22 x23) (val_main_v82 (F := F) x1)

def val_main_v84 : (⟨S200000x528, .f32⟩ : BufTy).Contents (Elt F) :=
  concatenate S200000x528 1 [⟨S200000x256, (val_main_v76 (F := F) x0 x1 x2 x4 x5 x6 x7 x8 x9 x10 x11 x20 x21 x22 x23)⟩, ⟨S200000x256, (val_main_v83 (F := F) x0 x1 x2 x4 x5 x6 x7 x8 x9 x10 x11 x20 x21 x22 x23)⟩, ⟨S200000x16, (val_main_v9 (F := F) x2 x4 x5)⟩] concatenates_S200000x256_S200000x256_S200000x16_S200000x528_d1

def val_main_v85 : (⟨S528x512, .f32⟩ : BufTy).Contents (Elt F) :=
  transpose S528x512 [1, 0] (x12) transposes_S512x528_S528x512_1_0

def val_main_v86 : (⟨S200000x512, .f32⟩ : BufTy).Contents (Elt F) :=
  Host.dotGeneral dot_S200000x528_S528x512_S200000x512_1_0_0_1_n_n none (val_main_v84 (F := F) x0 x1 x2 x4 x5 x6 x7 x8 x9 x10 x11 x20 x21 x22 x23) (val_main_v85 (F := F) x12)

def val_main_v87 : (⟨S1x512, .f32⟩ : BufTy).Contents (Elt F) :=
  broadcastInDim S1x512 ![1] bcast_S512_S1x512_1 (x13)

def val_main_v88 : (⟨S200000x512, .f32⟩ : BufTy).Contents (Elt F) :=
  broadcastInDim S200000x512 ![0, 1] bcast_S1x512_S200000x512_0_1 (val_main_v87 (F := F) x13)

def val_main_v89 : (⟨S200000x512, .f32⟩ : BufTy).Contents (Elt F) :=
  addf (val_main_v86 (F := F) x0 x1 x2 x4 x5 x6 x7 x8 x9 x10 x11 x12 x20 x21 x22 x23) (val_main_v88 (F := F) x13)
def val_main_call4_cst : (⟨S_, .f32⟩ : BufTy).Contents (Elt F) :=
  constant S_ .f32 0x00000000#32
def val_main_call4_v0 : (⟨S200000x512, .f32⟩ : BufTy).Contents (Elt F) :=
  broadcastInDim S200000x512 ![] bcast_S_S200000x512 (val_main_call4_cst (F := F))

def val_main_v90 : (⟨S200000x512, .f32⟩ : BufTy).Contents (Elt F) :=
  maximumf (val_main_v89 (F := F) x0 x1 x2 x4 x5 x6 x7 x8 x9 x10 x11 x12 x13 x20 x21 x22 x23) (val_main_call4_v0 (F := F))

def val_main_v91 : (⟨S512x256, .f32⟩ : BufTy).Contents (Elt F) :=
  transpose S512x256 [1, 0] (x14) transposes_S256x512_S512x256_1_0

def val_main_v92 : (⟨S200000x256, .f32⟩ : BufTy).Contents (Elt F) :=
  Host.dotGeneral dot_S200000x512_S512x256_S200000x256_1_0_0_1_n_n none (val_main_v90 (F := F) x0 x1 x2 x4 x5 x6 x7 x8 x9 x10 x11 x12 x13 x20 x21 x22 x23) (val_main_v91 (F := F) x14)

def val_main_v93 : (⟨S1x256, .f32⟩ : BufTy).Contents (Elt F) :=
  broadcastInDim S1x256 ![1] bcast_S256_S1x256_1 (x15)

def val_main_v94 : (⟨S200000x256, .f32⟩ : BufTy).Contents (Elt F) :=
  broadcastInDim S200000x256 ![0, 1] bcast_S1x256_S200000x256_0_1 (val_main_v93 (F := F) x15)

def val_main_v95 : (⟨S200000x256, .f32⟩ : BufTy).Contents (Elt F) :=
  addf (val_main_v92 (F := F) x0 x1 x2 x4 x5 x6 x7 x8 x9 x10 x11 x12 x13 x14 x20 x21 x22 x23) (val_main_v94 (F := F) x15)

def val_main_cst_11 : (⟨S_, .f32⟩ : BufTy).Contents (Elt F) :=
  constant S_ .f32 0x00000000#32

def val_main_v96 : (⟨S20000x256, .f32⟩ : BufTy).Contents (Elt F) :=
  broadcastInDim S20000x256 ![] bcast_S_S20000x256 (val_main_cst_11 (F := F))

def val_main_v97 : (⟨S200000x1, .i32⟩ : BufTy).Contents (Elt F) :=
  broadcastInDim S200000x1 ![0] bcast_S200000_S200000x1_0 (val_main_v3 (F := F) x1)

def val_main_v98 : (⟨S20000x256, .f32⟩ : BufTy).Contents (Elt F) :=
  Host.scatterAdd scatter_S20000x256_S200000x1_S200000x256_1_0_0_1 (val_main_v96 (F := F)) (val_main_v97 (F := F) x1) (val_main_v95 (F := F) x0 x1 x2 x4 x5 x6 x7 x8 x9 x10 x11 x12 x13 x14 x15 x20 x21 x22 x23)

def val_main_cst_12 : (⟨S_, .f32⟩ : BufTy).Contents (Elt F) :=
  constant S_ .f32 0x3F800000#32

def val_main_v99 : (⟨S200000, .f32⟩ : BufTy).Contents (Elt F) :=
  broadcastInDim S200000 ![] bcast_S_S200000 (val_main_cst_12 (F := F))

def val_main_cst_13 : (⟨S_, .f32⟩ : BufTy).Contents (Elt F) :=
  constant S_ .f32 0x00000000#32

def val_main_v100 : (⟨S20000, .f32⟩ : BufTy).Contents (Elt F) :=
  broadcastInDim S20000 ![] bcast_S_S20000 (val_main_cst_13 (F := F))

def val_main_v101 : (⟨S200000x1, .i32⟩ : BufTy).Contents (Elt F) :=
  broadcastInDim S200000x1 ![0] bcast_S200000_S200000x1_0 (val_main_v3 (F := F) x1)

def val_main_v102 : (⟨S20000, .f32⟩ : BufTy).Contents (Elt F) :=
  Host.scatterAdd scatter_S20000_S200000x1_S200000_n_0_0_1 (val_main_v100 (F := F)) (val_main_v101 (F := F) x1) (val_main_v99 (F := F))

def val_main_cst_14 : (⟨S_, .f32⟩ : BufTy).Contents (Elt F) :=
  constant S_ .f32 0x3F800000#32

def val_main_v103 : (⟨S20000, .f32⟩ : BufTy).Contents (Elt F) :=
  broadcastInDim S20000 ![] bcast_S_S20000 (val_main_cst_14 (F := F))

def val_main_v104 : (⟨S20000, .f32⟩ : BufTy).Contents (Elt F) :=
  maximumf (val_main_v102 (F := F) x1) (val_main_v103 (F := F))

def val_main_v105 : (⟨S20000x1, .f32⟩ : BufTy).Contents (Elt F) :=
  broadcastInDim S20000x1 ![0] bcast_S20000_S20000x1_0 (val_main_v104 (F := F) x1)

def val_main_v106 : (⟨S20000x256, .f32⟩ : BufTy).Contents (Elt F) :=
  broadcastInDim S20000x256 ![0, 1] bcast_S20000x1_S20000x256_0_1 (val_main_v105 (F := F) x1)

def val_main_v107 : (⟨S20000x256, .f32⟩ : BufTy).Contents (Elt F) :=
  Host.divf (val_main_v98 (F := F) x0 x1 x2 x4 x5 x6 x7 x8 x9 x10 x11 x12 x13 x14 x15 x20 x21 x22 x23) (val_main_v106 (F := F) x1)

def val_main_v108 : (⟨S1x256, .f32⟩ : BufTy).Contents (Elt F) :=
  broadcastInDim S1x256 ![1] bcast_S256_S1x256_1 (x26)

def val_main_v109 : (⟨S20000x256, .f32⟩ : BufTy).Contents (Elt F) :=
  broadcastInDim S20000x256 ![0, 1] bcast_S1x256_S20000x256_0_1 (val_main_v108 (F := F) x26)

def val_main_v110 : (⟨S20000x256, .f32⟩ : BufTy).Contents (Elt F) :=
  subf (val_main_v107 (F := F) x0 x1 x2 x4 x5 x6 x7 x8 x9 x10 x11 x12 x13 x14 x15 x20 x21 x22 x23) (val_main_v109 (F := F) x26)

def val_main_cst_15 : (⟨S_, .f32⟩ : BufTy).Contents (Elt F) :=
  constant S_ .f32 0x3727C5AC#32

def val_main_v111 : (⟨S256, .f32⟩ : BufTy).Contents (Elt F) :=
  broadcastInDim S256 ![] bcast_S_S256 (val_main_cst_15 (F := F))

def val_main_v112 : (⟨S256, .f32⟩ : BufTy).Contents (Elt F) :=
  addf (x27) (val_main_v111 (F := F))

def val_main_v113 : (⟨S256, .f32⟩ : BufTy).Contents (Elt F) :=
  Host.sqrt (val_main_v112 (F := F) x27)

def val_main_v114 : (⟨S1x256, .f32⟩ : BufTy).Contents (Elt F) :=
  broadcastInDim S1x256 ![1] bcast_S256_S1x256_1 (val_main_v113 (F := F) x27)

def val_main_v115 : (⟨S20000x256, .f32⟩ : BufTy).Contents (Elt F) :=
  broadcastInDim S20000x256 ![0, 1] bcast_S1x256_S20000x256_0_1 (val_main_v114 (F := F) x27)

def val_main_v116 : (⟨S20000x256, .f32⟩ : BufTy).Contents (Elt F) :=
  Host.divf (val_main_v110 (F := F) x0 x1 x2 x4 x5 x6 x7 x8 x9 x10 x11 x12 x13 x14 x15 x20 x21 x22 x23 x26) (val_main_v115 (F := F) x27)

def val_main_v117 : (⟨S1x256, .f32⟩ : BufTy).Contents (Elt F) :=
  broadcastInDim S1x256 ![1] bcast_S256_S1x256_1 (x24)

def val_main_v118 : (⟨S20000x256, .f32⟩ : BufTy).Contents (Elt F) :=
  broadcastInDim S20000x256 ![0, 1] bcast_S1x256_S20000x256_0_1 (val_main_v117 (F := F) x24)

def val_main_v119 : (⟨S20000x256, .f32⟩ : BufTy).Contents (Elt F) :=
  mulf (val_main_v116 (F := F) x0 x1 x2 x4 x5 x6 x7 x8 x9 x10 x11 x12 x13 x14 x15 x20 x21 x22 x23 x26 x27) (val_main_v118 (F := F) x24)

def val_main_v120 : (⟨S1x256, .f32⟩ : BufTy).Contents (Elt F) :=
  broadcastInDim S1x256 ![1] bcast_S256_S1x256_1 (x25)

def val_main_v121 : (⟨S20000x256, .f32⟩ : BufTy).Contents (Elt F) :=
  broadcastInDim S20000x256 ![0, 1] bcast_S1x256_S20000x256_0_1 (val_main_v120 (F := F) x25)

def val_main_v122 : (⟨S20000x256, .f32⟩ : BufTy).Contents (Elt F) :=
  addf (val_main_v119 (F := F) x0 x1 x2 x4 x5 x6 x7 x8 x9 x10 x11 x12 x13 x14 x15 x20 x21 x22 x23 x24 x26 x27) (val_main_v121 (F := F) x25)
def val_main_call5_cst : (⟨S_, .f32⟩ : BufTy).Contents (Elt F) :=
  constant S_ .f32 0x00000000#32
def val_main_call5_v0 : (⟨S20000x256, .f32⟩ : BufTy).Contents (Elt F) :=
  broadcastInDim S20000x256 ![] bcast_S_S20000x256 (val_main_call5_cst (F := F))

def val_main_v123 : (⟨S20000x256, .f32⟩ : BufTy).Contents (Elt F) :=
  maximumf (val_main_v122 (F := F) x0 x1 x2 x4 x5 x6 x7 x8 x9 x10 x11 x12 x13 x14 x15 x20 x21 x22 x23 x24 x25 x26 x27) (val_main_call5_v0 (F := F))

def val_main_c_16 : (⟨S_, .i32⟩ : BufTy).Contents (Elt F) :=
  constantI S_ 32 0#32

def val_main_v124 : (⟨S200000, .i32⟩ : BufTy).Contents (Elt F) :=
  broadcastInDim S200000 ![] bcast_S_S200000 (val_main_c_16 (F := F))

def val_main_v125 : (⟨S200000, .i1⟩ : BufTy).Contents (Elt F) :=
  cmpi .slt (val_main_v3 (F := F) x1) (val_main_v124 (F := F))

def val_main_c_17 : (⟨S_, .i32⟩ : BufTy).Contents (Elt F) :=
  constantI S_ 32 20000#32

def val_main_v126 : (⟨S200000, .i32⟩ : BufTy).Contents (Elt F) :=
  broadcastInDim S200000 ![] bcast_S_S200000 (val_main_c_17 (F := F))

def val_main_v127 : (⟨S200000, .i32⟩ : BufTy).Contents (Elt F) :=
  addi (val_main_v3 (F := F) x1) (val_main_v126 (F := F))

def val_main_v128 : (⟨S200000, .i32⟩ : BufTy).Contents (Elt F) :=
  select (val_main_v125 (F := F) x1) (val_main_v127 (F := F) x1) (val_main_v3 (F := F) x1)

def val_main_v129 : (⟨S200000x1, .i32⟩ : BufTy).Contents (Elt F) :=
  broadcastInDim S200000x1 ![0] bcast_S200000_S200000x1_0 (val_main_v128 (F := F) x1)

def val_main_v130 : (⟨S200000x256, .f32⟩ : BufTy).Contents (Elt F) :=
  Host.gather gather_S20000x256_S200000x1_S200000x256_1_0_n_n_0_1_1256 (val_main_v123 (F := F) x0 x1 x2 x4 x5 x6 x7 x8 x9 x10 x11 x12 x13 x14 x15 x20 x21 x22 x23 x24 x25 x26 x27) (val_main_v129 (F := F) x1)

def val_main_c_18 : (⟨S_, .i32⟩ : BufTy).Contents (Elt F) :=
  constantI S_ 32 0#32

def val_main_v131 : (⟨S200000, .i32⟩ : BufTy).Contents (Elt F) :=
  broadcastInDim S200000 ![] bcast_S_S200000 (val_main_c_18 (F := F))

def val_main_v132 : (⟨S200000, .i1⟩ : BufTy).Contents (Elt F) :=
  cmpi .slt (val_main_v1 (F := F) x1) (val_main_v131 (F := F))

def val_main_c_19 : (⟨S_, .i32⟩ : BufTy).Contents (Elt F) :=
  constantI S_ 32 20000#32

def val_main_v133 : (⟨S200000, .i32⟩ : BufTy).Contents (Elt F) :=
  broadcastInDim S200000 ![] bcast_S_S200000 (val_main_c_19 (F := F))

def val_main_v134 : (⟨S200000, .i32⟩ : BufTy).Contents (Elt F) :=
  addi (val_main_v1 (F := F) x1) (val_main_v133 (F := F))

def val_main_v135 : (⟨S200000, .i32⟩ : BufTy).Contents (Elt F) :=
  select (val_main_v132 (F := F) x1) (val_main_v134 (F := F) x1) (val_main_v1 (F := F) x1)

def val_main_v136 : (⟨S200000x1, .i32⟩ : BufTy).Contents (Elt F) :=
  broadcastInDim S200000x1 ![0] bcast_S200000_S200000x1_0 (val_main_v135 (F := F) x1)

def val_main_v137 : (⟨S200000x256, .f32⟩ : BufTy).Contents (Elt F) :=
  Host.gather gather_S20000x256_S200000x1_S200000x256_1_0_n_n_0_1_1256 (val_main_v123 (F := F) x0 x1 x2 x4 x5 x6 x7 x8 x9 x10 x11 x12 x13 x14 x15 x20 x21 x22 x23 x24 x25 x26 x27) (val_main_v136 (F := F) x1)

def val_main_v138 : (⟨S200000x528, .f32⟩ : BufTy).Contents (Elt F) :=
  concatenate S200000x528 1 [⟨S200000x256, (val_main_v130 (F := F) x0 x1 x2 x4 x5 x6 x7 x8 x9 x10 x11 x12 x13 x14 x15 x20 x21 x22 x23 x24 x25 x26 x27)⟩, ⟨S200000x256, (val_main_v137 (F := F) x0 x1 x2 x4 x5 x6 x7 x8 x9 x10 x11 x12 x13 x14 x15 x20 x21 x22 x23 x24 x25 x26 x27)⟩, ⟨S200000x16, (val_main_v9 (F := F) x2 x4 x5)⟩] concatenates_S200000x256_S200000x256_S200000x16_S200000x528_d1

def val_main_v139 : (⟨S528x256, .f32⟩ : BufTy).Contents (Elt F) :=
  transpose S528x256 [1, 0] (x16) transposes_S256x528_S528x256_1_0

def val_main_v140 : (⟨S200000x256, .f32⟩ : BufTy).Contents (Elt F) :=
  Host.dotGeneral dot_S200000x528_S528x256_S200000x256_1_0_0_1_n_n none (val_main_v138 (F := F) x0 x1 x2 x4 x5 x6 x7 x8 x9 x10 x11 x12 x13 x14 x15 x20 x21 x22 x23 x24 x25 x26 x27) (val_main_v139 (F := F) x16)

def val_main_v141 : (⟨S1x256, .f32⟩ : BufTy).Contents (Elt F) :=
  broadcastInDim S1x256 ![1] bcast_S256_S1x256_1 (x17)

def val_main_v142 : (⟨S200000x256, .f32⟩ : BufTy).Contents (Elt F) :=
  broadcastInDim S200000x256 ![0, 1] bcast_S1x256_S200000x256_0_1 (val_main_v141 (F := F) x17)

def val_main_v143 : (⟨S200000x256, .f32⟩ : BufTy).Contents (Elt F) :=
  addf (val_main_v140 (F := F) x0 x1 x2 x4 x5 x6 x7 x8 x9 x10 x11 x12 x13 x14 x15 x16 x20 x21 x22 x23 x24 x25 x26 x27) (val_main_v142 (F := F) x17)
def val_main_call6_cst : (⟨S_, .f32⟩ : BufTy).Contents (Elt F) :=
  constant S_ .f32 0x00000000#32
def val_main_call6_v0 : (⟨S200000x256, .f32⟩ : BufTy).Contents (Elt F) :=
  broadcastInDim S200000x256 ![] bcast_S_S200000x256 (val_main_call6_cst (F := F))

def val_main_v144 : (⟨S200000x256, .f32⟩ : BufTy).Contents (Elt F) :=
  maximumf (val_main_v143 (F := F) x0 x1 x2 x4 x5 x6 x7 x8 x9 x10 x11 x12 x13 x14 x15 x16 x17 x20 x21 x22 x23 x24 x25 x26 x27) (val_main_call6_v0 (F := F))

def val_main_v145 : (⟨S256x128, .f32⟩ : BufTy).Contents (Elt F) :=
  transpose S256x128 [1, 0] (x18) transposes_S128x256_S256x128_1_0

def val_main_v146 : (⟨S200000x128, .f32⟩ : BufTy).Contents (Elt F) :=
  Host.dotGeneral dot_S200000x256_S256x128_S200000x128_1_0_0_1_n_n none (val_main_v144 (F := F) x0 x1 x2 x4 x5 x6 x7 x8 x9 x10 x11 x12 x13 x14 x15 x16 x17 x20 x21 x22 x23 x24 x25 x26 x27) (val_main_v145 (F := F) x18)

def val_main_v147 : (⟨S1x128, .f32⟩ : BufTy).Contents (Elt F) :=
  broadcastInDim S1x128 ![1] bcast_S128_S1x128_1 (x19)

def val_main_v148 : (⟨S200000x128, .f32⟩ : BufTy).Contents (Elt F) :=
  broadcastInDim S200000x128 ![0, 1] bcast_S1x128_S200000x128_0_1 (val_main_v147 (F := F) x19)

def val_main_v149 : (⟨S200000x128, .f32⟩ : BufTy).Contents (Elt F) :=
  addf (val_main_v146 (F := F) x0 x1 x2 x4 x5 x6 x7 x8 x9 x10 x11 x12 x13 x14 x15 x16 x17 x18 x20 x21 x22 x23 x24 x25 x26 x27) (val_main_v148 (F := F) x19)

def val_main_cst_20 : (⟨S_, .f32⟩ : BufTy).Contents (Elt F) :=
  constant S_ .f32 0x00000000#32

def val_main_v150 : (⟨S20000x128, .f32⟩ : BufTy).Contents (Elt F) :=
  broadcastInDim S20000x128 ![] bcast_S_S20000x128 (val_main_cst_20 (F := F))

def val_main_v151 : (⟨S200000x1, .i32⟩ : BufTy).Contents (Elt F) :=
  broadcastInDim S200000x1 ![0] bcast_S200000_S200000x1_0 (val_main_v3 (F := F) x1)

def val_main_v152 : (⟨S20000x128, .f32⟩ : BufTy).Contents (Elt F) :=
  Host.scatterAdd scatter_S20000x128_S200000x1_S200000x128_1_0_0_1 (val_main_v150 (F := F)) (val_main_v151 (F := F) x1) (val_main_v149 (F := F) x0 x1 x2 x4 x5 x6 x7 x8 x9 x10 x11 x12 x13 x14 x15 x16 x17 x18 x19 x20 x21 x22 x23 x24 x25 x26 x27)

def val_main_cst_21 : (⟨S_, .f32⟩ : BufTy).Contents (Elt F) :=
  constant S_ .f32 0x3F800000#32

def val_main_v153 : (⟨S200000, .f32⟩ : BufTy).Contents (Elt F) :=
  broadcastInDim S200000 ![] bcast_S_S200000 (val_main_cst_21 (F := F))

def val_main_cst_22 : (⟨S_, .f32⟩ : BufTy).Contents (Elt F) :=
  constant S_ .f32 0x00000000#32

def val_main_v154 : (⟨S20000, .f32⟩ : BufTy).Contents (Elt F) :=
  broadcastInDim S20000 ![] bcast_S_S20000 (val_main_cst_22 (F := F))

def val_main_v155 : (⟨S200000x1, .i32⟩ : BufTy).Contents (Elt F) :=
  broadcastInDim S200000x1 ![0] bcast_S200000_S200000x1_0 (val_main_v3 (F := F) x1)

def val_main_v156 : (⟨S20000, .f32⟩ : BufTy).Contents (Elt F) :=
  Host.scatterAdd scatter_S20000_S200000x1_S200000_n_0_0_1 (val_main_v154 (F := F)) (val_main_v155 (F := F) x1) (val_main_v153 (F := F))

def val_main_cst_23 : (⟨S_, .f32⟩ : BufTy).Contents (Elt F) :=
  constant S_ .f32 0x3F800000#32

def val_main_v157 : (⟨S20000, .f32⟩ : BufTy).Contents (Elt F) :=
  broadcastInDim S20000 ![] bcast_S_S20000 (val_main_cst_23 (F := F))

def val_main_v158 : (⟨S20000, .f32⟩ : BufTy).Contents (Elt F) :=
  maximumf (val_main_v156 (F := F) x1) (val_main_v157 (F := F))

def val_main_v159 : (⟨S20000x1, .f32⟩ : BufTy).Contents (Elt F) :=
  broadcastInDim S20000x1 ![0] bcast_S20000_S20000x1_0 (val_main_v158 (F := F) x1)

def val_main_v160 : (⟨S20000x128, .f32⟩ : BufTy).Contents (Elt F) :=
  broadcastInDim S20000x128 ![0, 1] bcast_S20000x1_S20000x128_0_1 (val_main_v159 (F := F) x1)

def val_main_v161 : (⟨S20000x128, .f32⟩ : BufTy).Contents (Elt F) :=
  Host.divf (val_main_v152 (F := F) x0 x1 x2 x4 x5 x6 x7 x8 x9 x10 x11 x12 x13 x14 x15 x16 x17 x18 x19 x20 x21 x22 x23 x24 x25 x26 x27) (val_main_v160 (F := F) x1)

def val_main_v162 : (⟨S1x128, .f32⟩ : BufTy).Contents (Elt F) :=
  broadcastInDim S1x128 ![1] bcast_S128_S1x128_1 (x30)

def val_main_v163 : (⟨S20000x128, .f32⟩ : BufTy).Contents (Elt F) :=
  broadcastInDim S20000x128 ![0, 1] bcast_S1x128_S20000x128_0_1 (val_main_v162 (F := F) x30)

def val_main_v164 : (⟨S20000x128, .f32⟩ : BufTy).Contents (Elt F) :=
  subf (val_main_v161 (F := F) x0 x1 x2 x4 x5 x6 x7 x8 x9 x10 x11 x12 x13 x14 x15 x16 x17 x18 x19 x20 x21 x22 x23 x24 x25 x26 x27) (val_main_v163 (F := F) x30)

def val_main_cst_24 : (⟨S_, .f32⟩ : BufTy).Contents (Elt F) :=
  constant S_ .f32 0x3727C5AC#32

def val_main_v165 : (⟨S128, .f32⟩ : BufTy).Contents (Elt F) :=
  broadcastInDim S128 ![] bcast_S_S128 (val_main_cst_24 (F := F))

def val_main_v166 : (⟨S128, .f32⟩ : BufTy).Contents (Elt F) :=
  addf (x31) (val_main_v165 (F := F))

def val_main_v167 : (⟨S128, .f32⟩ : BufTy).Contents (Elt F) :=
  Host.sqrt (val_main_v166 (F := F) x31)

def val_main_v168 : (⟨S1x128, .f32⟩ : BufTy).Contents (Elt F) :=
  broadcastInDim S1x128 ![1] bcast_S128_S1x128_1 (val_main_v167 (F := F) x31)

def val_main_v169 : (⟨S20000x128, .f32⟩ : BufTy).Contents (Elt F) :=
  broadcastInDim S20000x128 ![0, 1] bcast_S1x128_S20000x128_0_1 (val_main_v168 (F := F) x31)

def val_main_v170 : (⟨S20000x128, .f32⟩ : BufTy).Contents (Elt F) :=
  Host.divf (val_main_v164 (F := F) x0 x1 x2 x4 x5 x6 x7 x8 x9 x10 x11 x12 x13 x14 x15 x16 x17 x18 x19 x20 x21 x22 x23 x24 x25 x26 x27 x30) (val_main_v169 (F := F) x31)

def val_main_v171 : (⟨S1x128, .f32⟩ : BufTy).Contents (Elt F) :=
  broadcastInDim S1x128 ![1] bcast_S128_S1x128_1 (x28)

def val_main_v172 : (⟨S20000x128, .f32⟩ : BufTy).Contents (Elt F) :=
  broadcastInDim S20000x128 ![0, 1] bcast_S1x128_S20000x128_0_1 (val_main_v171 (F := F) x28)

def val_main_v173 : (⟨S20000x128, .f32⟩ : BufTy).Contents (Elt F) :=
  mulf (val_main_v170 (F := F) x0 x1 x2 x4 x5 x6 x7 x8 x9 x10 x11 x12 x13 x14 x15 x16 x17 x18 x19 x20 x21 x22 x23 x24 x25 x26 x27 x30 x31) (val_main_v172 (F := F) x28)

def val_main_v174 : (⟨S1x128, .f32⟩ : BufTy).Contents (Elt F) :=
  broadcastInDim S1x128 ![1] bcast_S128_S1x128_1 (x29)

def val_main_v175 : (⟨S20000x128, .f32⟩ : BufTy).Contents (Elt F) :=
  broadcastInDim S20000x128 ![0, 1] bcast_S1x128_S20000x128_0_1 (val_main_v174 (F := F) x29)

def val_main_v176 : (⟨S20000x128, .f32⟩ : BufTy).Contents (Elt F) :=
  addf (val_main_v173 (F := F) x0 x1 x2 x4 x5 x6 x7 x8 x9 x10 x11 x12 x13 x14 x15 x16 x17 x18 x19 x20 x21 x22 x23 x24 x25 x26 x27 x28 x30 x31) (val_main_v175 (F := F) x29)
def val_main_call7_cst : (⟨S_, .f32⟩ : BufTy).Contents (Elt F) :=
  constant S_ .f32 0x00000000#32
def val_main_call7_v0 : (⟨S20000x128, .f32⟩ : BufTy).Contents (Elt F) :=
  broadcastInDim S20000x128 ![] bcast_S_S20000x128 (val_main_call7_cst (F := F))

def val_main_v177 : (⟨S20000x128, .f32⟩ : BufTy).Contents (Elt F) :=
  maximumf (val_main_v176 (F := F) x0 x1 x2 x4 x5 x6 x7 x8 x9 x10 x11 x12 x13 x14 x15 x16 x17 x18 x19 x20 x21 x22 x23 x24 x25 x26 x27 x28 x29 x30 x31) (val_main_call7_v0 (F := F))

def val_main_cst_25 : (⟨S_, .f32⟩ : BufTy).Contents (Elt F) :=
  constant S_ .f32 0x00000000#32

def val_main_v178 : (⟨S512x128, .f32⟩ : BufTy).Contents (Elt F) :=
  broadcastInDim S512x128 ![] bcast_S_S512x128 (val_main_cst_25 (F := F))

def val_main_v179 : (⟨S20000x1, .i32⟩ : BufTy).Contents (Elt F) :=
  broadcastInDim S20000x1 ![0] bcast_S20000_S20000x1_0 (x3)

def val_main_v180 : (⟨S512x128, .f32⟩ : BufTy).Contents (Elt F) :=
  Host.scatterAdd scatter_S512x128_S20000x1_S20000x128_1_0_0_1 (val_main_v178 (F := F)) (val_main_v179 (F := F) x3) (val_main_v177 (F := F) x0 x1 x2 x4 x5 x6 x7 x8 x9 x10 x11 x12 x13 x14 x15 x16 x17 x18 x19 x20 x21 x22 x23 x24 x25 x26 x27 x28 x29 x30 x31)

def val_main_cst_26 : (⟨S_, .f32⟩ : BufTy).Contents (Elt F) :=
  constant S_ .f32 0x3F800000#32

def val_main_v181 : (⟨S20000, .f32⟩ : BufTy).Contents (Elt F) :=
  broadcastInDim S20000 ![] bcast_S_S20000 (val_main_cst_26 (F := F))

def val_main_cst_27 : (⟨S_, .f32⟩ : BufTy).Contents (Elt F) :=
  constant S_ .f32 0x00000000#32

def val_main_v182 : (⟨S512, .f32⟩ : BufTy).Contents (Elt F) :=
  broadcastInDim S512 ![] bcast_S_S512 (val_main_cst_27 (F := F))

def val_main_v183 : (⟨S20000x1, .i32⟩ : BufTy).Contents (Elt F) :=
  broadcastInDim S20000x1 ![0] bcast_S20000_S20000x1_0 (x3)

def val_main_v184 : (⟨S512, .f32⟩ : BufTy).Contents (Elt F) :=
  Host.scatterAdd scatter_S512_S20000x1_S20000_n_0_0_1 (val_main_v182 (F := F)) (val_main_v183 (F := F) x3) (val_main_v181 (F := F))

def val_main_cst_28 : (⟨S_, .f32⟩ : BufTy).Contents (Elt F) :=
  constant S_ .f32 0x3F800000#32

def val_main_v185 : (⟨S512, .f32⟩ : BufTy).Contents (Elt F) :=
  broadcastInDim S512 ![] bcast_S_S512 (val_main_cst_28 (F := F))

def val_main_v186 : (⟨S512, .f32⟩ : BufTy).Contents (Elt F) :=
  maximumf (val_main_v184 (F := F) x3) (val_main_v185 (F := F))

def val_main_v187 : (⟨S512x1, .f32⟩ : BufTy).Contents (Elt F) :=
  broadcastInDim S512x1 ![0] bcast_S512_S512x1_0 (val_main_v186 (F := F) x3)

def val_main_v188 : (⟨S512x128, .f32⟩ : BufTy).Contents (Elt F) :=
  broadcastInDim S512x128 ![0, 1] bcast_S512x1_S512x128_0_1 (val_main_v187 (F := F) x3)

def val_main_v189 : (⟨S512x128, .f32⟩ : BufTy).Contents (Elt F) :=
  Host.divf (val_main_v180 (F := F) x0 x1 x2 x3 x4 x5 x6 x7 x8 x9 x10 x11 x12 x13 x14 x15 x16 x17 x18 x19 x20 x21 x22 x23 x24 x25 x26 x27 x28 x29 x30 x31) (val_main_v188 (F := F) x3)

def val_main_v190 : (⟨S128x12, .f32⟩ : BufTy).Contents (Elt F) :=
  transpose S128x12 [1, 0] (x32) transposes_S12x128_S128x12_1_0

def val_main_v191 : (⟨S512x12, .f32⟩ : BufTy).Contents (Elt F) :=
  Host.dotGeneral dot_S512x128_S128x12_S512x12_1_0_0_1_n_n none (val_main_v189 (F := F) x0 x1 x2 x3 x4 x5 x6 x7 x8 x9 x10 x11 x12 x13 x14 x15 x16 x17 x18 x19 x20 x21 x22 x23 x24 x25 x26 x27 x28 x29 x30 x31) (val_main_v190 (F := F) x32)
theorem lhs_main_v191_0 (i : S512x12.Idx) (q : dot_S512x128_S128x12_S512x12_1_0_0_1_n_n.contr.Idx) :
    (dot_S512x128_S128x12_S512x12_1_0_0_1_n_n.lhsIdx i q 0).val = (i 0).val := by
  unfold DotDims.lhsIdx
  rw [dif_neg (show ¬(0 : Fin S512x128.rank) ∈ dot_S512x128_S128x12_S512x12_1_0_0_1_n_n.lhsBatch by decide), dif_pos (show (0 : Fin S512x128.rank) ∈ dot_S512x128_S128x12_S512x12_1_0_0_1_n_n.lhsNonContracting by decide)]
  rfl
theorem lhs_main_v191_1 (i : S512x12.Idx) (q : dot_S512x128_S128x12_S512x12_1_0_0_1_n_n.contr.Idx) :
    (dot_S512x128_S128x12_S512x12_1_0_0_1_n_n.lhsIdx i q 1).val = (q ⟨0, by decide⟩).val :=
  dot_S512x128_S128x12_S512x12_1_0_0_1_n_n.lhsIdx_val_of_single rfl i q
theorem rhs_main_v191_0 (i : S512x12.Idx) (q : dot_S512x128_S128x12_S512x12_1_0_0_1_n_n.contr.Idx) :
    (dot_S512x128_S128x12_S512x12_1_0_0_1_n_n.rhsIdx i q 0).val = (q ⟨0, by decide⟩).val :=
  dot_S512x128_S128x12_S512x12_1_0_0_1_n_n.rhsIdx_val_of_single rfl i q
theorem rhs_main_v191_1 (i : S512x12.Idx) (q : dot_S512x128_S128x12_S512x12_1_0_0_1_n_n.contr.Idx) :
    (dot_S512x128_S128x12_S512x12_1_0_0_1_n_n.rhsIdx i q 1).val = (i 1).val := by
  unfold DotDims.rhsIdx
  rw [dif_neg (show ¬(1 : Fin S128x12.rank) ∈ dot_S512x128_S128x12_S512x12_1_0_0_1_n_n.rhsBatch by decide), dif_pos (show (1 : Fin S128x12.rank) ∈ dot_S512x128_S128x12_S512x12_1_0_0_1_n_n.rhsNonContracting by decide)]
  rfl
abbrev lidx_main_v191 (i : S512x12.Idx) (k : Fin 128) : S512x128.Idx := fun a => match a with
  | ⟨0, _⟩ => ⟨(i 0).val, (i 0).isLt⟩
  | ⟨1, _⟩ => ⟨k.val, k.isLt⟩
abbrev ridx_main_v191 (i : S512x12.Idx) (k : Fin 128) : S128x12.Idx := fun a => match a with
  | ⟨0, _⟩ => ⟨k.val, k.isLt⟩
  | ⟨1, _⟩ => ⟨(i 1).val, (i 1).isLt⟩

theorem val_main_v191_apply (x0 : (⟨S20000x32, .f32⟩ : BufTy).Contents (Elt Ideal)) (x1 : (⟨S2x200000, .i32⟩ : BufTy).Contents (Elt Ideal)) (x2 : (⟨S200000x8, .f32⟩ : BufTy).Contents (Elt Ideal)) (x3 : (⟨S20000, .i32⟩ : BufTy).Contents (Elt Ideal)) (x4 : (⟨S16x8, .f32⟩ : BufTy).Contents (Elt Ideal)) (x5 : (⟨S16, .f32⟩ : BufTy).Contents (Elt Ideal)) (x6 : (⟨S256x32, .f32⟩ : BufTy).Contents (Elt Ideal)) (x7 : (⟨S256, .f32⟩ : BufTy).Contents (Elt Ideal)) (x8 : (⟨S512x528, .f32⟩ : BufTy).Contents (Elt Ideal)) (x9 : (⟨S512, .f32⟩ : BufTy).Contents (Elt Ideal)) (x10 : (⟨S256x512, .f32⟩ : BufTy).Contents (Elt Ideal)) (x11 : (⟨S256, .f32⟩ : BufTy).Contents (Elt Ideal)) (x12 : (⟨S512x528, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256x528, .f32⟩ : BufTy).Contents (Elt Ideal)) (x17 : (⟨S256, .f32⟩ : BufTy).Contents (Elt Ideal)) (x18 : (⟨S128x256, .f32⟩ : BufTy).Contents (Elt Ideal)) (x19 : (⟨S128, .f32⟩ : BufTy).Contents (Elt Ideal)) (x20 x21 x22 x23 x24 x25 x26 x27 : (⟨S256, .f32⟩ : BufTy).Contents (Elt Ideal)) (x28 x29 x30 x31 : (⟨S128, .f32⟩ : BufTy).Contents (Elt Ideal)) (x32 : (⟨S12x128, .f32⟩ : BufTy).Contents (Elt Ideal)) (i : S512x12.Idx) :
    val_main_v191 (F := Ideal) x0 x1 x2 x3 x4 x5 x6 x7 x8 x9 x10 x11 x12 x13 x14 x15 x16 x17 x18 x19 x20 x21 x22 x23 x24 x25 x26 x27 x28 x29 x30 x31 x32 i = ∑ k : Fin 128, (val_main_v189 (F := Ideal) x0 x1 x2 x3 x4 x5 x6 x7 x8 x9 x10 x11 x12 x13 x14 x15 x16 x17 x18 x19 x20 x21 x22 x23 x24 x25 x26 x27 x28 x29 x30 x31) (lidx_main_v191 i k) * (val_main_v190 (F := Ideal) x32) (ridx_main_v191 i k) := by
  unfold val_main_v191
  generalize val_main_v189 (F := Ideal) x0 x1 x2 x3 x4 x5 x6 x7 x8 x9 x10 x11 x12 x13 x14 x15 x16 x17 x18 x19 x20 x21 x22 x23 x24 x25 x26 x27 x28 x29 x30 x31 = y0
  generalize val_main_v190 (F := Ideal) x32 = y1
  simp only [Host.dotGeneral]
  rw [Ideal.dotGeneral_apply, ← Equiv.sum_comp (ValueIdx.contrEquiv1 dot_S512x128_S128x12_S512x12_1_0_0_1_n_n 128 rfl rfl).symm]
  refine Finset.sum_congr rfl fun k _ => ?_
  have hk := ValueIdx.contrEquiv1_symm_val dot_S512x128_S128x12_S512x12_1_0_0_1_n_n 128 rfl rfl k
  have el : dot_S512x128_S128x12_S512x12_1_0_0_1_n_n.lhsIdx i ((ValueIdx.contrEquiv1 dot_S512x128_S128x12_S512x12_1_0_0_1_n_n 128 rfl rfl).symm k) = lidx_main_v191 i k := funext fun a => Fin.ext (by
    match a with
    | ⟨0, _⟩ => exact lhs_main_v191_0 _ _
    | ⟨1, _⟩ => exact (lhs_main_v191_1 _ _).trans hk)
  have er : dot_S512x128_S128x12_S512x12_1_0_0_1_n_n.rhsIdx i ((ValueIdx.contrEquiv1 dot_S512x128_S128x12_S512x12_1_0_0_1_n_n 128 rfl rfl).symm k) = ridx_main_v191 i k := funext fun a => Fin.ext (by
    match a with
    | ⟨0, _⟩ => exact (rhs_main_v191_0 _ _).trans hk
    | ⟨1, _⟩ => exact rhs_main_v191_1 _ _)
  rw [el, er]

def val_main_v192 : (⟨S1x12, .f32⟩ : BufTy).Contents (Elt F) :=
  broadcastInDim S1x12 ![1] bcast_S12_S1x12_1 (x33)

def val_main_v193 : (⟨S512x12, .f32⟩ : BufTy).Contents (Elt F) :=
  broadcastInDim S512x12 ![0, 1] bcast_S1x12_S512x12_0_1 (val_main_v192 (F := F) x33)
abbrev idx_main_v193 (i : S512x12.Idx) : S1x12.Idx := fun a => match a with
  | ⟨0, _⟩ => ⟨0, Nat.one_pos⟩
  | ⟨1, _⟩ => ⟨(i 1).val, (i 1).isLt⟩
theorem val_main_v193_apply (i : S512x12.Idx) :
    val_main_v193 (F := F) x33 i = val_main_v192 (F := F) x33 (idx_main_v193 i) := by
  unfold val_main_v193
  generalize val_main_v192 (F := F) x33 = y
  exact broadcastInDim_apply _ bcast_S1x12_S512x12_0_1 y i (idx_main_v193 i) (fun a => match a with
    | ⟨0, _⟩ => by show 0 = if (1 : Nat) = 1 then 0 else (i 0).val; rw [if_pos rfl]
    | ⟨1, _⟩ => by show (i 1).val = if (12 : Nat) = 1 then 0 else (i 1).val; rw [if_neg (by decide)])

def val_main_v194 : (⟨S512x12, .f32⟩ : BufTy).Contents (Elt F) :=
  addf (val_main_v191 (F := F) x0 x1 x2 x3 x4 x5 x6 x7 x8 x9 x10 x11 x12 x13 x14 x15 x16 x17 x18 x19 x20 x21 x22 x23 x24 x25 x26 x27 x28 x29 x30 x31 x32) (val_main_v193 (F := F) x33)
theorem val_main_v194_apply (i : S512x12.Idx) :
    val_main_v194 (F := F) x0 x1 x2 x3 x4 x5 x6 x7 x8 x9 x10 x11 x12 x13 x14 x15 x16 x17 x18 x19 x20 x21 x22 x23 x24 x25 x26 x27 x28 x29 x30 x31 x32 x33 i = FloatOps.addf (val_main_v191 (F := F) x0 x1 x2 x3 x4 x5 x6 x7 x8 x9 x10 x11 x12 x13 x14 x15 x16 x17 x18 x19 x20 x21 x22 x23 x24 x25 x26 x27 x28 x29 x30 x31 x32 i) (val_main_v193 (F := F) x33 i) := rfl

def val_main_v195 : (⟨S512x12, .f32⟩ : BufTy).Contents (Elt F) :=
  Host.negf (val_main_v194 (F := F) x0 x1 x2 x3 x4 x5 x6 x7 x8 x9 x10 x11 x12 x13 x14 x15 x16 x17 x18 x19 x20 x21 x22 x23 x24 x25 x26 x27 x28 x29 x30 x31 x32 x33)
theorem val_main_v195_apply (i : S512x12.Idx) :
    val_main_v195 (F := F) x0 x1 x2 x3 x4 x5 x6 x7 x8 x9 x10 x11 x12 x13 x14 x15 x16 x17 x18 x19 x20 x21 x22 x23 x24 x25 x26 x27 x28 x29 x30 x31 x32 x33 i = FloatOps.hostNegf (val_main_v194 (F := F) x0 x1 x2 x3 x4 x5 x6 x7 x8 x9 x10 x11 x12 x13 x14 x15 x16 x17 x18 x19 x20 x21 x22 x23 x24 x25 x26 x27 x28 x29 x30 x31 x32 x33 i) := rfl

def val_main_v196 : (⟨S512x12, .f32⟩ : BufTy).Contents (Elt F) :=
  Host.exp (val_main_v195 (F := F) x0 x1 x2 x3 x4 x5 x6 x7 x8 x9 x10 x11 x12 x13 x14 x15 x16 x17 x18 x19 x20 x21 x22 x23 x24 x25 x26 x27 x28 x29 x30 x31 x32 x33)
theorem val_main_v196_apply (i : S512x12.Idx) :
    val_main_v196 (F := F) x0 x1 x2 x3 x4 x5 x6 x7 x8 x9 x10 x11 x12 x13 x14 x15 x16 x17 x18 x19 x20 x21 x22 x23 x24 x25 x26 x27 x28 x29 x30 x31 x32 x33 i = FloatOps.hostUnary .exp (val_main_v195 (F := F) x0 x1 x2 x3 x4 x5 x6 x7 x8 x9 x10 x11 x12 x13 x14 x15 x16 x17 x18 x19 x20 x21 x22 x23 x24 x25 x26 x27 x28 x29 x30 x31 x32 x33 i) := rfl

def val_main_cst_29 : (⟨S_, .f32⟩ : BufTy).Contents (Elt F) :=
  constant S_ .f32 0x3F800000#32
theorem val_main_cst_29_apply (i : S_.Idx) :
    val_main_cst_29 (F := F) i = FloatOps.ofBits .f32 0x3F800000#32 := rfl

def val_main_v197 : (⟨S512x12, .f32⟩ : BufTy).Contents (Elt F) :=
  broadcastInDim S512x12 ![] bcast_S_S512x12 (val_main_cst_29 (F := F))
abbrev idx_main_v197 (i : S512x12.Idx) : S_.Idx := fun a => a.elim0
theorem val_main_v197_apply (i : S512x12.Idx) :
    val_main_v197 (F := F) i = val_main_cst_29 (F := F) (idx_main_v197 i) := by
  unfold val_main_v197
  generalize val_main_cst_29 (F := F) = y
  exact broadcastInDim_apply _ bcast_S_S512x12 y i (idx_main_v197 i) (fun a => a.elim0)

def val_main_v198 : (⟨S512x12, .f32⟩ : BufTy).Contents (Elt F) :=
  addf (val_main_v197 (F := F)) (val_main_v196 (F := F) x0 x1 x2 x3 x4 x5 x6 x7 x8 x9 x10 x11 x12 x13 x14 x15 x16 x17 x18 x19 x20 x21 x22 x23 x24 x25 x26 x27 x28 x29 x30 x31 x32 x33)
theorem val_main_v198_apply (i : S512x12.Idx) :
    val_main_v198 (F := F) x0 x1 x2 x3 x4 x5 x6 x7 x8 x9 x10 x11 x12 x13 x14 x15 x16 x17 x18 x19 x20 x21 x22 x23 x24 x25 x26 x27 x28 x29 x30 x31 x32 x33 i = FloatOps.addf (val_main_v197 (F := F) i) (val_main_v196 (F := F) x0 x1 x2 x3 x4 x5 x6 x7 x8 x9 x10 x11 x12 x13 x14 x15 x16 x17 x18 x19 x20 x21 x22 x23 x24 x25 x26 x27 x28 x29 x30 x31 x32 x33 i) := rfl

def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl

def val_main_v199 : (⟨S512x12, .f32⟩ : BufTy).Contents (Elt F) :=
  broadcastInDim S512x12 ![] bcast_S_S512x12 (val_main_cst_30 (F := F))
abbrev idx_main_v199 (i : S512x12.Idx) : S_.Idx := fun a => a.elim0
theorem val_main_v199_apply (i : S512x12.Idx) :
    val_main_v199 (F := F) i = val_main_cst_30 (F := F) (idx_main_v199 i) := by
  unfold val_main_v199
  generalize val_main_cst_30 (F := F) = y
  exact broadcastInDim_apply _ bcast_S_S512x12 y i (idx_main_v199 i) (fun a => a.elim0)

def val_main_v200 : (⟨S512x12, .f32⟩ : BufTy).Contents (Elt F) :=
  Host.divf (val_main_v199 (F := F)) (val_main_v198 (F := F) x0 x1 x2 x3 x4 x5 x6 x7 x8 x9 x10 x11 x12 x13 x14 x15 x16 x17 x18 x19 x20 x21 x22 x23 x24 x25 x26 x27 x28 x29 x30 x31 x32 x33)
theorem val_main_v200_apply (i : S512x12.Idx) :
    val_main_v200 (F := F) x0 x1 x2 x3 x4 x5 x6 x7 x8 x9 x10 x11 x12 x13 x14 x15 x16 x17 x18 x19 x20 x21 x22 x23 x24 x25 x26 x27 x28 x29 x30 x31 x32 x33 i = FloatOps.hostDivf (val_main_v199 (F := F) i) (val_main_v198 (F := F) x0 x1 x2 x3 x4 x5 x6 x7 x8 x9 x10 x11 x12 x13 x14 x15 x16 x17 x18 x19 x20 x21 x22 x23 x24 x25 x26 x27 x28 x29 x30 x31 x32 x33 i) := rfl

end Cert.ReferenceIdeal.ReadP

end
-- ==== Proof.RefRunArgs.lean ====
import proofs.«424575_j83829171683414_1_alg».proof.Proof.RefRunOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F)) {r : Ref sig .tc}

abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25, main_arg26, main_arg27,
   main_arg28, main_arg29, main_arg30, main_arg31, main_arg32, main_arg33]

-- the arguments, and the three results of the first part of the list that later parts read
abbrev kept : List (Ref sig .tc) := main_v1 :: main_v3 :: main_v9 :: args

-- every operation of `l` writes one buffer, and that buffer is outside `K`
def Spares (K : List (Ref sig .tc)) (l : List (HloOp τ sig (Elt F))) : Prop :=
  l.Forall fun op => ∃ y ∉ K, op.writes = {Proc.devRef .tc y}

-- a buffer of `K` is written by no operation of `l`, so it holds after `l` what it held before
theorem after_keep {K : List (Ref sig .tc)} {l : List (HloOp τ sig (Elt F))} (hl : Spares K l) (h : r ∈ K) :
    after l W (Proc.devRef .tc r) = W (Proc.devRef .tc r) :=
  after_of_forall_not_mem l W fun op hop hb => by
    obtain ⟨y, hy, e⟩ := List.forall_iff_forall_mem.mp hl op hop
    rw [e, Finset.mem_singleton] at hb
    exact hy (Proc.devRef_injective _ hb ▸ h)

theorem ops0_keep : Spares args (ops0 : List (HloOp τ sig (Elt F))) := by
  simp only [Spares, List.Forall]; repeat' apply And.intro
  all_goals exact ⟨_, by decide, rfl⟩

theorem ops1_keep : Spares kept (ops1 : List (HloOp τ sig (Elt F))) := by
  simp only [Spares, List.Forall]; repeat' apply And.intro
  all_goals exact ⟨_, by decide, rfl⟩

theorem ops2_keep : Spares kept (ops2 : List (HloOp τ sig (Elt F))) := by
  simp only [Spares, List.Forall]; repeat' apply And.intro
  all_goals exact ⟨_, by decide, rfl⟩

theorem ops3_keep : Spares kept (ops3 : List (HloOp τ sig (Elt F))) := by
  simp only [Spares, List.Forall]; repeat' apply And.intro
  all_goals exact ⟨_, by decide, rfl⟩

theorem mem_kept (h : r ∈ args) : r ∈ kept :=
  List.mem_cons_of_mem _ (List.mem_cons_of_mem _ (List.mem_cons_of_mem _ h))

-- an argument holds after one, two, three and all four parts of the list what it held at the start
theorem arg1 (h : r ∈ args) : after ops0 W (Proc.devRef .tc r) = W (Proc.devRef .tc r) :=
  after_keep W ops0_keep h

theorem arg2 (h : r ∈ args) : after ops1 (after ops0 W) (Proc.devRef .tc r) = W (Proc.devRef .tc r) :=
  (after_keep (after ops0 W) ops1_keep (mem_kept h)).trans (arg1 W h)

theorem arg3 (h : r ∈ args) : after ops2 (after ops1 (after ops0 W)) (Proc.devRef .tc r) = W (Proc.devRef .tc r) :=
  (after_keep (after ops1 (after ops0 W)) ops2_keep (mem_kept h)).trans (arg2 W h)

theorem arg4 (h : r ∈ args) : after ops W (Proc.devRef .tc r) = W (Proc.devRef .tc r) :=
  (congrFun (after_ops W) _).trans
    ((after_keep (after ops2 (after ops1 (after ops0 W))) ops3_keep (mem_kept h)).trans (arg3 W h))

theorem arg_read0 : after ops W (Proc.devRef .tc main_arg0) = W (Proc.devRef .tc main_arg0) :=
  arg4 W (by decide)

theorem arg_read1 : after ops W (Proc.devRef .tc main_arg1) = W (Proc.devRef .tc main_arg1) :=
  arg4 W (by decide)

theorem arg_read2 : after ops W (Proc.devRef .tc main_arg2) = W (Proc.devRef .tc main_arg2) :=
  arg4 W (by decide)

theorem arg_read3 : after ops W (Proc.devRef .tc main_arg3) = W (Proc.devRef .tc main_arg3) :=
  arg4 W (by decide)

theorem arg_read4 : after ops W (Proc.devRef .tc main_arg4) = W (Proc.devRef .tc main_arg4) :=
  arg4 W (by decide)

theorem arg_read5 : after ops W (Proc.devRef .tc main_arg5) = W (Proc.devRef .tc main_arg5) :=
  arg4 W (by decide)

theorem arg_read6 : after ops W (Proc.devRef .tc main_arg6) = W (Proc.devRef .tc main_arg6) :=
  arg4 W (by decide)

theorem arg_read7 : after ops W (Proc.devRef .tc main_arg7) = W (Proc.devRef .tc main_arg7) :=
  arg4 W (by decide)

theorem arg_read8 : after ops W (Proc.devRef .tc main_arg8) = W (Proc.devRef .tc main_arg8) :=
  arg4 W (by decide)

theorem arg_read9 : after ops W (Proc.devRef .tc main_arg9) = W (Proc.devRef .tc main_arg9) :=
  arg4 W (by decide)

theorem arg_read10 : after ops W (Proc.devRef .tc main_arg10) = W (Proc.devRef .tc main_arg10) :=
  arg4 W (by decide)

theorem arg_read11 : after ops W (Proc.devRef .tc main_arg11) = W (Proc.devRef .tc main_arg11) :=
  arg4 W (by decide)

theorem arg_read12 : after ops W (Proc.devRef .tc main_arg12) = W (Proc.devRef .tc main_arg12) :=
  arg4 W (by decide)

theorem arg_read13 : after ops W (Proc.devRef .tc main_arg13) = W (Proc.devRef .tc main_arg13) :=
  arg4 W (by decide)

theorem arg_read14 : after ops W (Proc.devRef .tc main_arg14) = W (Proc.devRef .tc main_arg14) :=
  arg4 W (by decide)

theorem arg_read15 : after ops W (Proc.devRef .tc main_arg15) = W (Proc.devRef .tc main_arg15) :=
  arg4 W (by decide)

theorem arg_read16 : after ops W (Proc.devRef .tc main_arg16) = W (Proc.devRef .tc main_arg16) :=
  arg4 W (by decide)

theorem arg_read17 : after ops W (Proc.devRef .tc main_arg17) = W (Proc.devRef .tc main_arg17) :=
  arg4 W (by decide)

theorem arg_read18 : after ops W (Proc.devRef .tc main_arg18) = W (Proc.devRef .tc main_arg18) :=
  arg4 W (by decide)

theorem arg_read19 : after ops W (Proc.devRef .tc main_arg19) = W (Proc.devRef .tc main_arg19) :=
  arg4 W (by decide)

theorem arg_read20 : after ops W (Proc.devRef .tc main_arg20) = W (Proc.devRef .tc main_arg20) :=
  arg4 W (by decide)

theorem arg_read21 : after ops W (Proc.devRef .tc main_arg21) = W (Proc.devRef .tc main_arg21) :=
  arg4 W (by decide)

theorem arg_read22 : after ops W (Proc.devRef .tc main_arg22) = W (Proc.devRef .tc main_arg22) :=
  arg4 W (by decide)

theorem arg_read23 : after ops W (Proc.devRef .tc main_arg23) = W (Proc.devRef .tc main_arg23) :=
  arg4 W (by decide)

theorem arg_read24 : after ops W (Proc.devRef .tc main_arg24) = W (Proc.devRef .tc main_arg24) :=
  arg4 W (by decide)

theorem arg_read25 : after ops W (Proc.devRef .tc main_arg25) = W (Proc.devRef .tc main_arg25) :=
  arg4 W (by decide)

theorem arg_read26 : after ops W (Proc.devRef .tc main_arg26) = W (Proc.devRef .tc main_arg26) :=
  arg4 W (by decide)

theorem arg_read27 : after ops W (Proc.devRef .tc main_arg27) = W (Proc.devRef .tc main_arg27) :=
  arg4 W (by decide)

theorem arg_read28 : after ops W (Proc.devRef .tc main_arg28) = W (Proc.devRef .tc main_arg28) :=
  arg4 W (by decide)

theorem arg_read29 : after ops W (Proc.devRef .tc main_arg29) = W (Proc.devRef .tc main_arg29) :=
  arg4 W (by decide)

theorem arg_read30 : after ops W (Proc.devRef .tc main_arg30) = W (Proc.devRef .tc main_arg30) :=
  arg4 W (by decide)

theorem arg_read31 : after ops W (Proc.devRef .tc main_arg31) = W (Proc.devRef .tc main_arg31) :=
  arg4 W (by decide)

theorem arg_read32 : after ops W (Proc.devRef .tc main_arg32) = W (Proc.devRef .tc main_arg32) :=
  arg4 W (by decide)

theorem arg_read33 : after ops W (Proc.devRef .tc main_arg33) = W (Proc.devRef .tc main_arg33) :=
  arg4 W (by decide)

end Cert.ReferenceIdeal.ValueP

end
-- ==== Proof.RefRunVal.lean ====
import proofs.«424575_j83829171683414_1_alg».proof.Proof.RefRunArgs
import proofs.«424575_j83829171683414_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F)) {W₀ : Valuation τ sig (Elt F)}

-- a function of three operands of different types, applied to them one by one
def app3 {α : Fin 3 → Type} {β : Type} (f : ((k : Fin 3) → α k) → β) (x : α 0) (y : α 1) (z : α 2) : β :=
  f (Fin.cons x (Fin.cons y (Fin.cons z fun i => i.elim0)))

-- a three-operand operation's result is its function of what the three operand buffers hold
theorem nary3_result' {a b c y : Ref sig .tc}
    (f : ((k : Fin 3) → ((![a, b, c] : Fin 3 → Ref sig .tc) k).ty.Contents (Elt F)) → y.ty.Contents (Elt F)) (hxs hy) :
    (nary (τ := τ) ![a, b, c] y f hxs hy).result W (no_index (Proc.devRef .tc y))
      = app3 f (W (Proc.devRef .tc a)) (W (Proc.devRef .tc b)) (W (Proc.devRef .tc c)) := by
  rw [nary_result]; unfold app3; congr 1; funext k; fin_cases k <;> rfl

-- after a list of operations a result buffer holds its operation's function of the operands' contents, any other buffer what it held
local macro "window_read" : tactic => `(tactic| (
  simp (disch := decide) only [after_cons, after_nil, nullary_result', unary_result', binary_result', ternary_result',
    quaternary_result', reshape_result', nary3_result', unaryIndexed_result', binaryIndexed_result', nullary_result_ne',
    unary_result_ne', binary_result_ne', ternary_result_ne', quaternary_result_ne', reshape_result_ne', nary_result_ne',
    unaryIndexed_result_ne', binaryIndexed_result_ne']
  try simp (disch := decide) only [*, TRef.ofBuf, TRef.toBuf, cast_eq]
  try rfl))

theorem c0_v51 :
    after ops0 W (Proc.devRef .tc main_v51)
      = ReadP.val_main_v51 (F := F) (W (Proc.devRef .tc main_arg1)) := by
  window_read

set_option maxHeartbeats 4000000 in
theorem c0_v44 :
    after ops0 W (Proc.devRef .tc main_v44)
      = ReadP.val_main_v44 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  window_read

theorem c0_v3 :
    after ops0 W (Proc.devRef .tc main_v3)
      = ReadP.val_main_v3 (F := F) (W (Proc.devRef .tc main_arg1)) := by
  window_read

theorem c0_v1 :
    after ops0 W (Proc.devRef .tc main_v1)
      = ReadP.val_main_v1 (F := F) (W (Proc.devRef .tc main_arg1)) := by
  window_read

theorem c0_v9 :
    after ops0 W (Proc.devRef .tc main_v9)
      = ReadP.val_main_v9 (F := F) (W (Proc.devRef .tc main_arg2)) (W (Proc.devRef .tc main_arg4)) (W (Proc.devRef .tc main_arg5)) := by
  window_read

theorem c1_cst_14 :
    after ops1 W (Proc.devRef .tc main_cst_14)
      = ReadP.val_main_cst_14 (F := F) := by
  window_read

theorem c1_v102 {x1}
    (h_v3 : W (Proc.devRef .tc main_v3) = ReadP.val_main_v3 (F := F) x1) :
    after ops1 W (Proc.devRef .tc main_v102)
      = ReadP.val_main_v102 (F := F) x1 := by
  window_read

set_option maxHeartbeats 4000000 in
theorem c1_v98 {x0 x1 x2 x4 x5 x6 x7 x8 x9 x10 x11}
    (h_v9 : W (Proc.devRef .tc main_v9) = ReadP.val_main_v9 (F := F) x2 x4 x5)
    (h_v1 : W (Proc.devRef .tc main_v1) = ReadP.val_main_v1 (F := F) x1)
    (h_v44 : W (Proc.devRef .tc main_v44) = ReadP.val_main_v44 (F := F) x0 x1 x2 x4 x5 x6 x7 x8 x9 x10 x11)
    (h_v51 : W (Proc.devRef .tc main_v51) = ReadP.val_main_v51 (F := F) x1)
    (h_v3 : W (Proc.devRef .tc main_v3) = ReadP.val_main_v3 (F := F) x1)
    (hA : ∀ r ∈ args, W (no_index (Proc.devRef .tc r)) = W₀ (Proc.devRef .tc r)) :
    after ops1 W (Proc.devRef .tc main_v98)
      = ReadP.val_main_v98 (F := F) x0 x1 x2 x4 x5 x6 x7 x8 x9 x10 x11 (W₀ (Proc.devRef .tc main_arg12)) (W₀ (Proc.devRef .tc main_arg13)) (W₀ (Proc.devRef .tc main_arg14)) (W₀ (Proc.devRef .tc main_arg15)) (W₀ (Proc.devRef .tc main_arg20)) (W₀ (Proc.devRef .tc main_arg21)) (W₀ (Proc.devRef .tc main_arg22)) (W₀ (Proc.devRef .tc main_arg23)) := by
  window_read

theorem c2_v154 :
    after ops2 W (Proc.devRef .tc main_v154)
      = ReadP.val_main_v154 (F := F) := by
  window_read

theorem c2_v153 :
    after ops2 W (Proc.devRef .tc main_v153)
      = ReadP.val_main_v153 (F := F) := by
  window_read

set_option maxHeartbeats 4000000 in
theorem c2_v152 {x0 x1 x2 x4 x5 x6 x7 x8 x9 x10 x11 x12 x13 x14 x15 x20 x21 x22 x23}
    (h_v9 : W (Proc.devRef .tc main_v9) = ReadP.val_main_v9 (F := F) x2 x4 x5)
    (h_v1 : W (Proc.devRef .tc main_v1) = ReadP.val_main_v1 (F := F) x1)
    (h_v98 : W (Proc.devRef .tc main_v98) = ReadP.val_main_v98 (F := F) x0 x1 x2 x4 x5 x6 x7 x8 x9 x10 x11 x12 x13 x14 x15 x20 x21 x22 x23)
    (h_v102 : W (Proc.devRef .tc main_v102) = ReadP.val_main_v102 (F := F) x1)
    (h_cst_14 : W (Proc.devRef .tc main_cst_14) = ReadP.val_main_cst_14 (F := F))
    (h_v3 : W (Proc.devRef .tc main_v3) = ReadP.val_main_v3 (F := F) x1)
    (hA : ∀ r ∈ args, W (no_index (Proc.devRef .tc r)) = W₀ (Proc.devRef .tc r)) :
    after ops2 W (Proc.devRef .tc main_v152)
      = ReadP.val_main_v152 (F := F) x0 x1 x2 x4 x5 x6 x7 x8 x9 x10 x11 x12 x13 x14 x15 (W₀ (Proc.devRef .tc main_arg16)) (W₀ (Proc.devRef .tc main_arg17)) (W₀ (Proc.devRef .tc main_arg18)) (W₀ (Proc.devRef .tc main_arg19)) x20 x21 x22 x23 (W₀ (Proc.devRef .tc main_arg24)) (W₀ (Proc.devRef .tc main_arg25)) (W₀ (Proc.devRef .tc main_arg26)) (W₀ (Proc.devRef .tc main_arg27)) := by
  window_read

set_option maxHeartbeats 4000000 in
theorem c3_v200 {x0 x1 x2 x4 x5 x6 x7 x8 x9 x10 x11 x12 x13 x14 x15 x16 x17 x18 x19 x20 x21 x22 x23 x24 x25 x26 x27}
    (h_v152 : W (Proc.devRef .tc main_v152) = ReadP.val_main_v152 (F := F) x0 x1 x2 x4 x5 x6 x7 x8 x9 x10 x11 x12 x13 x14 x15 x16 x17 x18 x19 x20 x21 x22 x23 x24 x25 x26 x27)
    (h_v154 : W (Proc.devRef .tc main_v154) = ReadP.val_main_v154 (F := F))
    (h_v153 : W (Proc.devRef .tc main_v153) = ReadP.val_main_v153 (F := F))
    (h_v3 : W (Proc.devRef .tc main_v3) = ReadP.val_main_v3 (F := F) x1)
    (hA : ∀ r ∈ args, W (no_index (Proc.devRef .tc r)) = W₀ (Proc.devRef .tc r)) :
    after ops3 W (Proc.devRef .tc main_v200)
      = ReadP.val_main_v200 (F := F) x0 x1 x2 (W₀ (Proc.devRef .tc main_arg3)) x4 x5 x6 x7 x8 x9 x10 x11 x12 x13 x14 x15 x16 x17 x18 x19 x20 x21 x22 x23 x24 x25 x26 x27 (W₀ (Proc.devRef .tc main_arg28)) (W₀ (Proc.devRef .tc main_arg29)) (W₀ (Proc.devRef .tc main_arg30)) (W₀ (Proc.devRef .tc main_arg31)) (W₀ (Proc.devRef .tc main_arg32)) (W₀ (Proc.devRef .tc main_arg33)) := by
  window_read

theorem v200_read (m : (ℓ : Loc nD τ sig) → Buf (Elt F) ℓ) (c : Dev nD) :
    after ops (launchContents m c) (Proc.devRef .tc main_v200)
      = ReadP.val_main_v200 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) := by
  rw [after_ops]
  have e3 := c0_v3 (launchContents m c)
  have e1 := c0_v1 (launchContents m c)
  have e9 := c0_v9 (launchContents m c)
  have f3 := (after_keep _ ops1_keep (by decide)).trans e3
  have f1 := (after_keep _ ops1_keep (by decide)).trans e1
  have f9 := (after_keep _ ops1_keep (by decide)).trans e9
  have g3 := (after_keep _ ops2_keep (by decide)).trans f3
  exact c3_v200 _
    (c2_v152 _ f9 f1
      (c1_v98 _ e9 e1 (c0_v44 _) (c0_v51 _) e3 fun _ h => arg1 _ h)
      (c1_v102 _ e3) (c1_cst_14 _) f3 fun _ h => arg2 _ h)
    (c2_v154 _) (c2_v153 _) g3 fun _ h => arg3 _ h

end Cert.ReferenceIdeal.ValueP

end
-- ==== Proof.K.LaunchFacts.lean ====
import proofs.«424575_j83829171683414_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Rst (c : Dev nD) : sProp 𝕄 :=
  iprop((∃ r, prngReg c r) ∗ ∃ W, owes (c : Thread nD τ) (0 : CellTallies nD τ sig Unit) W)

abbrev Lz : GSem nD τ sig → Finset Unit := fun _ => ∅
abbrev lvz : GSem nD τ sig → Unit → ℕ := fun _ _ => 0

abbrev u0 : UR sig nD τ := initOf (Pipeline.cells cfgs cellOf_inj) (Pipeline.launchToks cfgs cellOf_inj)

theorem hu0 : (ownU u0 : sProp 𝕄) ⊢ |={Set.univ}=> iprop(BI.own ((emb₁ : Emb _ 𝕄) u0) ∗ bigSep Finset.univ (fun _ : Dev nD => (iprop(emp) : sProp 𝕄))) := by
  iintro Hu; imodintro
  isplitl [Hu]
  · iapply (show (ownU u0 : sProp 𝕄) ⊢ BI.own ((emb₁ : Emb _ 𝕄) u0) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => Rst (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE9 (c : Dev nD) : Rst (F := F) c ⊢ (iprop(∃ W, owes (c : Thread nD τ) (0 : CellTallies nD τ sig Unit) W) : sProp 𝕄) := by
  iintro ⟨-, HO⟩; iexact HO

end Cert.Kernel.Hand

end
-- ==== Proof.K.B0.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev whole0_x : Rect S2000x8 := Rect.unit (s := S2000x8) ![0, 0] S2000x8.size inb_S2000x8_S2000x8_0_0
abbrev whole0_w : Rect S8x16 := Rect.unit (s := S8x16) ![0, 0] S8x16.size inb_S8x16_S8x16_0_0
abbrev whole0_b : Rect S1x16 := Rect.unit (s := S1x16) ![0, 0] S1x16.size inb_S1x16_S1x16_0_0
abbrev whole0_out : Rect S2000x16 := Rect.unit (s := S2000x16) ![0, 0] S2000x16.size inb_S2000x16_S2000x16_0_0

def out0_3 (x0 : Vec F S2000x8 .f32) (x1 : Vec F S8x16 .f32) (x2 : Vec F S1x16 .f32) : Vec F S2000x16 .f32 :=
  View.canon [⟨whole0_out, k0_pay1 (View.ld x0 whole0_x) (View.ld x1 whole0_w) (View.ld x2 whole0_b)⟩]

theorem cover0_3 (p0 : Vec F S2000x16 .f32) (y : S2000x16.Idx) :
    ∃ pc ∈ ([⟨whole0_out, p0⟩] : List (View.Piece (Elt F) S2000x16 .f32)), y ∈ pc.1.set :=
  View.cover_of_tiled [⟨whole0_out, p0⟩] S2000x16.size (by rfl) y

set_option maxHeartbeats 1000000 in
theorem sound_kernel0 (c : Dev nD) (E : Set ℕ) (i : grid0.Coords) (arg1 : Memref sig .tc .vmem S2000x8 .f32) (harg1 : arg1.IsWhole) (arg2 : Memref sig .tc .vmem S8x16 .f32) (harg2 : arg2.IsWhole) (arg3 : Memref sig .tc .vmem S1x16 .f32) (harg3 : arg3.IsWhole) (arg4 : Memref sig .tc .vmem S2000x16 .f32) (harg4 : arg4.IsWhole)
    (x0 : Vec F S2000x8 .f32) (x1 : Vec F S8x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.B1.lean ====
/- Region 1 of the kernel program: the call of `cc1_kernel`, a dense layer followed by a rectifier,
   out = max(x · w + b, 0), on a grid of 10 points. Window 0 is the row tile of x (fetched at every point),
   windows 1 and 2 are the weight and the bias (one block each, fetched at the first point only and left in
   place afterwards), window 3 is the row tile of the result (written back at every point).
   Everything here is stated at a PARAMETER `V`: the TensorCore's buffer contents when the region is entered. -/
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

-- membership in a rectangle with a long axis is decided by a structural recursion along that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of x: its staging buffer holds the tile of point `t` when the body runs there, for any proof data
    whose array is `V`'s and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight: fetched at the first point only; at a later point its block index has not moved and the body left
    the block in place, so the staging buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias: as the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev whole1_x : Rect S2000x32 := Rect.unit (s := S2000x32) ![0, 0] S2000x32.size inb_S2000x32_S2000x32_0_0
abbrev whole1_w : Rect S32x256 := Rect.unit (s := S32x256) ![0, 0] S32x256.size inb_S32x256_S32x256_0_0
abbrev whole1_b : Rect S1x256 := Rect.unit (s := S1x256) ![0, 0] S1x256.size inb_S1x256_S1x256_0_0
abbrev whole1_out : Rect S2000x256 := Rect.unit (s := S2000x256) ![0, 0] S2000x256.size inb_S2000x256_S2000x256_0_0

/-! ## What the body leaves in the result's staging buffer -/

/-- The result tile after the body, from the three input blocks: the one store, of max(x · w + b, 0) of what the three
    loads read, over the whole buffer. -/
def out1_3 (x0 : Vec F S2000x32 .f32) (x1 : Vec F S32x256 .f32) (x2 : Vec F S1x256 .f32) : Vec F S2000x256 .f32 :=
  View.canon [⟨whole1_out, k1_pay1 (View.ld x0 whole1_x) (View.ld x1 whole1_w) (View.ld x2 whole1_b)⟩]

/-- The one store covers the buffer. -/
theorem cover1_3 (p0 : Vec F S2000x256 .f32) (y : S2000x256.Idx) :
    ∃ pc ∈ ([⟨whole1_out, p0⟩] : List (View.Piece (Elt F) S2000x256 .f32)), y ∈ pc.1.set :=
  View.cover_of_tiled [⟨whole1_out, p0⟩] S2000x256.size (by rfl) y

/-! ## The body's triple -/

set_option maxHeartbeats 1000000 in
/-- The body on whole staging buffers — the inputs' holding `x0`, `x1`, `x2`, the result's holding anything — runs to
    the continuation with the inputs' as they were and the result's at `out1_3 x0 x1 x2`. -/
theorem sound_kernel1 (c : Dev nD) (E : Set ℕ) (i : grid1.Coords) (arg1 : Memref sig .tc .vmem S2000x32 .f32) (harg1 : arg1.IsWhole) (arg2 : Memref sig .tc .vmem S32x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x32 .f32) (x1 : Vec F S32x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them (`V`); after the body at
    point `t` each input's buffer at its block and the result's at `out1_3` of the three input blocks; the invariant
    is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.B2.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x528 := Rect.unit (s := S2000x528) ![0, 0] S2000x528.size inb_S2000x528_S2000x528_0_0
abbrev r2_1 : Rect S528x512 := Rect.unit (s := S528x512) ![0, 0] S528x512.size inb_S528x512_S528x512_0_0
abbrev r2_2 : Rect S1x512 := Rect.unit (s := S1x512) ![0, 0] S1x512.size inb_S1x512_S1x512_0_0
abbrev r2_3 : Rect S512x256 := Rect.unit (s := S512x256) ![0, 0] S512x256.size inb_S512x256_S512x256_0_0
abbrev r2_4 : Rect S1x256 := Rect.unit (s := S1x256) ![0, 0] S1x256.size inb_S1x256_S1x256_0_0
abbrev r2_5 : Rect S2000x256 := Rect.unit (s := S2000x256) ![0, 0] S2000x256.size inb_S2000x256_S2000x256_0_0

def out2_5 (x0 : Vec F S2000x528 .f32) (x1 : Vec F S528x512 .f32) (x2 : Vec F S1x512 .f32) (x3 : Vec F S512x256 .f32) (x4 : Vec F S1x256 .f32) : Vec F S2000x256 .f32 :=
  View.canon [⟨r2_5, k2_pay1 (View.ld x0 r2_0) (View.ld x1 r2_1) (View.ld x2 r2_2) (View.ld x3 r2_3) (View.ld x4 r2_4)⟩]

theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

set_option maxHeartbeats 1000000 in
theorem sound_kernel2 (c : Dev nD) (E : Set ℕ) (i : grid2.Coords) (arg0 : Memref sig .tc .vmem S2000x528 .f32) (harg0 : arg0.IsWhole) (arg1 : Memref sig .tc .vmem S528x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x528 .f32) (x1 : Vec F S528x512 .f32) (x2 : Vec F S1x512 .f32) (x3 : Vec F S512x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.B3.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev tileBox3 : Rect S2000x256 := Rect.unit (s := S2000x256) ![0, 0] S2000x256.size inb_S2000x256_S2000x256_0_0

abbrev countBox3 : Rect S2000x1 := Rect.unit (s := S2000x1) ![0, 0] S2000x1.size inb_S2000x1_S2000x1_0_0

abbrev featBox3 : Rect S1x256 := Rect.unit (s := S1x256) ![0, 0] S1x256.size inb_S1x256_S1x256_0_0

def out3_6 (x0 : Vec F S2000x256 .f32) (x1 : Vec F S2000x1 .f32) (x2 : Vec F S1x256 .f32) (x3 : Vec F S1x256 .f32) (x4 : Vec F S1x256 .f32) (x5 : Vec F S1x256 .f32) : Vec F S2000x256 .f32 :=
  View.canon [⟨tileBox3, k3_pay1 (View.ld x1 countBox3) (View.ld x0 tileBox3) (View.ld x4 featBox3) (View.ld x5 featBox3) (View.ld x2 featBox3) (View.ld x3 featBox3)⟩]

theorem cover3_6 (p0 : Vec F S2000x256 .f32) (y : S2000x256.Idx) :
    ∃ pc ∈ ([⟨tileBox3, p0⟩] : List (View.Piece (Elt F) S2000x256 .f32)), y ∈ pc.1.set :=
  View.cover_of_tiled [⟨tileBox3, p0⟩] S2000x256.size (by rfl) y

set_option maxHeartbeats 1000000 in
theorem sound_kernel3 (c : Dev nD) (E : Set ℕ) (i : grid3.Coords) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x1 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.B4.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x528 := Rect.unit (s := S2000x528) ![0, 0] S2000x528.size inb_S2000x528_S2000x528_0_0
abbrev r4_1 : Rect S528x512 := Rect.unit (s := S528x512) ![0, 0] S528x512.size inb_S528x512_S528x512_0_0
abbrev r4_2 : Rect S1x512 := Rect.unit (s := S1x512) ![0, 0] S1x512.size inb_S1x512_S1x512_0_0
abbrev r4_3 : Rect S512x256 := Rect.unit (s := S512x256) ![0, 0] S512x256.size inb_S512x256_S512x256_0_0
abbrev r4_4 : Rect S1x256 := Rect.unit (s := S1x256) ![0, 0] S1x256.size inb_S1x256_S1x256_0_0
abbrev r4_5 : Rect S2000x256 := Rect.unit (s := S2000x256) ![0, 0] S2000x256.size inb_S2000x256_S2000x256_0_0

def out4_5 (x0 : Vec F S2000x528 .f32) (x1 : Vec F S528x512 .f32) (x2 : Vec F S1x512 .f32) (x3 : Vec F S512x256 .f32) (x4 : Vec F S1x256 .f32) : Vec F S2000x256 .f32 :=
  View.canon [⟨r4_5, k4_pay1 (View.ld x0 r4_0) (View.ld x1 r4_1) (View.ld x2 r4_2) (View.ld x3 r4_3) (View.ld x4 r4_4)⟩]

theorem cover4_5 (p0 : Vec F S2000x256 .f32) (y : S2000x256.Idx) :
    ∃ pc ∈ ([⟨r4_5, p0⟩] : List (View.Piece (Elt F) S2000x256 .f32)), y ∈ pc.1.set :=
  View.cover_of_tiled [⟨r4_5, p0⟩] S2000x256.size (by rfl) y

set_option maxHeartbeats 1000000 in
theorem sound_kernel4 (c : Dev nD) (E : Set ℕ) (i : grid4.Coords) (arg0 : Memref sig .tc .vmem S2000x528 .f32) (harg0 : arg0.IsWhole) (arg1 : Memref sig .tc .vmem S528x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x528 .f32) (x1 : Vec F S528x512 .f32) (x2 : Vec F S1x512 .f32) (x3 : Vec F S512x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4_kernel i arg0 harg0 arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.B5.lean ====
/- Region 5 of the kernel program: `cc5_kernel`, the normalisation kernel (mean of the summed messages over the
   row counts, batch normalisation with the stored mean and variance, then the positive part), pipelined over a grid
   of 10 row tiles. Everything is stated at a PARAMETER `V`, the TensorCore's buffer contents when the region is
   entered, and for any float model `F`: each window's block at a grid point, what the body's one store leaves in
   the output window's staging buffer as a function of the input blocks, the body's triple, the pipeline's proof
   data, and the body obligation the pipeline's frame asks of them. -/
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 1 (the summed
    messages and the row counts) move with the row tile; windows 2 to 5 (scale, shift, mean, variance) are one
    whole row each and the same block at every point; window 6 is the output tile. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the summed messages): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the row counts): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the scale): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the shift): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the mean): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 (the variance): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole staging buffer -/

/-- The whole row tile of 256 features. -/
abbrev tileBox5 : Rect S2000x256 := Rect.unit (s := S2000x256) ![0, 0] S2000x256.size inb_S2000x256_S2000x256_0_0
/-- The whole column of row counts. -/
abbrev countBox5 : Rect S2000x1 := Rect.unit (s := S2000x1) ![0, 0] S2000x1.size inb_S2000x1_S2000x1_0_0
/-- A whole per-feature row. -/
abbrev featBox5 : Rect S1x256 := Rect.unit (s := S1x256) ![0, 0] S1x256.size inb_S1x256_S1x256_0_0

/-! ## What the body leaves in the output window's buffer -/

/-- Window 6's staging buffer after the body, from the input windows' blocks in WINDOW order (summed messages, row
    counts, scale, shift, mean, variance): the one store's payload, which takes them in the order the body loads them
    (row counts, summed messages, mean, variance, scale, shift). -/
def out5_6 (x0 : Vec F S2000x256 .f32) (x1 : Vec F S2000x1 .f32) (x2 : Vec F S1x256 .f32) (x3 : Vec F S1x256 .f32) (x4 : Vec F S1x256 .f32) (x5 : Vec F S1x256 .f32) : Vec F S2000x256 .f32 :=
  View.canon [⟨tileBox5, k5_pay1 (View.ld x1 countBox5) (View.ld x0 tileBox5) (View.ld x4 featBox5) (View.ld x5 featBox5) (View.ld x2 featBox5) (View.ld x3 featBox5)⟩]

/-- The one store takes the whole buffer, so it covers it. -/
theorem cover5_6 (p0 : Vec F S2000x256 .f32) (y : S2000x256.Idx) :
    ∃ pc ∈ ([⟨tileBox5, p0⟩] : List (View.Piece (Elt F) S2000x256 .f32)), y ∈ pc.1.set :=
  View.cover_of_tiled [⟨tileBox5, p0⟩] S2000x256.size (by rfl) y

/-! ## The body's triple -/

set_option maxHeartbeats 1000000 in
/-- The kernel body on whole staging memrefs, the inputs' at read contents `xW` and the output's at anything, runs to
    the continuation holding the inputs' as they were and the output's at `out5_6` of the inputs'. The body also
    loads the output buffer before it stores to it; the value loaded is not used. -/
theorem sound_kernel5 (c : Dev nD) (E : Set ℕ) (i : grid5.Coords) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x1 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of this region's pipeline on core `c`: the arrays as the region finds them (`V`); after the body at
    point `t` each input's buffer at its block and the output's at `out5_6` of the input blocks; the invariant that
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and the
    core's owed amount pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.B6.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x528 := Rect.unit (s := S2000x528) ![0, 0] S2000x528.size inb_S2000x528_S2000x528_0_0
abbrev r6_1 : Rect S528x256 := Rect.unit (s := S528x256) ![0, 0] S528x256.size inb_S528x256_S528x256_0_0
abbrev r6_2 : Rect S1x256 := Rect.unit (s := S1x256) ![0, 0] S1x256.size inb_S1x256_S1x256_0_0
abbrev r6_3 : Rect S256x128 := Rect.unit (s := S256x128) ![0, 0] S256x128.size inb_S256x128_S256x128_0_0
abbrev r6_4 : Rect S1x128 := Rect.unit (s := S1x128) ![0, 0] S1x128.size inb_S1x128_S1x128_0_0
abbrev r6_5 : Rect S2000x128 := Rect.unit (s := S2000x128) ![0, 0] S2000x128.size inb_S2000x128_S2000x128_0_0

def out6_5 (x0 : Vec F S2000x528 .f32) (x1 : Vec F S528x256 .f32) (x2 : Vec F S1x256 .f32) (x3 : Vec F S256x128 .f32) (x4 : Vec F S1x128 .f32) : Vec F S2000x128 .f32 :=
  View.canon [⟨r6_5, k6_pay1 (View.ld x0 r6_0) (View.ld x1 r6_1) (View.ld x2 r6_2) (View.ld x3 r6_3) (View.ld x4 r6_4)⟩]

theorem cover6_5 (p0 : Vec F S2000x128 .f32) (y : S2000x128.Idx) :
    ∃ pc ∈ ([⟨r6_5, p0⟩] : List (View.Piece (Elt F) S2000x128 .f32)), y ∈ pc.1.set :=
  View.cover_of_tiled [⟨r6_5, p0⟩] S2000x128.size (by rfl) y

set_option maxHeartbeats 1000000 in
theorem sound_kernel6 (c : Dev nD) (E : Set ℕ) (i : grid6.Coords) (arg0 : Memref sig .tc .vmem S2000x528 .f32) (harg0 : arg0.IsWhole) (arg1 : Memref sig .tc .vmem S528x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x528 .f32) (x1 : Vec F S528x256 .f32) (x2 : Vec F S1x256 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6_kernel i arg0 harg0 arg1 harg1 arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.B7.lean ====
/- Region 7 of the kernel program: `cc7_kernel`, the normalisation kernel (mean of the summed messages over the
   row counts, batch normalisation with the stored mean and variance, then the positive part), pipelined over a grid
   of 10 row tiles. Everything is stated at a PARAMETER `V`, the TensorCore's buffer contents when the region is
   entered, and for any float model `F`: each window's block at a grid point, what the body's one store leaves in
   the output window's staging buffer as a function of the input blocks, the body's triple, the pipeline's proof
   data, and the body obligation the pipeline's frame asks of them. -/
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 1 (the summed
    messages and the row counts) move with the row tile; windows 2 to 5 (scale, shift, mean, variance) are one
    whole row each and the same block at every point; window 6 is the output tile. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the summed messages): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the row counts): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the scale): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the shift): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the mean): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5 (the variance): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole staging buffer -/

/-- The whole row tile of 128 features. -/
abbrev tileBox7 : Rect S2000x128 := Rect.unit (s := S2000x128) ![0, 0] S2000x128.size inb_S2000x128_S2000x128_0_0
/-- The whole column of row counts. -/
abbrev countBox7 : Rect S2000x1 := Rect.unit (s := S2000x1) ![0, 0] S2000x1.size inb_S2000x1_S2000x1_0_0
/-- A whole per-feature row. -/
abbrev featBox7 : Rect S1x128 := Rect.unit (s := S1x128) ![0, 0] S1x128.size inb_S1x128_S1x128_0_0

/-! ## What the body leaves in the output window's buffer -/

/-- Window 6's staging buffer after the body, from the input windows' blocks in WINDOW order (summed messages, row
    counts, scale, shift, mean, variance): the one store's payload, which takes them in the order the body loads them
    (row counts, summed messages, mean, variance, scale, shift). -/
def out7_6 (x0 : Vec F S2000x128 .f32) (x1 : Vec F S2000x1 .f32) (x2 : Vec F S1x128 .f32) (x3 : Vec F S1x128 .f32) (x4 : Vec F S1x128 .f32) (x5 : Vec F S1x128 .f32) : Vec F S2000x128 .f32 :=
  View.canon [⟨tileBox7, k7_pay1 (View.ld x1 countBox7) (View.ld x0 tileBox7) (View.ld x4 featBox7) (View.ld x5 featBox7) (View.ld x2 featBox7) (View.ld x3 featBox7)⟩]

/-- The one store takes the whole buffer, so it covers it. -/
theorem cover7_6 (p0 : Vec F S2000x128 .f32) (y : S2000x128.Idx) :
    ∃ pc ∈ ([⟨tileBox7, p0⟩] : List (View.Piece (Elt F) S2000x128 .f32)), y ∈ pc.1.set :=
  View.cover_of_tiled [⟨tileBox7, p0⟩] S2000x128.size (by rfl) y

/-! ## The body's triple -/

set_option maxHeartbeats 1000000 in
/-- The kernel body on whole staging memrefs, the inputs' at read contents `xW` and the output's at anything, runs to
    the continuation holding the inputs' as they were and the output's at `out7_6` of the inputs'. The body also
    loads the output buffer before it stores to it; the value loaded is not used. -/
theorem sound_kernel7 (c : Dev nD) (E : Set ℕ) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x1 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7_kernel i arg1 harg1 arg2 harg2 arg3 harg3 arg4 harg4 arg5 harg5 arg6 harg6 arg7 harg7) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of this region's pipeline on core `c`: the arrays as the region finds them (`V`); after the body at
    point `t` each input's buffer at its block and the output's at `out7_6` of the input blocks; the invariant that
    leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and the
    core's owed amount pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.B8.lean ====
import proofs.«424575_j83829171683414_1_alg».proof.Proof.Gen.Kernel.Launch
import proofs.«424575_j83829171683414_1_alg».proof.Proof.Gen.Kernel.Skeleton
import proofs.«424575_j83829171683414_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev rAct8 : Rect S512x128 := Rect.unit (s := S512x128) ![0, 0] S512x128.size inb_S512x128_S512x128_0_0
abbrev rWgt8 : Rect S128x12 := Rect.unit (s := S128x12) ![0, 0] S128x12.size inb_S128x12_S128x12_0_0
abbrev rBias8 : Rect S1x12 := Rect.unit (s := S1x12) ![0, 0] S1x12.size inb_S1x12_S1x12_0_0
abbrev rOut8 : Rect S512x12 := Rect.unit (s := S512x12) ![0, 0] S512x12.size inb_S512x12_S512x12_0_0

def out8_3 (x0 : Vec F S512x128 .f32) (x1 : Vec F S128x12 .f32) (x2 : Vec F S1x12 .f32) : Vec F S512x12 .f32 :=
  View.canon [⟨rOut8, k8_pay1 (View.ld x0 rAct8) (View.ld x1 rWgt8) (View.ld x2 rBias8)⟩]

theorem cover8_3 (p0 : Vec F S512x12 .f32) (y : S512x12.Idx) :
    ∃ pc ∈ ([⟨rOut8, p0⟩] : List (View.Piece (Elt F) S512x12 .f32)), y ∈ pc.1.set :=
  View.cover_of_tiled [⟨rOut8, p0⟩] S512x12.size (by rfl) y

set_option maxHeartbeats 1000000 in
theorem sound_kernel8 (c : Dev nD) (E : Set ℕ) (i : grid8.Coords) (arg1 : Memref sig .tc .vmem S512x128 .f32) (harg1 : arg1.IsWhole) (arg2 : Memref sig .tc .vmem S128x12 .f32) (harg2 : arg2.IsWhole) (arg3 : Memref sig .tc .vmem S1x12 .f32) (harg3 : arg3.IsWhole) (arg4 : Memref sig .tc .vmem S512x12 .f32) (harg4 : arg4.IsWhole)
    (x0 : Vec F S512x128 .f32) (x1 : Vec F S128x12 .f32) (x2 : Vec F S1x12 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8_kernel i arg1 harg1 arg2 harg2 arg3 harg3 arg4 harg4) K := by
  simp only [cc8_kernel_eq_skeleton]; unfold cc8_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Chain.lean ====
import proofs.«424575_j83829171683414_1_alg».proof.Proof.K.B0
import proofs.«424575_j83829171683414_1_alg».proof.Proof.K.B1
import proofs.«424575_j83829171683414_1_alg».proof.Proof.K.B2
import proofs.«424575_j83829171683414_1_alg».proof.Proof.K.B3
import proofs.«424575_j83829171683414_1_alg».proof.Proof.K.B4
import proofs.«424575_j83829171683414_1_alg».proof.Proof.K.B5
import proofs.«424575_j83829171683414_1_alg».proof.Proof.K.B6
import proofs.«424575_j83829171683414_1_alg».proof.Proof.K.B7
import proofs.«424575_j83829171683414_1_alg».proof.Proof.K.B8
import proofs.«424575_j83829171683414_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev U0 (c : Dev nD) : Valuation τ sig (Elt F) := fun b => m (c, b)

abbrev U1 (c : Dev nD) : Valuation τ sig (Elt F) := StableHlo.after hostOps0 (U0 m c)

def o2 (c : Dev nD) : Buf (Elt F) ((c : Thread nD τ).loc main_v6) := (dat0 (atRefs (U1 m)) c).arrAt 3 cfg0.N
abbrev U2 (c : Dev nD) : Valuation τ sig (Elt F) := Function.update (U1 m c) main_v6 (o2 m c)
abbrev U3 (c : Dev nD) : Valuation τ sig (Elt F) := StableHlo.after hostOps1 (U2 m c)

def o4 (c : Dev nD) : Buf (Elt F) ((c : Thread nD τ).loc main_v9) := (dat1 (atRefs (U3 m)) c).arrAt 3 cfg1.N
abbrev U4 (c : Dev nD) : Valuation τ sig (Elt F) := Function.update (U3 m c) main_v9 (o4 m c)
abbrev U5 (c : Dev nD) : Valuation τ sig (Elt F) := StableHlo.after hostOps2 (U4 m c)
abbrev U6 (c : Dev nD) : Valuation τ sig (Elt F) := StableHlo.after hostOps2_1 (U5 m c)
abbrev U7 (c : Dev nD) : Valuation τ sig (Elt F) := StableHlo.after hostOps2_2 (U6 m c)

def o8 (c : Dev nD) : Buf (Elt F) ((c : Thread nD τ).loc main_v17) := (dat2 (atRefs (U7 m)) c).arrAt 5 cfg2.N
abbrev U8 (c : Dev nD) : Valuation τ sig (Elt F) := Function.update (U7 m c) main_v17 (o8 m c)
abbrev U9 (c : Dev nD) : Valuation τ sig (Elt F) := StableHlo.after hostOps3 (U8 m c)

def o10 (c : Dev nD) : Buf (Elt F) ((c : Thread nD τ).loc main_v30) := (dat3 (atRefs (U9 m)) c).arrAt 6 cfg3.N
abbrev U10 (c : Dev nD) : Valuation τ sig (Elt F) := Function.update (U9 m c) main_v30 (o10 m c)
abbrev U11 (c : Dev nD) : Valuation τ sig (Elt F) := StableHlo.after hostOps4 (U10 m c)
abbrev U12 (c : Dev nD) : Valuation τ sig (Elt F) := StableHlo.after hostOps4_1 (U11 m c)
abbrev U13 (c : Dev nD) : Valuation τ sig (Elt F) := StableHlo.after hostOps4_2 (U12 m c)

def o14 (c : Dev nD) : Buf (Elt F) ((c : Thread nD τ).loc main_v38) := (dat4 (atRefs (U13 m)) c).arrAt 5 cfg4.N
abbrev U14 (c : Dev nD) : Valuation τ sig (Elt F) := Function.update (U13 m c) main_v38 (o14 m c)
abbrev U15 (c : Dev nD) : Valuation τ sig (Elt F) := StableHlo.after hostOps5 (U14 m c)

def o16 (c : Dev nD) : Buf (Elt F) ((c : Thread nD τ).loc main_v51) := (dat5 (atRefs (U15 m)) c).arrAt 6 cfg5.N
abbrev U16 (c : Dev nD) : Valuation τ sig (Elt F) := Function.update (U15 m c) main_v51 (o16 m c)
abbrev U17 (c : Dev nD) : Valuation τ sig (Elt F) := StableHlo.after hostOps6 (U16 m c)
abbrev U18 (c : Dev nD) : Valuation τ sig (Elt F) := StableHlo.after hostOps6_1 (U17 m c)
abbrev U19 (c : Dev nD) : Valuation τ sig (Elt F) := StableHlo.after hostOps6_2 (U18 m c)

def o20 (c : Dev nD) : Buf (Elt F) ((c : Thread nD τ).loc main_v59) := (dat6 (atRefs (U19 m)) c).arrAt 5 cfg6.N
abbrev U20 (c : Dev nD) : Valuation τ sig (Elt F) := Function.update (U19 m c) main_v59 (o20 m c)
abbrev U21 (c : Dev nD) : Valuation τ sig (Elt F) := StableHlo.after hostOps7 (U20 m c)

def o22 (c : Dev nD) : Buf (Elt F) ((c : Thread nD τ).loc main_v72) := (dat7 (atRefs (U21 m)) c).arrAt 6 cfg7.N
abbrev U22 (c : Dev nD) : Valuation τ sig (Elt F) := Function.update (U21 m c) main_v72 (o22 m c)
abbrev U23 (c : Dev nD) : Valuation τ sig (Elt F) := StableHlo.after hostOps8 (U22 m c)

def o24 (c : Dev nD) : Buf (Elt F) ((c : Thread nD τ).loc main_v87) := (dat8 (atRefs (U23 m)) c).arrAt 3 cfg8.N
abbrev U24 (c : Dev nD) : Valuation τ sig (Elt F) := Function.update (U23 m c) main_v87 (o24 m c)

def pdats : (p : Fin 9) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U7 m)) c
  | ⟨3, _⟩ => fun c => dat3 (atRefs (U9 m)) c
  | ⟨4, _⟩ => fun c => dat4 (atRefs (U13 m)) c
  | ⟨5, _⟩ => fun c => dat5 (atRefs (U15 m)) c
  | ⟨6, _⟩ => fun c => dat6 (atRefs (U19 m)) c
  | ⟨7, _⟩ => fun c => dat7 (atRefs (U21 m)) c
  | ⟨8, _⟩ => fun c => dat8 (atRefs (U23 m)) c

def outsH : Outs (F := F) := fun J r c =>
  match J with
  | 2 => Function.update (U0 m c) main_v6 (o2 m c) r
  | 4 => Function.update (U0 m c) main_v9 (o4 m c) r
  | 8 => Function.update (U0 m c) main_v17 (o8 m c) r
  | 10 => Function.update (U0 m c) main_v30 (o10 m c) r
  | 14 => Function.update (U0 m c) main_v38 (o14 m c) r
  | 16 => Function.update (U0 m c) main_v51 (o16 m c) r
  | 20 => Function.update (U0 m c) main_v59 (o20 m c) r
  | 22 => Function.update (U0 m c) main_v72 (o22 m c) r
  | 24 => Function.update (U0 m c) main_v87 (o24 m c) r
  | _ => U0 m c r

theorem outsH_2 (c : Dev nD) : outsH m 2 main_v6 c = o2 m c := by
  show Function.update (U0 m c) main_v6 (o2 m c) main_v6 = o2 m c
  exact Function.update_self ..
theorem outsH_4 (c : Dev nD) : outsH m 4 main_v9 c = o4 m c := by
  show Function.update (U0 m c) main_v9 (o4 m c) main_v9 = o4 m c
  exact Function.update_self ..
theorem outsH_8 (c : Dev nD) : outsH m 8 main_v17 c = o8 m c := by
  show Function.update (U0 m c) main_v17 (o8 m c) main_v17 = o8 m c
  exact Function.update_self ..
theorem outsH_10 (c : Dev nD) : outsH m 10 main_v30 c = o10 m c := by
  show Function.update (U0 m c) main_v30 (o10 m c) main_v30 = o10 m c
  exact Function.update_self ..
theorem outsH_14 (c : Dev nD) : outsH m 14 main_v38 c = o14 m c := by
  show Function.update (U0 m c) main_v38 (o14 m c) main_v38 = o14 m c
  exact Function.update_self ..
theorem outsH_16 (c : Dev nD) : outsH m 16 main_v51 c = o16 m c := by
  show Function.update (U0 m c) main_v51 (o16 m c) main_v51 = o16 m c
  exact Function.update_self ..
theorem outsH_20 (c : Dev nD) : outsH m 20 main_v59 c = o20 m c := by
  show Function.update (U0 m c) main_v59 (o20 m c) main_v59 = o20 m c
  exact Function.update_self ..
theorem outsH_22 (c : Dev nD) : outsH m 22 main_v72 c = o22 m c := by
  show Function.update (U0 m c) main_v72 (o22 m c) main_v72 = o22 m c
  exact Function.update_self ..
theorem outsH_24 (c : Dev nD) : outsH m 24 main_v87 c = o24 m c := by
  show Function.update (U0 m c) main_v87 (o24 m c) main_v87 = o24 m c
  exact Function.update_self ..

theorem V1_eq (c : Dev nD) : V1 m c = U1 m c := rfl
theorem V2_eq (c : Dev nD) : V2 m (outsH m) c = U2 m c := by
  show Function.update (V1 m c) main_v6 (outsH m 2 main_v6 c) = _; rw [outsH_2]
theorem V3_eq (c : Dev nD) : V3 m (outsH m) c = U3 m c := by
  show StableHlo.after hostOps1 (V2 m (outsH m) c) = _; rw [V2_eq]
theorem V4_eq (c : Dev nD) : V4 m (outsH m) c = U4 m c := by
  show Function.update (V3 m (outsH m) c) main_v9 (outsH m 4 main_v9 c) = _; rw [outsH_4, V3_eq]
theorem V5_eq (c : Dev nD) : V5 m (outsH m) c = U5 m c := by
  show StableHlo.after hostOps2 (V4 m (outsH m) c) = _; rw [V4_eq]
theorem V6_eq (c : Dev nD) : V6 m (outsH m) c = U6 m c := by
  show StableHlo.after hostOps2_1 (V5 m (outsH m) c) = _; rw [V5_eq]
theorem V7_eq (c : Dev nD) : V7 m (outsH m) c = U7 m c := by
  show StableHlo.after hostOps2_2 (V6 m (outsH m) c) = _; rw [V6_eq]
theorem V8_eq (c : Dev nD) : V8 m (outsH m) c = U8 m c := by
  show Function.update (V7 m (outsH m) c) main_v17 (outsH m 8 main_v17 c) = _; rw [outsH_8, V7_eq]
theorem V9_eq (c : Dev nD) : V9 m (outsH m) c = U9 m c := by
  show StableHlo.after hostOps3 (V8 m (outsH m) c) = _; rw [V8_eq]
theorem V10_eq (c : Dev nD) : V10 m (outsH m) c = U10 m c := by
  show Function.update (V9 m (outsH m) c) main_v30 (outsH m 10 main_v30 c) = _; rw [outsH_10, V9_eq]
theorem V11_eq (c : Dev nD) : V11 m (outsH m) c = U11 m c := by
  show StableHlo.after hostOps4 (V10 m (outsH m) c) = _; rw [V10_eq]
theorem V12_eq (c : Dev nD) : V12 m (outsH m) c = U12 m c := by
  show StableHlo.after hostOps4_1 (V11 m (outsH m) c) = _; rw [V11_eq]
theorem V13_eq (c : Dev nD) : V13 m (outsH m) c = U13 m c := by
  show StableHlo.after hostOps4_2 (V12 m (outsH m) c) = _; rw [V12_eq]
theorem V14_eq (c : Dev nD) : V14 m (outsH m) c = U14 m c := by
  show Function.update (V13 m (outsH m) c) main_v38 (outsH m 14 main_v38 c) = _; rw [outsH_14, V13_eq]
theorem V15_eq (c : Dev nD) : V15 m (outsH m) c = U15 m c := by
  show StableHlo.after hostOps5 (V14 m (outsH m) c) = _; rw [V14_eq]
theorem V16_eq (c : Dev nD) : V16 m (outsH m) c = U16 m c := by
  show Function.update (V15 m (outsH m) c) main_v51 (outsH m 16 main_v51 c) = _; rw [outsH_16, V15_eq]
theorem V17_eq (c : Dev nD) : V17 m (outsH m) c = U17 m c := by
  show StableHlo.after hostOps6 (V16 m (outsH m) c) = _; rw [V16_eq]
theorem V18_eq (c : Dev nD) : V18 m (outsH m) c = U18 m c := by
  show StableHlo.after hostOps6_1 (V17 m (outsH m) c) = _; rw [V17_eq]
theorem V19_eq (c : Dev nD) : V19 m (outsH m) c = U19 m c := by
  show StableHlo.after hostOps6_2 (V18 m (outsH m) c) = _; rw [V18_eq]
theorem V20_eq (c : Dev nD) : V20 m (outsH m) c = U20 m c := by
  show Function.update (V19 m (outsH m) c) main_v59 (outsH m 20 main_v59 c) = _; rw [outsH_20, V19_eq]
theorem V21_eq (c : Dev nD) : V21 m (outsH m) c = U21 m c := by
  show StableHlo.after hostOps7 (V20 m (outsH m) c) = _; rw [V20_eq]
theorem V22_eq (c : Dev nD) : V22 m (outsH m) c = U22 m c := by
  show Function.update (V21 m (outsH m) c) main_v72 (outsH m 22 main_v72 c) = _; rw [outsH_22, V21_eq]
theorem V23_eq (c : Dev nD) : V23 m (outsH m) c = U23 m c := by
  show StableHlo.after hostOps8 (V22 m (outsH m) c) = _; rw [V22_eq]
theorem V24_eq (c : Dev nD) : V24 m (outsH m) c = U24 m c := by
  show Function.update (V23 m (outsH m) c) main_v87 (outsH m 24 main_v87 c) = _; rw [outsH_24, V23_eq]

end Cert.Kernel.Hand

end
-- ==== Proof.K.Regs.lean ====
import proofs.«424575_j83829171683414_1_alg».proof.Proof.K.Chain
import proofs.«424575_j83829171683414_1_alg».proof.Proof.K.LaunchFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section General

variable (pd : (p : Fin 9) → (c : Dev nD) → Dat τ (Elt F) Unit ℕ (UR sig nD τ) ℕ (cfgs p) c)
  (p : Fin 9) (o : Fin (cfgs p).W) (E : Dev nD → Valuation τ sig (Elt F))

-- A region changes its output array and nothing else: the contents it leaves, from the contents it is entered at.
abbrev exitOf (c : Dev nD) : Valuation τ sig (Elt F) :=
  Function.update (E c) (Proc.devRef .tc (Pipeline.arrRef (cfgs p).spec o)) ((pd p c).arrAt o (cfgs p).N)

variable (hins : ∀ w : Fin (cfgs p).W, w ≠ o →
    ((cfgs p).win w).isOut = false ∧ Pipeline.arrRef (cfgs p).spec w ≠ Pipeline.arrRef (cfgs p).spec o)
  (hA : ∀ c w, (pd p c).A w = atRefs E c (Pipeline.arrRef (cfgs p).spec w))

include hins hA in
-- Only the output window's array changes: every other array of the region ends as entered.
theorem arrAt_exitOf (c : Dev nD) (w : Fin (cfgs p).W) :
    (pd p c).arrAt w (cfgs p).N = atRefs (exitOf pd p o E) c (Pipeline.arrRef (cfgs p).spec w) := by
  by_cases hw : w = o
  · subst hw
    exact (Function.update_self (Proc.devRef .tc (Pipeline.arrRef (cfgs p).spec w)) ((pd p c).arrAt w (cfgs p).N) (E c)).symm
  · obtain ⟨hin, hne⟩ := hins w hw
    exact (((pd p c).arrAt_in w hin _).trans (hA c w)).trans
      (Function.update_of_ne (StableHlo.devRef_ne_of_ne hne) _ (E c)).symm

theorem rest_exitOf (c : Dev nD) (b : Ref sig .tc) (hb : b ∉ Finset.univ.image (Pipeline.arrRef (cfgs p).spec)) :
    atRefs (exitOf pd p o E) c b = atRefs E c b :=
  Function.update_of_ne (StableHlo.devRef_ne_of_ne fun e =>
    hb (Finset.mem_image.mpr ⟨o, Finset.mem_univ _, e.symm⟩)) _ _

set_option backward.isDefEq.respectTransparency.types false in
-- One kernel region as a segment of the program: entered at the contents `E`, left at `exitOf`, nothing owed.
def regOf (L : Pipeline.LaunchFacts (nD := nD) (τ := τ) cfgs p)
    (hq : ∀ c w, (pd p c).q w = fullShare) (howed : ∀ c t, (pd p c).owed t = 0)
    (hrec : ∀ c x, x ∈ (pd p c).recorded 0)
    (hΦ : ∀ c t, (pd p c).Φ t = Pipeline.ΦA (cfgs p).spec c)
    (hbody : ∀ c, BodyObligation (pd p c) (defs₀ (F := F)) Variants.none () Set.univ) :
    Pipeline.RegionSeg (pcfgs (F := F)) adm pd () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (E c) ∗ Rst c)
  post c := iprop(StableHlo.held (c : Thread nD τ) (Pipeline.ucRefs τ sig) (exitOf pd p o E c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atRefs E c)
  hentry c := by
    rw [Pipeline.ownSems0_none]
    have hsplit := Pipeline.arrays_of_unscopedBufs (p := p) (pcfgs (F := F)) adm pd L.win L.arr_whole c
      ((pd p c).share_full (hq c)) (atRefs E c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c))
      (atRefs E c) (atRefs (exitOf pd p o E) c) ((pd p c).arrAt · (cfgs p).N) (arrAt_exitOf pd p o E hins hA c) (rest_exitOf pd p o E c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end General

variable (m : (ℓ : Loc nD τ sig) → Buf (Elt F) ℓ)

def reg0 : Pipeline.RegionSeg (pcfgs (F := F)) adm (pdats m) () defs₀ Variants.none Lz lvz 0 :=
  regOf (pdats m) 0 3 (U1 m) (by decide) (fun _ _ => rfl) launch0 (fun _ _ => rfl) (fun _ _ => rfl) (fun _ _ => trivial) (fun _ _ => rfl)
    fun c => body_obligation0 (atRefs (U1 m)) c
def reg1 : Pipeline.RegionSeg (pcfgs (F := F)) adm (pdats m) () defs₀ Variants.none Lz lvz 1 :=
  regOf (pdats m) 1 3 (U3 m) (by decide) (fun _ _ => rfl) launch1 (fun _ _ => rfl) (fun _ _ => rfl) (fun _ _ => trivial) (fun _ _ => rfl)
    fun c => body_obligation1 (atRefs (U3 m)) c
def reg2 : Pipeline.RegionSeg (pcfgs (F := F)) adm (pdats m) () defs₀ Variants.none Lz lvz 2 :=
  regOf (pdats m) 2 5 (U7 m) (by decide) (fun _ _ => rfl) launch2 (fun _ _ => rfl) (fun _ _ => rfl) (fun _ _ => trivial) (fun _ _ => rfl)
    fun c => body_obligation2 (atRefs (U7 m)) c
def reg3 : Pipeline.RegionSeg (pcfgs (F := F)) adm (pdats m) () defs₀ Variants.none Lz lvz 3 :=
  regOf (pdats m) 3 6 (U9 m) (by decide) (fun _ _ => rfl) launch3 (fun _ _ => rfl) (fun _ _ => rfl) (fun _ _ => trivial) (fun _ _ => rfl)
    fun c => body_obligation3 (atRefs (U9 m)) c
def reg4 : Pipeline.RegionSeg (pcfgs (F := F)) adm (pdats m) () defs₀ Variants.none Lz lvz 4 :=
  regOf (pdats m) 4 5 (U13 m) (by decide) (fun _ _ => rfl) launch4 (fun _ _ => rfl) (fun _ _ => rfl) (fun _ _ => trivial) (fun _ _ => rfl)
    fun c => body_obligation4 (atRefs (U13 m)) c
def reg5 : Pipeline.RegionSeg (pcfgs (F := F)) adm (pdats m) () defs₀ Variants.none Lz lvz 5 :=
  regOf (pdats m) 5 6 (U15 m) (by decide) (fun _ _ => rfl) launch5 (fun _ _ => rfl) (fun _ _ => rfl) (fun _ _ => trivial) (fun _ _ => rfl)
    fun c => body_obligation5 (atRefs (U15 m)) c
def reg6 : Pipeline.RegionSeg (pcfgs (F := F)) adm (pdats m) () defs₀ Variants.none Lz lvz 6 :=
  regOf (pdats m) 6 5 (U19 m) (by decide) (fun _ _ => rfl) launch6 (fun _ _ => rfl) (fun _ _ => rfl) (fun _ _ => trivial) (fun _ _ => rfl)
    fun c => body_obligation6 (atRefs (U19 m)) c
def reg7 : Pipeline.RegionSeg (pcfgs (F := F)) adm (pdats m) () defs₀ Variants.none Lz lvz 7 :=
  regOf (pdats m) 7 6 (U21 m) (by decide) (fun _ _ => rfl) launch7 (fun _ _ => rfl) (fun _ _ => rfl) (fun _ _ => trivial) (fun _ _ => rfl)
    fun c => body_obligation7 (atRefs (U21 m)) c
def reg8 : Pipeline.RegionSeg (pcfgs (F := F)) adm (pdats m) () defs₀ Variants.none Lz lvz 8 :=
  regOf (pdats m) 8 3 (U23 m) (by decide) (fun _ _ => rfl) launch8 (fun _ _ => rfl) (fun _ _ => rfl) (fun _ _ => trivial) (fun _ _ => rfl)
    fun c => body_obligation8 (atRefs (U23 m)) c

end Cert.Kernel.Hand

end
-- ==== Proof.K.Frame.lean ====
import proofs.«424575_j83829171683414_1_alg».proof.Defs
import proofs.«424575_j83829171683414_1_alg».proof.Proof.Gen.Pre_finite_inputs
import proofs.«424575_j83829171683414_1_alg».proof.Proof.K.LaunchFacts
import proofs.«424575_j83829171683414_1_alg».proof.Proof.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

theorem hpre0 (c : Dev nD) : iprop(StableHlo.held (c : Thread nD τ) (Pipeline.ucRefs τ sig) (V1 m c) ∗ Rst (F := F) c) ⊢ (reg0 m).pre c := by
  exact .rfl
theorem hpost0 (c : Dev nD) : (reg0 m).post c ⊢ iprop(StableHlo.held (c : Thread nD τ) (Pipeline.ucRefs τ sig) (V2 m (outsH m) c) ∗ Rst (F := F) c) := by
  rw [V2_eq]; exact .rfl
theorem hpre1 (c : Dev nD) : iprop(StableHlo.held (c : Thread nD τ) (Pipeline.ucRefs τ sig) (V3 m (outsH m) c) ∗ Rst (F := F) c) ⊢ (reg1 m).pre c := by
  rw [V3_eq]; exact .rfl
theorem hpost1 (c : Dev nD) : (reg1 m).post c ⊢ iprop(StableHlo.held (c : Thread nD τ) (Pipeline.ucRefs τ sig) (V4 m (outsH m) c) ∗ Rst (F := F) c) := by
  rw [V4_eq]; exact .rfl
theorem hpre2 (c : Dev nD) : iprop(StableHlo.held (c : Thread nD τ) (Pipeline.ucRefs τ sig) (V7 m (outsH m) c) ∗ Rst (F := F) c) ⊢ (reg2 m).pre c := by
  rw [V7_eq]; exact .rfl
theorem hpost2 (c : Dev nD) : (reg2 m).post c ⊢ iprop(StableHlo.held (c : Thread nD τ) (Pipeline.ucRefs τ sig) (V8 m (outsH m) c) ∗ Rst (F := F) c) := by
  rw [V8_eq]; exact .rfl
theorem hpre3 (c : Dev nD) : iprop(StableHlo.held (c : Thread nD τ) (Pipeline.ucRefs τ sig) (V9 m (outsH m) c) ∗ Rst (F := F) c) ⊢ (reg3 m).pre c := by
  rw [V9_eq]; exact .rfl
theorem hpost3 (c : Dev nD) : (reg3 m).post c ⊢ iprop(StableHlo.held (c : Thread nD τ) (Pipeline.ucRefs τ sig) (V10 m (outsH m) c) ∗ Rst (F := F) c) := by
  rw [V10_eq]; exact .rfl
theorem hpre4 (c : Dev nD) : iprop(StableHlo.held (c : Thread nD τ) (Pipeline.ucRefs τ sig) (V13 m (outsH m) c) ∗ Rst (F := F) c) ⊢ (reg4 m).pre c := by
  rw [V13_eq]; exact .rfl
theorem hpost4 (c : Dev nD) : (reg4 m).post c ⊢ iprop(StableHlo.held (c : Thread nD τ) (Pipeline.ucRefs τ sig) (V14 m (outsH m) c) ∗ Rst (F := F) c) := by
  rw [V14_eq]; exact .rfl
theorem hpre5 (c : Dev nD) : iprop(StableHlo.held (c : Thread nD τ) (Pipeline.ucRefs τ sig) (V15 m (outsH m) c) ∗ Rst (F := F) c) ⊢ (reg5 m).pre c := by
  rw [V15_eq]; exact .rfl
theorem hpost5 (c : Dev nD) : (reg5 m).post c ⊢ iprop(StableHlo.held (c : Thread nD τ) (Pipeline.ucRefs τ sig) (V16 m (outsH m) c) ∗ Rst (F := F) c) := by
  rw [V16_eq]; exact .rfl
theorem hpre6 (c : Dev nD) : iprop(StableHlo.held (c : Thread nD τ) (Pipeline.ucRefs τ sig) (V19 m (outsH m) c) ∗ Rst (F := F) c) ⊢ (reg6 m).pre c := by
  rw [V19_eq]; exact .rfl
theorem hpost6 (c : Dev nD) : (reg6 m).post c ⊢ iprop(StableHlo.held (c : Thread nD τ) (Pipeline.ucRefs τ sig) (V20 m (outsH m) c) ∗ Rst (F := F) c) := by
  rw [V20_eq]; exact .rfl
theorem hpre7 (c : Dev nD) : iprop(StableHlo.held (c : Thread nD τ) (Pipeline.ucRefs τ sig) (V21 m (outsH m) c) ∗ Rst (F := F) c) ⊢ (reg7 m).pre c := by
  rw [V21_eq]; exact .rfl
theorem hpost7 (c : Dev nD) : (reg7 m).post c ⊢ iprop(StableHlo.held (c : Thread nD τ) (Pipeline.ucRefs τ sig) (V22 m (outsH m) c) ∗ Rst (F := F) c) := by
  rw [V22_eq]; exact .rfl
theorem hpre8 (c : Dev nD) : iprop(StableHlo.held (c : Thread nD τ) (Pipeline.ucRefs τ sig) (V23 m (outsH m) c) ∗ Rst (F := F) c) ⊢ (reg8 m).pre c := by
  rw [V23_eq]; exact .rfl
theorem hpost8 (c : Dev nD) : (reg8 m).post c ⊢ iprop(StableHlo.held (c : Thread nD τ) (Pipeline.ucRefs τ sig) (V24 m (outsH m) c) ∗ Rst (F := F) c) := by
  rw [V24_eq]; exact .rfl

set_option backward.isDefEq.respectTransparency.types false in
theorem frame : Cert.frame_Kernel := fun m ρ _ =>
  frame_cond m emb₁ () Variants.none Lz lvz (fun _ _ => rfl) ρ (outsH m) (pdats m) 0 (fun _ => iprop(emp)) u0 hu0
    (fun _ c => Rst c) (hE0 ρ) hE9
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)
    (reg6 m) (hpre6 m) (hpost6 m) (reg7 m) (hpre7 m) (hpost7 m) (reg8 m) (hpre8 m) (hpost8 m)

end Cert.Kernel.Hand

end
-- ==== Proof.KI.LaunchFacts.lean ====
import proofs.«424575_j83829171683414_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Rst (c : Dev nD) : sProp 𝕄 :=
  iprop((∃ r, prngReg c r) ∗ ∃ W, owes (c : Thread nD τ) (0 : CellTallies nD τ sig Unit) W)

abbrev Lz : GSem nD τ sig → Finset Unit := fun _ => ∅
abbrev lvz : GSem nD τ sig → Unit → ℕ := fun _ _ => 0

abbrev u0 : UR sig nD τ := initOf (Pipeline.cells cfgs cellOf_inj) (Pipeline.launchToks cfgs cellOf_inj)

theorem hu0 : (ownU u0 : sProp 𝕄) ⊢ |={Set.univ}=> iprop(BI.own ((emb₁ : Emb _ 𝕄) u0) ∗ bigSep Finset.univ (fun _ : Dev nD => (iprop(emp) : sProp 𝕄))) := by
  iintro Hu; imodintro
  isplitl [Hu]
  · iapply (show (ownU u0 : sProp 𝕄) ⊢ BI.own ((emb₁ : Emb _ 𝕄) u0) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => Rst (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE9 (c : Dev nD) : Rst (F := F) c ⊢ (iprop(∃ W, owes (c : Thread nD τ) (0 : CellTallies nD τ sig Unit) W) : sProp 𝕄) := by
  iintro ⟨-, HO⟩; iexact HO

end Cert.KernelIdeal.Hand

end
-- ==== Proof.KI.B0.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev whole0_x : Rect S2000x8 := Rect.unit (s := S2000x8) ![0, 0] S2000x8.size inb_S2000x8_S2000x8_0_0
abbrev whole0_w : Rect S8x16 := Rect.unit (s := S8x16) ![0, 0] S8x16.size inb_S8x16_S8x16_0_0
abbrev whole0_b : Rect S1x16 := Rect.unit (s := S1x16) ![0, 0] S1x16.size inb_S1x16_S1x16_0_0
abbrev whole0_out : Rect S2000x16 := Rect.unit (s := S2000x16) ![0, 0] S2000x16.size inb_S2000x16_S2000x16_0_0

def out0_3 (x0 : Vec F S2000x8 .f32) (x1 : Vec F S8x16 .f32) (x2 : Vec F S1x16 .f32) : Vec F S2000x16 .f32 :=
  View.canon [⟨whole0_out, k0_pay1 (View.ld x0 whole0_x) (View.ld x1 whole0_w) (View.ld x2 whole0_b)⟩]

theorem cover0_3 (p0 : Vec F S2000x16 .f32) (y : S2000x16.Idx) :
    ∃ pc ∈ ([⟨whole0_out, p0⟩] : List (View.Piece (Elt F) S2000x16 .f32)), y ∈ pc.1.set :=
  View.cover_of_tiled [⟨whole0_out, p0⟩] S2000x16.size (by rfl) y

set_option maxHeartbeats 1000000 in
theorem sound_kernel0 (c : Dev nD) (E : Set ℕ) (i : grid0.Coords) (arg1 : Memref sig .tc .vmem S2000x8 .f32) (harg1 : arg1.IsWhole) (arg2 : Memref sig .tc .vmem S8x16 .f32) (harg2 : arg2.IsWhole) (arg3 : Memref sig .tc .vmem S1x16 .f32) (harg3 : arg3.IsWhole) (arg4 : Memref sig .tc .vmem S2000x16 .f32) (harg4 : arg4.IsWhole)
    (x0 : Vec F S2000x8 .f32) (x1 : Vec F S8x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.B1.lean ====
/- Region 1 of the kernel program: the call of `cc1_kernel`, a dense layer followed by a rectifier,
   out = max(x · w + b, 0), on a grid of 10 points. Window 0 is the row tile of x (fetched at every point),
   windows 1 and 2 are the weight and the bias (one block each, fetched at the first point only and left in
   place afterwards), window 3 is the row tile of the result (written back at every point).
   Everything here is stated at a PARAMETER `V`: the TensorCore's buffer contents when the region is entered. -/
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

-- membership in a rectangle with a long axis is decided by a structural recursion along that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of x: its staging buffer holds the tile of point `t` when the body runs there, for any proof data
    whose array is `V`'s and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight: fetched at the first point only; at a later point its block index has not moved and the body left
    the block in place, so the staging buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias: as the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev whole1_x : Rect S2000x32 := Rect.unit (s := S2000x32) ![0, 0] S2000x32.size inb_S2000x32_S2000x32_0_0
abbrev whole1_w : Rect S32x256 := Rect.unit (s := S32x256) ![0, 0] S32x256.size inb_S32x256_S32x256_0_0
abbrev whole1_b : Rect S1x256 := Rect.unit (s := S1x256) ![0, 0] S1x256.size inb_S1x256_S1x256_0_0
abbrev whole1_out : Rect S2000x256 := Rect.unit (s := S2000x256) ![0, 0] S2000x256.size inb_S2000x256_S2000x256_0_0

/-! ## What the body leaves in the result's staging buffer -/

/-- The result tile after the body, from the three input blocks: the one store, of max(x · w + b, 0) of what the three
    loads read, over the whole buffer. -/
def out1_3 (x0 : Vec F S2000x32 .f32) (x1 : Vec F S32x256 .f32) (x2 : Vec F S1x256 .f32) : Vec F S2000x256 .f32 :=
  View.canon [⟨whole1_out, k1_pay1 (View.ld x0 whole1_x) (View.ld x1 whole1_w) (View.ld x2 whole1_b)⟩]

/-- The one store covers the buffer. -/
theorem cover1_3 (p0 : Vec F S2000x256 .f32) (y : S2000x256.Idx) :
    ∃ pc ∈ ([⟨whole1_out, p0⟩] : List (View.Piece (Elt F) S2000x256 .f32)), y ∈ pc.1.set :=
  View.cover_of_tiled [⟨whole1_out, p0⟩] S2000x256.size (by rfl) y

/-! ## The body's triple -/

set_option maxHeartbeats 1000000 in
/-- The body on whole staging buffers — the inputs' holding `x0`, `x1`, `x2`, the result's holding anything — runs to
    the continuation with the inputs' as they were and the result's at `out1_3 x0 x1 x2`. -/
theorem sound_kernel1 (c : Dev nD) (E : Set ℕ) (i : grid1.Coords) (arg1 : Memref sig .tc .vmem S2000x32 .f32) (harg1 : arg1.IsWhole) (arg2 : Memref sig .tc .vmem S32x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x32 .f32) (x1 : Vec F S32x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them (`V`); after the body at
    point `t` each input's buffer at its block and the result's at `out1_3` of the three input blocks; the invariant
    is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.B2.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x528 := Rect.unit (s := S2000x528) ![0, 0] S2000x528.size inb_S2000x528_S2000x528_0_0
abbrev r2_1 : Rect S528x512 := Rect.unit (s := S528x512) ![0, 0] S528x512.size inb_S528x512_S528x512_0_0
abbrev r2_2 : Rect S1x512 := Rect.unit (s := S1x512) ![0, 0] S1x512.size inb_S1x512_S1x512_0_0
abbrev r2_3 : Rect S512x256 := Rect.unit (s := S512x256) ![0, 0] S512x256.size inb_S512x256_S512x256_0_0
abbrev r2_4 : Rect S1x256 := Rect.unit (s := S1x256) ![0, 0] S1x256.size inb_S1x256_S1x256_0_0
abbrev r2_5 : Rect S2000x256 := Rect.unit (s := S2000x256) ![0, 0] S2000x256.size inb_S2000x256_S2000x256_0_0

def out2_5 (x0 : Vec F S2000x528 .f32) (x1 : Vec F S528x512 .f32) (x2 : Vec F S1x512 .f32) (x3 : Vec F S512x256 .f32) (x4 : Vec F S1x256 .f32) : Vec F S2000x256 .f32 :=
  View.canon [⟨r2_5, k2_pay1 (View.ld x0 r2_0) (View.ld x1 r2_1) (View.ld x2 r2_2) (View.ld x3 r2_3) (View.ld x4 r2_4)⟩]

theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

set_option maxHeartbeats 1000000 in
theorem sound_kernel2 (c : Dev nD) (E : Set ℕ) (i : grid2.Coords) (arg0 : Memref sig .tc .vmem S2000x528 .f32) (harg0 : arg0.IsWhole) (arg1 : Memref sig .tc .vmem S528x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x528 .f32) (x1 : Vec F S528x512 .f32) (x2 : Vec F S1x512 .f32) (x3 : Vec F S512x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.B3.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev tileBox3 : Rect S2000x256 := Rect.unit (s := S2000x256) ![0, 0] S2000x256.size inb_S2000x256_S2000x256_0_0

abbrev countBox3 : Rect S2000x1 := Rect.unit (s := S2000x1) ![0, 0] S2000x1.size inb_S2000x1_S2000x1_0_0

abbrev featBox3 : Rect S1x256 := Rect.unit (s := S1x256) ![0, 0] S1x256.size inb_S1x256_S1x256_0_0

def out3_6 (x0 : Vec F S2000x256 .f32) (x1 : Vec F S2000x1 .f32) (x2 : Vec F S1x256 .f32) (x3 : Vec F S1x256 .f32) (x4 : Vec F S1x256 .f32) (x5 : Vec F S1x256 .f32) : Vec F S2000x256 .f32 :=
  View.canon [⟨tileBox3, k3_pay1 (View.ld x1 countBox3) (View.ld x0 tileBox3) (View.ld x4 featBox3) (View.ld x5 featBox3) (View.ld x2 featBox3) (View.ld x3 featBox3)⟩]

theorem cover3_6 (p0 : Vec F S2000x256 .f32) (y : S2000x256.Idx) :
    ∃ pc ∈ ([⟨tileBox3, p0⟩] : List (View.Piece (Elt F) S2000x256 .f32)), y ∈ pc.1.set :=
  View.cover_of_tiled [⟨tileBox3, p0⟩] S2000x256.size (by rfl) y

set_option maxHeartbeats 1000000 in
theorem sound_kernel3 (c : Dev nD) (E : Set ℕ) (i : grid3.Coords) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x1 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.B4.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x528 := Rect.unit (s := S2000x528) ![0, 0] S2000x528.size inb_S2000x528_S2000x528_0_0
abbrev r4_1 : Rect S528x512 := Rect.unit (s := S528x512) ![0, 0] S528x512.size inb_S528x512_S528x512_0_0
abbrev r4_2 : Rect S1x512 := Rect.unit (s := S1x512) ![0, 0] S1x512.size inb_S1x512_S1x512_0_0
abbrev r4_3 : Rect S512x256 := Rect.unit (s := S512x256) ![0, 0] S512x256.size inb_S512x256_S512x256_0_0
abbrev r4_4 : Rect S1x256 := Rect.unit (s := S1x256) ![0, 0] S1x256.size inb_S1x256_S1x256_0_0
abbrev r4_5 : Rect S2000x256 := Rect.unit (s := S2000x256) ![0, 0] S2000x256.size inb_S2000x256_S2000x256_0_0

def out4_5 (x0 : Vec F S2000x528 .f32) (x1 : Vec F S528x512 .f32) (x2 : Vec F S1x512 .f32) (x3 : Vec F S512x256 .f32) (x4 : Vec F S1x256 .f32) : Vec F S2000x256 .f32 :=
  View.canon [⟨r4_5, k4_pay1 (View.ld x0 r4_0) (View.ld x1 r4_1) (View.ld x2 r4_2) (View.ld x3 r4_3) (View.ld x4 r4_4)⟩]

theorem cover4_5 (p0 : Vec F S2000x256 .f32) (y : S2000x256.Idx) :
    ∃ pc ∈ ([⟨r4_5, p0⟩] : List (View.Piece (Elt F) S2000x256 .f32)), y ∈ pc.1.set :=
  View.cover_of_tiled [⟨r4_5, p0⟩] S2000x256.size (by rfl) y

set_option maxHeartbeats 1000000 in
theorem sound_kernel4 (c : Dev nD) (E : Set ℕ) (i : grid4.Coords) (arg0 : Memref sig .tc .vmem S2000x528 .f32) (harg0 : arg0.IsWhole) (arg1 : Memref sig .tc .vmem S528x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S2000x256 .f32) (harg5 : arg5.IsWhole)
    (x0 : Vec F S2000x528 .f32) (x1 : Vec F S528x512 .f32) (x2 : Vec F S1x512 .f32) (x3 : Vec F S512x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4_kernel i arg0 harg0 arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.B5.lean ====
/- Region 5 of the kernel program: `cc5_kernel`, the normalisation kernel (mean of the summed messages over the
   row counts, batch normalisation with the stored mean and variance, then the positive part), pipelined over a grid
   of 10 row tiles. Everything is stated at a PARAMETER `V`, the TensorCore's buffer contents when the region is
   entered, and for any float model `F`: each window's block at a grid point, what the body's one store leaves in
   the output window's staging buffer as a function of the input blocks, the body's triple, the pipeline's proof
   data, and the body obligation the pipeline's frame asks of them. -/
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 1 (the summed
    messages and the row counts) move with the row tile; windows 2 to 5 (scale, shift, mean, variance) are one
    whole row each and the same block at every point; window 6 is the output tile. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the summed messages): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the row counts): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the scale): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the shift): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the mean): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5 (the variance): its current staging buffer holds its block at every point, whether the
    pipeline fetched it there or not, for any proof data whose array is `V`'s (`hA`) and whose body leaves the block
    in place (`hafter`). Where the window is not fetched its block index has not moved since the point before, and
    the window is neither cut at the array's end nor idle at any point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole staging buffer -/

/-- The whole row tile of 256 features. -/
abbrev tileBox5 : Rect S2000x256 := Rect.unit (s := S2000x256) ![0, 0] S2000x256.size inb_S2000x256_S2000x256_0_0
/-- The whole column of row counts. -/
abbrev countBox5 : Rect S2000x1 := Rect.unit (s := S2000x1) ![0, 0] S2000x1.size inb_S2000x1_S2000x1_0_0
/-- A whole per-feature row. -/
abbrev featBox5 : Rect S1x256 := Rect.unit (s := S1x256) ![0, 0] S1x256.size inb_S1x256_S1x256_0_0

/-! ## What the body leaves in the output window's buffer -/

/-- Window 6's staging buffer after the body, from the input windows' blocks in WINDOW order (summed messages, row
    counts, scale, shift, mean, variance): the one store's payload, which takes them in the order the body loads them
    (row counts, summed messages, mean, variance, scale, shift). -/
def out5_6 (x0 : Vec F S2000x256 .f32) (x1 : Vec F S2000x1 .f32) (x2 : Vec F S1x256 .f32) (x3 : Vec F S1x256 .f32) (x4 : Vec F S1x256 .f32) (x5 : Vec F S1x256 .f32) : Vec F S2000x256 .f32 :=
  View.canon [⟨tileBox5, k5_pay1 (View.ld x1 countBox5) (View.ld x0 tileBox5) (View.ld x4 featBox5) (View.ld x5 featBox5) (View.ld x2 featBox5) (View.ld x3 featBox5)⟩]

/-- The one store takes the whole buffer, so it covers it. -/
theorem cover5_6 (p0 : Vec F S2000x256 .f32) (y : S2000x256.Idx) :
    ∃ pc ∈ ([⟨tileBox5, p0⟩] : List (View.Piece (Elt F) S2000x256 .f32)), y ∈ pc.1.set :=
  View.cover_of_tiled [⟨tileBox5, p0⟩] S2000x256.size (by rfl) y

/-! ## The body's triple -/

set_option maxHeartbeats 1000000 in
/-- The kernel body on whole staging memrefs, the inputs' at read contents `xW` and the output's at anything, runs to
    the continuation holding the inputs' as they were and the output's at `out5_6` of the inputs'. The body also
    loads the output buffer before it stores to it; the value loaded is not used. -/
theorem sound_kernel5 (c : Dev nD) (E : Set ℕ) (i : grid5.Coords) (arg1 : Memref sig .tc .vmem S2000x256 .f32) (harg1 : arg1.IsWhole) (arg2 : Memref sig .tc .vmem S2000x1 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x1 .f32) (x2 : Vec F S1x256 .f32) (x3 : Vec F S1x256 .f32) (x4 : Vec F S1x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of this region's pipeline on core `c`: the arrays as the region finds them (`V`); after the body at
    point `t` each input's buffer at its block and the output's at `out5_6` of the input blocks; the invariant that
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and the
    core's owed amount pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.B6.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x528 := Rect.unit (s := S2000x528) ![0, 0] S2000x528.size inb_S2000x528_S2000x528_0_0
abbrev r6_1 : Rect S528x256 := Rect.unit (s := S528x256) ![0, 0] S528x256.size inb_S528x256_S528x256_0_0
abbrev r6_2 : Rect S1x256 := Rect.unit (s := S1x256) ![0, 0] S1x256.size inb_S1x256_S1x256_0_0
abbrev r6_3 : Rect S256x128 := Rect.unit (s := S256x128) ![0, 0] S256x128.size inb_S256x128_S256x128_0_0
abbrev r6_4 : Rect S1x128 := Rect.unit (s := S1x128) ![0, 0] S1x128.size inb_S1x128_S1x128_0_0
abbrev r6_5 : Rect S2000x128 := Rect.unit (s := S2000x128) ![0, 0] S2000x128.size inb_S2000x128_S2000x128_0_0

def out6_5 (x0 : Vec F S2000x528 .f32) (x1 : Vec F S528x256 .f32) (x2 : Vec F S1x256 .f32) (x3 : Vec F S256x128 .f32) (x4 : Vec F S1x128 .f32) : Vec F S2000x128 .f32 :=
  View.canon [⟨r6_5, k6_pay1 (View.ld x0 r6_0) (View.ld x1 r6_1) (View.ld x2 r6_2) (View.ld x3 r6_3) (View.ld x4 r6_4)⟩]

theorem cover6_5 (p0 : Vec F S2000x128 .f32) (y : S2000x128.Idx) :
    ∃ pc ∈ ([⟨r6_5, p0⟩] : List (View.Piece (Elt F) S2000x128 .f32)), y ∈ pc.1.set :=
  View.cover_of_tiled [⟨r6_5, p0⟩] S2000x128.size (by rfl) y

set_option maxHeartbeats 1000000 in
theorem sound_kernel6 (c : Dev nD) (E : Set ℕ) (i : grid6.Coords) (arg0 : Memref sig .tc .vmem S2000x528 .f32) (harg0 : arg0.IsWhole) (arg1 : Memref sig .tc .vmem S528x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x528 .f32) (x1 : Vec F S528x256 .f32) (x2 : Vec F S1x256 .f32) (x3 : Vec F S256x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6_kernel i arg0 harg0 arg1 harg1 arg2 harg2 arg3 harg3 arg4 harg4 arg5 harg5) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.B7.lean ====
/- Region 7 of the kernel program: `cc7_kernel`, the normalisation kernel (mean of the summed messages over the
   row counts, batch normalisation with the stored mean and variance, then the positive part), pipelined over a grid
   of 10 row tiles. Everything is stated at a PARAMETER `V`, the TensorCore's buffer contents when the region is
   entered, and for any float model `F`: each window's block at a grid point, what the body's one store leaves in
   the output window's staging buffer as a function of the input blocks, the body's triple, the pipeline's proof
   data, and the body obligation the pipeline's frame asks of them. -/
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 1 (the summed
    messages and the row counts) move with the row tile; windows 2 to 5 (scale, shift, mean, variance) are one
    whole row each and the same block at every point; window 6 is the output tile. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the summed messages): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 (the row counts): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 (the scale): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 (the shift): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 (the mean): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5 (the variance): its current staging buffer holds its block at every point, whether the
    pipeline fetched it there or not, for any proof data whose array is `V`'s (`hA`) and whose body leaves the block
    in place (`hafter`). Where the window is not fetched its block index has not moved since the point before, and
    the window is neither cut at the array's end nor idle at any point. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole staging buffer -/

/-- The whole row tile of 128 features. -/
abbrev tileBox7 : Rect S2000x128 := Rect.unit (s := S2000x128) ![0, 0] S2000x128.size inb_S2000x128_S2000x128_0_0
/-- The whole column of row counts. -/
abbrev countBox7 : Rect S2000x1 := Rect.unit (s := S2000x1) ![0, 0] S2000x1.size inb_S2000x1_S2000x1_0_0
/-- A whole per-feature row. -/
abbrev featBox7 : Rect S1x128 := Rect.unit (s := S1x128) ![0, 0] S1x128.size inb_S1x128_S1x128_0_0

/-! ## What the body leaves in the output window's buffer -/

/-- Window 6's staging buffer after the body, from the input windows' blocks in WINDOW order (summed messages, row
    counts, scale, shift, mean, variance): the one store's payload, which takes them in the order the body loads them
    (row counts, summed messages, mean, variance, scale, shift). -/
def out7_6 (x0 : Vec F S2000x128 .f32) (x1 : Vec F S2000x1 .f32) (x2 : Vec F S1x128 .f32) (x3 : Vec F S1x128 .f32) (x4 : Vec F S1x128 .f32) (x5 : Vec F S1x128 .f32) : Vec F S2000x128 .f32 :=
  View.canon [⟨tileBox7, k7_pay1 (View.ld x1 countBox7) (View.ld x0 tileBox7) (View.ld x4 featBox7) (View.ld x5 featBox7) (View.ld x2 featBox7) (View.ld x3 featBox7)⟩]

/-- The one store takes the whole buffer, so it covers it. -/
theorem cover7_6 (p0 : Vec F S2000x128 .f32) (y : S2000x128.Idx) :
    ∃ pc ∈ ([⟨tileBox7, p0⟩] : List (View.Piece (Elt F) S2000x128 .f32)), y ∈ pc.1.set :=
  View.cover_of_tiled [⟨tileBox7, p0⟩] S2000x128.size (by rfl) y

/-! ## The body's triple -/

set_option maxHeartbeats 1000000 in
/-- The kernel body on whole staging memrefs, the inputs' at read contents `xW` and the output's at anything, runs to
    the continuation holding the inputs' as they were and the output's at `out7_6` of the inputs'. The body also
    loads the output buffer before it stores to it; the value loaded is not used. -/
theorem sound_kernel7 (c : Dev nD) (E : Set ℕ) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x1 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7_kernel i arg1 harg1 arg2 harg2 arg3 harg3 arg4 harg4 arg5 harg5 arg6 harg6 arg7 harg7) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of this region's pipeline on core `c`: the arrays as the region finds them (`V`); after the body at
    point `t` each input's buffer at its block and the output's at `out7_6` of the input blocks; the invariant that
    leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and the
    core's owed amount pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.B8.lean ====
import proofs.«424575_j83829171683414_1_alg».proof.Proof.Gen.KernelIdeal.Launch
import proofs.«424575_j83829171683414_1_alg».proof.Proof.Gen.KernelIdeal.Skeleton
import proofs.«424575_j83829171683414_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev rAct8 : Rect S512x128 := Rect.unit (s := S512x128) ![0, 0] S512x128.size inb_S512x128_S512x128_0_0
abbrev rWgt8 : Rect S128x12 := Rect.unit (s := S128x12) ![0, 0] S128x12.size inb_S128x12_S128x12_0_0
abbrev rBias8 : Rect S1x12 := Rect.unit (s := S1x12) ![0, 0] S1x12.size inb_S1x12_S1x12_0_0
abbrev rOut8 : Rect S512x12 := Rect.unit (s := S512x12) ![0, 0] S512x12.size inb_S512x12_S512x12_0_0

def out8_3 (x0 : Vec F S512x128 .f32) (x1 : Vec F S128x12 .f32) (x2 : Vec F S1x12 .f32) : Vec F S512x12 .f32 :=
  View.canon [⟨rOut8, k8_pay1 (View.ld x0 rAct8) (View.ld x1 rWgt8) (View.ld x2 rBias8)⟩]

theorem cover8_3 (p0 : Vec F S512x12 .f32) (y : S512x12.Idx) :
    ∃ pc ∈ ([⟨rOut8, p0⟩] : List (View.Piece (Elt F) S512x12 .f32)), y ∈ pc.1.set :=
  View.cover_of_tiled [⟨rOut8, p0⟩] S512x12.size (by rfl) y

set_option maxHeartbeats 1000000 in
theorem sound_kernel8 (c : Dev nD) (E : Set ℕ) (i : grid8.Coords) (arg1 : Memref sig .tc .vmem S512x128 .f32) (harg1 : arg1.IsWhole) (arg2 : Memref sig .tc .vmem S128x12 .f32) (harg2 : arg2.IsWhole) (arg3 : Memref sig .tc .vmem S1x12 .f32) (harg3 : arg3.IsWhole) (arg4 : Memref sig .tc .vmem S512x12 .f32) (harg4 : arg4.IsWhole)
    (x0 : Vec F S512x128 .f32) (x1 : Vec F S128x12 .f32) (x2 : Vec F S1x12 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8_kernel i arg1 harg1 arg2 harg2 arg3 harg3 arg4 harg4) K := by
  simp only [cc8_kernel_eq_skeleton]; unfold cc8_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Chain.lean ====
import proofs.«424575_j83829171683414_1_alg».proof.Proof.KI.B0
import proofs.«424575_j83829171683414_1_alg».proof.Proof.KI.B1
import proofs.«424575_j83829171683414_1_alg».proof.Proof.KI.B2
import proofs.«424575_j83829171683414_1_alg».proof.Proof.KI.B3
import proofs.«424575_j83829171683414_1_alg».proof.Proof.KI.B4
import proofs.«424575_j83829171683414_1_alg».proof.Proof.KI.B5
import proofs.«424575_j83829171683414_1_alg».proof.Proof.KI.B6
import proofs.«424575_j83829171683414_1_alg».proof.Proof.KI.B7
import proofs.«424575_j83829171683414_1_alg».proof.Proof.KI.B8
import proofs.«424575_j83829171683414_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev U0 (c : Dev nD) : Valuation τ sig (Elt F) := fun b => m (c, b)

abbrev U1 (c : Dev nD) : Valuation τ sig (Elt F) := StableHlo.after hostOps0 (U0 m c)

def o2 (c : Dev nD) : Buf (Elt F) ((c : Thread nD τ).loc main_v6) := (dat0 (atRefs (U1 m)) c).arrAt 3 cfg0.N
abbrev U2 (c : Dev nD) : Valuation τ sig (Elt F) := Function.update (U1 m c) main_v6 (o2 m c)
abbrev U3 (c : Dev nD) : Valuation τ sig (Elt F) := StableHlo.after hostOps1 (U2 m c)

def o4 (c : Dev nD) : Buf (Elt F) ((c : Thread nD τ).loc main_v9) := (dat1 (atRefs (U3 m)) c).arrAt 3 cfg1.N
abbrev U4 (c : Dev nD) : Valuation τ sig (Elt F) := Function.update (U3 m c) main_v9 (o4 m c)
abbrev U5 (c : Dev nD) : Valuation τ sig (Elt F) := StableHlo.after hostOps2 (U4 m c)
abbrev U6 (c : Dev nD) : Valuation τ sig (Elt F) := StableHlo.after hostOps2_1 (U5 m c)
abbrev U7 (c : Dev nD) : Valuation τ sig (Elt F) := StableHlo.after hostOps2_2 (U6 m c)

def o8 (c : Dev nD) : Buf (Elt F) ((c : Thread nD τ).loc main_v17) := (dat2 (atRefs (U7 m)) c).arrAt 5 cfg2.N
abbrev U8 (c : Dev nD) : Valuation τ sig (Elt F) := Function.update (U7 m c) main_v17 (o8 m c)
abbrev U9 (c : Dev nD) : Valuation τ sig (Elt F) := StableHlo.after hostOps3 (U8 m c)

def o10 (c : Dev nD) : Buf (Elt F) ((c : Thread nD τ).loc main_v30) := (dat3 (atRefs (U9 m)) c).arrAt 6 cfg3.N
abbrev U10 (c : Dev nD) : Valuation τ sig (Elt F) := Function.update (U9 m c) main_v30 (o10 m c)
abbrev U11 (c : Dev nD) : Valuation τ sig (Elt F) := StableHlo.after hostOps4 (U10 m c)
abbrev U12 (c : Dev nD) : Valuation τ sig (Elt F) := StableHlo.after hostOps4_1 (U11 m c)
abbrev U13 (c : Dev nD) : Valuation τ sig (Elt F) := StableHlo.after hostOps4_2 (U12 m c)

def o14 (c : Dev nD) : Buf (Elt F) ((c : Thread nD τ).loc main_v38) := (dat4 (atRefs (U13 m)) c).arrAt 5 cfg4.N
abbrev U14 (c : Dev nD) : Valuation τ sig (Elt F) := Function.update (U13 m c) main_v38 (o14 m c)
abbrev U15 (c : Dev nD) : Valuation τ sig (Elt F) := StableHlo.after hostOps5 (U14 m c)

def o16 (c : Dev nD) : Buf (Elt F) ((c : Thread nD τ).loc main_v51) := (dat5 (atRefs (U15 m)) c).arrAt 6 cfg5.N
abbrev U16 (c : Dev nD) : Valuation τ sig (Elt F) := Function.update (U15 m c) main_v51 (o16 m c)
abbrev U17 (c : Dev nD) : Valuation τ sig (Elt F) := StableHlo.after hostOps6 (U16 m c)
abbrev U18 (c : Dev nD) : Valuation τ sig (Elt F) := StableHlo.after hostOps6_1 (U17 m c)
abbrev U19 (c : Dev nD) : Valuation τ sig (Elt F) := StableHlo.after hostOps6_2 (U18 m c)

def o20 (c : Dev nD) : Buf (Elt F) ((c : Thread nD τ).loc main_v59) := (dat6 (atRefs (U19 m)) c).arrAt 5 cfg6.N
abbrev U20 (c : Dev nD) : Valuation τ sig (Elt F) := Function.update (U19 m c) main_v59 (o20 m c)
abbrev U21 (c : Dev nD) : Valuation τ sig (Elt F) := StableHlo.after hostOps7 (U20 m c)

def o22 (c : Dev nD) : Buf (Elt F) ((c : Thread nD τ).loc main_v72) := (dat7 (atRefs (U21 m)) c).arrAt 6 cfg7.N
abbrev U22 (c : Dev nD) : Valuation τ sig (Elt F) := Function.update (U21 m c) main_v72 (o22 m c)
abbrev U23 (c : Dev nD) : Valuation τ sig (Elt F) := StableHlo.after hostOps8 (U22 m c)

def o24 (c : Dev nD) : Buf (Elt F) ((c : Thread nD τ).loc main_v87) := (dat8 (atRefs (U23 m)) c).arrAt 3 cfg8.N
abbrev U24 (c : Dev nD) : Valuation τ sig (Elt F) := Function.update (U23 m c) main_v87 (o24 m c)

def pdats : (p : Fin 9) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U7 m)) c
  | ⟨3, _⟩ => fun c => dat3 (atRefs (U9 m)) c
  | ⟨4, _⟩ => fun c => dat4 (atRefs (U13 m)) c
  | ⟨5, _⟩ => fun c => dat5 (atRefs (U15 m)) c
  | ⟨6, _⟩ => fun c => dat6 (atRefs (U19 m)) c
  | ⟨7, _⟩ => fun c => dat7 (atRefs (U21 m)) c
  | ⟨8, _⟩ => fun c => dat8 (atRefs (U23 m)) c

def outsH : Outs (F := F) := fun J r c =>
  match J with
  | 2 => Function.update (U0 m c) main_v6 (o2 m c) r
  | 4 => Function.update (U0 m c) main_v9 (o4 m c) r
  | 8 => Function.update (U0 m c) main_v17 (o8 m c) r
  | 10 => Function.update (U0 m c) main_v30 (o10 m c) r
  | 14 => Function.update (U0 m c) main_v38 (o14 m c) r
  | 16 => Function.update (U0 m c) main_v51 (o16 m c) r
  | 20 => Function.update (U0 m c) main_v59 (o20 m c) r
  | 22 => Function.update (U0 m c) main_v72 (o22 m c) r
  | 24 => Function.update (U0 m c) main_v87 (o24 m c) r
  | _ => U0 m c r

theorem outsH_2 (c : Dev nD) : outsH m 2 main_v6 c = o2 m c := by
  show Function.update (U0 m c) main_v6 (o2 m c) main_v6 = o2 m c
  exact Function.update_self ..
theorem outsH_4 (c : Dev nD) : outsH m 4 main_v9 c = o4 m c := by
  show Function.update (U0 m c) main_v9 (o4 m c) main_v9 = o4 m c
  exact Function.update_self ..
theorem outsH_8 (c : Dev nD) : outsH m 8 main_v17 c = o8 m c := by
  show Function.update (U0 m c) main_v17 (o8 m c) main_v17 = o8 m c
  exact Function.update_self ..
theorem outsH_10 (c : Dev nD) : outsH m 10 main_v30 c = o10 m c := by
  show Function.update (U0 m c) main_v30 (o10 m c) main_v30 = o10 m c
  exact Function.update_self ..
theorem outsH_14 (c : Dev nD) : outsH m 14 main_v38 c = o14 m c := by
  show Function.update (U0 m c) main_v38 (o14 m c) main_v38 = o14 m c
  exact Function.update_self ..
theorem outsH_16 (c : Dev nD) : outsH m 16 main_v51 c = o16 m c := by
  show Function.update (U0 m c) main_v51 (o16 m c) main_v51 = o16 m c
  exact Function.update_self ..
theorem outsH_20 (c : Dev nD) : outsH m 20 main_v59 c = o20 m c := by
  show Function.update (U0 m c) main_v59 (o20 m c) main_v59 = o20 m c
  exact Function.update_self ..
theorem outsH_22 (c : Dev nD) : outsH m 22 main_v72 c = o22 m c := by
  show Function.update (U0 m c) main_v72 (o22 m c) main_v72 = o22 m c
  exact Function.update_self ..
theorem outsH_24 (c : Dev nD) : outsH m 24 main_v87 c = o24 m c := by
  show Function.update (U0 m c) main_v87 (o24 m c) main_v87 = o24 m c
  exact Function.update_self ..

theorem V1_eq (c : Dev nD) : V1 m c = U1 m c := rfl
theorem V2_eq (c : Dev nD) : V2 m (outsH m) c = U2 m c := by
  show Function.update (V1 m c) main_v6 (outsH m 2 main_v6 c) = _; rw [outsH_2]
theorem V3_eq (c : Dev nD) : V3 m (outsH m) c = U3 m c := by
  show StableHlo.after hostOps1 (V2 m (outsH m) c) = _; rw [V2_eq]
theorem V4_eq (c : Dev nD) : V4 m (outsH m) c = U4 m c := by
  show Function.update (V3 m (outsH m) c) main_v9 (outsH m 4 main_v9 c) = _; rw [outsH_4, V3_eq]
theorem V5_eq (c : Dev nD) : V5 m (outsH m) c = U5 m c := by
  show StableHlo.after hostOps2 (V4 m (outsH m) c) = _; rw [V4_eq]
theorem V6_eq (c : Dev nD) : V6 m (outsH m) c = U6 m c := by
  show StableHlo.after hostOps2_1 (V5 m (outsH m) c) = _; rw [V5_eq]
theorem V7_eq (c : Dev nD) : V7 m (outsH m) c = U7 m c := by
  show StableHlo.after hostOps2_2 (V6 m (outsH m) c) = _; rw [V6_eq]
theorem V8_eq (c : Dev nD) : V8 m (outsH m) c = U8 m c := by
  show Function.update (V7 m (outsH m) c) main_v17 (outsH m 8 main_v17 c) = _; rw [outsH_8, V7_eq]
theorem V9_eq (c : Dev nD) : V9 m (outsH m) c = U9 m c := by
  show StableHlo.after hostOps3 (V8 m (outsH m) c) = _; rw [V8_eq]
theorem V10_eq (c : Dev nD) : V10 m (outsH m) c = U10 m c := by
  show Function.update (V9 m (outsH m) c) main_v30 (outsH m 10 main_v30 c) = _; rw [outsH_10, V9_eq]
theorem V11_eq (c : Dev nD) : V11 m (outsH m) c = U11 m c := by
  show StableHlo.after hostOps4 (V10 m (outsH m) c) = _; rw [V10_eq]
theorem V12_eq (c : Dev nD) : V12 m (outsH m) c = U12 m c := by
  show StableHlo.after hostOps4_1 (V11 m (outsH m) c) = _; rw [V11_eq]
theorem V13_eq (c : Dev nD) : V13 m (outsH m) c = U13 m c := by
  show StableHlo.after hostOps4_2 (V12 m (outsH m) c) = _; rw [V12_eq]
theorem V14_eq (c : Dev nD) : V14 m (outsH m) c = U14 m c := by
  show Function.update (V13 m (outsH m) c) main_v38 (outsH m 14 main_v38 c) = _; rw [outsH_14, V13_eq]
theorem V15_eq (c : Dev nD) : V15 m (outsH m) c = U15 m c := by
  show StableHlo.after hostOps5 (V14 m (outsH m) c) = _; rw [V14_eq]
theorem V16_eq (c : Dev nD) : V16 m (outsH m) c = U16 m c := by
  show Function.update (V15 m (outsH m) c) main_v51 (outsH m 16 main_v51 c) = _; rw [outsH_16, V15_eq]
theorem V17_eq (c : Dev nD) : V17 m (outsH m) c = U17 m c := by
  show StableHlo.after hostOps6 (V16 m (outsH m) c) = _; rw [V16_eq]
theorem V18_eq (c : Dev nD) : V18 m (outsH m) c = U18 m c := by
  show StableHlo.after hostOps6_1 (V17 m (outsH m) c) = _; rw [V17_eq]
theorem V19_eq (c : Dev nD) : V19 m (outsH m) c = U19 m c := by
  show StableHlo.after hostOps6_2 (V18 m (outsH m) c) = _; rw [V18_eq]
theorem V20_eq (c : Dev nD) : V20 m (outsH m) c = U20 m c := by
  show Function.update (V19 m (outsH m) c) main_v59 (outsH m 20 main_v59 c) = _; rw [outsH_20, V19_eq]
theorem V21_eq (c : Dev nD) : V21 m (outsH m) c = U21 m c := by
  show StableHlo.after hostOps7 (V20 m (outsH m) c) = _; rw [V20_eq]
theorem V22_eq (c : Dev nD) : V22 m (outsH m) c = U22 m c := by
  show Function.update (V21 m (outsH m) c) main_v72 (outsH m 22 main_v72 c) = _; rw [outsH_22, V21_eq]
theorem V23_eq (c : Dev nD) : V23 m (outsH m) c = U23 m c := by
  show StableHlo.after hostOps8 (V22 m (outsH m) c) = _; rw [V22_eq]
theorem V24_eq (c : Dev nD) : V24 m (outsH m) c = U24 m c := by
  show Function.update (V23 m (outsH m) c) main_v87 (outsH m 24 main_v87 c) = _; rw [outsH_24, V23_eq]

end Cert.KernelIdeal.Hand

end
-- ==== Proof.KI.Regs.lean ====
import proofs.«424575_j83829171683414_1_alg».proof.Proof.KI.Chain
import proofs.«424575_j83829171683414_1_alg».proof.Proof.KI.LaunchFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section General

variable (pd : (p : Fin 9) → (c : Dev nD) → Dat τ (Elt F) Unit ℕ (UR sig nD τ) ℕ (cfgs p) c)
  (p : Fin 9) (o : Fin (cfgs p).W) (E : Dev nD → Valuation τ sig (Elt F))

-- A region changes its output array and nothing else: the contents it leaves, from the contents it is entered at.
abbrev exitOf (c : Dev nD) : Valuation τ sig (Elt F) :=
  Function.update (E c) (Proc.devRef .tc (Pipeline.arrRef (cfgs p).spec o)) ((pd p c).arrAt o (cfgs p).N)

variable (hins : ∀ w : Fin (cfgs p).W, w ≠ o →
    ((cfgs p).win w).isOut = false ∧ Pipeline.arrRef (cfgs p).spec w ≠ Pipeline.arrRef (cfgs p).spec o)
  (hA : ∀ c w, (pd p c).A w = atRefs E c (Pipeline.arrRef (cfgs p).spec w))

include hins hA in
-- Only the output window's array changes: every other array of the region ends as entered.
theorem arrAt_exitOf (c : Dev nD) (w : Fin (cfgs p).W) :
    (pd p c).arrAt w (cfgs p).N = atRefs (exitOf pd p o E) c (Pipeline.arrRef (cfgs p).spec w) := by
  by_cases hw : w = o
  · subst hw
    exact (Function.update_self (Proc.devRef .tc (Pipeline.arrRef (cfgs p).spec w)) ((pd p c).arrAt w (cfgs p).N) (E c)).symm
  · obtain ⟨hin, hne⟩ := hins w hw
    exact (((pd p c).arrAt_in w hin _).trans (hA c w)).trans
      (Function.update_of_ne (StableHlo.devRef_ne_of_ne hne) _ (E c)).symm

theorem rest_exitOf (c : Dev nD) (b : Ref sig .tc) (hb : b ∉ Finset.univ.image (Pipeline.arrRef (cfgs p).spec)) :
    atRefs (exitOf pd p o E) c b = atRefs E c b :=
  Function.update_of_ne (StableHlo.devRef_ne_of_ne fun e =>
    hb (Finset.mem_image.mpr ⟨o, Finset.mem_univ _, e.symm⟩)) _ _

set_option backward.isDefEq.respectTransparency.types false in
-- One kernel region as a segment of the program: entered at the contents `E`, left at `exitOf`, nothing owed.
def regOf (L : Pipeline.LaunchFacts (nD := nD) (τ := τ) cfgs p)
    (hq : ∀ c w, (pd p c).q w = fullShare) (howed : ∀ c t, (pd p c).owed t = 0)
    (hrec : ∀ c x, x ∈ (pd p c).recorded 0)
    (hΦ : ∀ c t, (pd p c).Φ t = Pipeline.ΦA (cfgs p).spec c)
    (hbody : ∀ c, BodyObligation (pd p c) (defs₀ (F := F)) Variants.none () Set.univ) :
    Pipeline.RegionSeg (pcfgs (F := F)) adm pd () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (E c) ∗ Rst c)
  post c := iprop(StableHlo.held (c : Thread nD τ) (Pipeline.ucRefs τ sig) (exitOf pd p o E c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atRefs E c)
  hentry c := by
    rw [Pipeline.ownSems0_none]
    have hsplit := Pipeline.arrays_of_unscopedBufs (p := p) (pcfgs (F := F)) adm pd L.win L.arr_whole c
      ((pd p c).share_full (hq c)) (atRefs E c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c))
      (atRefs E c) (atRefs (exitOf pd p o E) c) ((pd p c).arrAt · (cfgs p).N) (arrAt_exitOf pd p o E hins hA c) (rest_exitOf pd p o E c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end General

variable (m : (ℓ : Loc nD τ sig) → Buf (Elt F) ℓ)

def reg0 : Pipeline.RegionSeg (pcfgs (F := F)) adm (pdats m) () defs₀ Variants.none Lz lvz 0 :=
  regOf (pdats m) 0 3 (U1 m) (by decide) (fun _ _ => rfl) launch0 (fun _ _ => rfl) (fun _ _ => rfl) (fun _ _ => trivial) (fun _ _ => rfl)
    fun c => body_obligation0 (atRefs (U1 m)) c
def reg1 : Pipeline.RegionSeg (pcfgs (F := F)) adm (pdats m) () defs₀ Variants.none Lz lvz 1 :=
  regOf (pdats m) 1 3 (U3 m) (by decide) (fun _ _ => rfl) launch1 (fun _ _ => rfl) (fun _ _ => rfl) (fun _ _ => trivial) (fun _ _ => rfl)
    fun c => body_obligation1 (atRefs (U3 m)) c
def reg2 : Pipeline.RegionSeg (pcfgs (F := F)) adm (pdats m) () defs₀ Variants.none Lz lvz 2 :=
  regOf (pdats m) 2 5 (U7 m) (by decide) (fun _ _ => rfl) launch2 (fun _ _ => rfl) (fun _ _ => rfl) (fun _ _ => trivial) (fun _ _ => rfl)
    fun c => body_obligation2 (atRefs (U7 m)) c
def reg3 : Pipeline.RegionSeg (pcfgs (F := F)) adm (pdats m) () defs₀ Variants.none Lz lvz 3 :=
  regOf (pdats m) 3 6 (U9 m) (by decide) (fun _ _ => rfl) launch3 (fun _ _ => rfl) (fun _ _ => rfl) (fun _ _ => trivial) (fun _ _ => rfl)
    fun c => body_obligation3 (atRefs (U9 m)) c
def reg4 : Pipeline.RegionSeg (pcfgs (F := F)) adm (pdats m) () defs₀ Variants.none Lz lvz 4 :=
  regOf (pdats m) 4 5 (U13 m) (by decide) (fun _ _ => rfl) launch4 (fun _ _ => rfl) (fun _ _ => rfl) (fun _ _ => trivial) (fun _ _ => rfl)
    fun c => body_obligation4 (atRefs (U13 m)) c
def reg5 : Pipeline.RegionSeg (pcfgs (F := F)) adm (pdats m) () defs₀ Variants.none Lz lvz 5 :=
  regOf (pdats m) 5 6 (U15 m) (by decide) (fun _ _ => rfl) launch5 (fun _ _ => rfl) (fun _ _ => rfl) (fun _ _ => trivial) (fun _ _ => rfl)
    fun c => body_obligation5 (atRefs (U15 m)) c
def reg6 : Pipeline.RegionSeg (pcfgs (F := F)) adm (pdats m) () defs₀ Variants.none Lz lvz 6 :=
  regOf (pdats m) 6 5 (U19 m) (by decide) (fun _ _ => rfl) launch6 (fun _ _ => rfl) (fun _ _ => rfl) (fun _ _ => trivial) (fun _ _ => rfl)
    fun c => body_obligation6 (atRefs (U19 m)) c
def reg7 : Pipeline.RegionSeg (pcfgs (F := F)) adm (pdats m) () defs₀ Variants.none Lz lvz 7 :=
  regOf (pdats m) 7 6 (U21 m) (by decide) (fun _ _ => rfl) launch7 (fun _ _ => rfl) (fun _ _ => rfl) (fun _ _ => trivial) (fun _ _ => rfl)
    fun c => body_obligation7 (atRefs (U21 m)) c
def reg8 : Pipeline.RegionSeg (pcfgs (F := F)) adm (pdats m) () defs₀ Variants.none Lz lvz 8 :=
  regOf (pdats m) 8 3 (U23 m) (by decide) (fun _ _ => rfl) launch8 (fun _ _ => rfl) (fun _ _ => rfl) (fun _ _ => trivial) (fun _ _ => rfl)
    fun c => body_obligation8 (atRefs (U23 m)) c

end Cert.KernelIdeal.Hand

end
-- ==== Proof.KI.Frame.lean ====
import proofs.«424575_j83829171683414_1_alg».proof.Defs
import proofs.«424575_j83829171683414_1_alg».proof.Proof.Gen.Pre_finite_inputs
import proofs.«424575_j83829171683414_1_alg».proof.Proof.KI.LaunchFacts
import proofs.«424575_j83829171683414_1_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

theorem hpre0 (c : Dev nD) : iprop(StableHlo.held (c : Thread nD τ) (Pipeline.ucRefs τ sig) (V1 m c) ∗ Rst (F := F) c) ⊢ (reg0 m).pre c := by
  exact .rfl
theorem hpost0 (c : Dev nD) : (reg0 m).post c ⊢ iprop(StableHlo.held (c : Thread nD τ) (Pipeline.ucRefs τ sig) (V2 m (outsH m) c) ∗ Rst (F := F) c) := by
  rw [V2_eq]; exact .rfl
theorem hpre1 (c : Dev nD) : iprop(StableHlo.held (c : Thread nD τ) (Pipeline.ucRefs τ sig) (V3 m (outsH m) c) ∗ Rst (F := F) c) ⊢ (reg1 m).pre c := by
  rw [V3_eq]; exact .rfl
theorem hpost1 (c : Dev nD) : (reg1 m).post c ⊢ iprop(StableHlo.held (c : Thread nD τ) (Pipeline.ucRefs τ sig) (V4 m (outsH m) c) ∗ Rst (F := F) c) := by
  rw [V4_eq]; exact .rfl
theorem hpre2 (c : Dev nD) : iprop(StableHlo.held (c : Thread nD τ) (Pipeline.ucRefs τ sig) (V7 m (outsH m) c) ∗ Rst (F := F) c) ⊢ (reg2 m).pre c := by
  rw [V7_eq]; exact .rfl
theorem hpost2 (c : Dev nD) : (reg2 m).post c ⊢ iprop(StableHlo.held (c : Thread nD τ) (Pipeline.ucRefs τ sig) (V8 m (outsH m) c) ∗ Rst (F := F) c) := by
  rw [V8_eq]; exact .rfl
theorem hpre3 (c : Dev nD) : iprop(StableHlo.held (c : Thread nD τ) (Pipeline.ucRefs τ sig) (V9 m (outsH m) c) ∗ Rst (F := F) c) ⊢ (reg3 m).pre c := by
  rw [V9_eq]; exact .rfl
theorem hpost3 (c : Dev nD) : (reg3 m).post c ⊢ iprop(StableHlo.held (c : Thread nD τ) (Pipeline.ucRefs τ sig) (V10 m (outsH m) c) ∗ Rst (F := F) c) := by
  rw [V10_eq]; exact .rfl
theorem hpre4 (c : Dev nD) : iprop(StableHlo.held (c : Thread nD τ) (Pipeline.ucRefs τ sig) (V13 m (outsH m) c) ∗ Rst (F := F) c) ⊢ (reg4 m).pre c := by
  rw [V13_eq]; exact .rfl
theorem hpost4 (c : Dev nD) : (reg4 m).post c ⊢ iprop(StableHlo.held (c : Thread nD τ) (Pipeline.ucRefs τ sig) (V14 m (outsH m) c) ∗ Rst (F := F) c) := by
  rw [V14_eq]; exact .rfl
theorem hpre5 (c : Dev nD) : iprop(StableHlo.held (c : Thread nD τ) (Pipeline.ucRefs τ sig) (V15 m (outsH m) c) ∗ Rst (F := F) c) ⊢ (reg5 m).pre c := by
  rw [V15_eq]; exact .rfl
theorem hpost5 (c : Dev nD) : (reg5 m).post c ⊢ iprop(StableHlo.held (c : Thread nD τ) (Pipeline.ucRefs τ sig) (V16 m (outsH m) c) ∗ Rst (F := F) c) := by
  rw [V16_eq]; exact .rfl
theorem hpre6 (c : Dev nD) : iprop(StableHlo.held (c : Thread nD τ) (Pipeline.ucRefs τ sig) (V19 m (outsH m) c) ∗ Rst (F := F) c) ⊢ (reg6 m).pre c := by
  rw [V19_eq]; exact .rfl
theorem hpost6 (c : Dev nD) : (reg6 m).post c ⊢ iprop(StableHlo.held (c : Thread nD τ) (Pipeline.ucRefs τ sig) (V20 m (outsH m) c) ∗ Rst (F := F) c) := by
  rw [V20_eq]; exact .rfl
theorem hpre7 (c : Dev nD) : iprop(StableHlo.held (c : Thread nD τ) (Pipeline.ucRefs τ sig) (V21 m (outsH m) c) ∗ Rst (F := F) c) ⊢ (reg7 m).pre c := by
  rw [V21_eq]; exact .rfl
theorem hpost7 (c : Dev nD) : (reg7 m).post c ⊢ iprop(StableHlo.held (c : Thread nD τ) (Pipeline.ucRefs τ sig) (V22 m (outsH m) c) ∗ Rst (F := F) c) := by
  rw [V22_eq]; exact .rfl
theorem hpre8 (c : Dev nD) : iprop(StableHlo.held (c : Thread nD τ) (Pipeline.ucRefs τ sig) (V23 m (outsH m) c) ∗ Rst (F := F) c) ⊢ (reg8 m).pre c := by
  rw [V23_eq]; exact .rfl
theorem hpost8 (c : Dev nD) : (reg8 m).post c ⊢ iprop(StableHlo.held (c : Thread nD τ) (Pipeline.ucRefs τ sig) (V24 m (outsH m) c) ∗ Rst (F := F) c) := by
  rw [V24_eq]; exact .rfl

set_option backward.isDefEq.respectTransparency.types false in
theorem frame : Cert.frame_KernelIdeal := fun m ρ _ =>
  frame_cond m emb₁ () Variants.none Lz lvz (fun _ _ => rfl) ρ (outsH m) (pdats m) 0 (fun _ => iprop(emp)) u0 hu0
    (fun _ c => Rst c) (hE0 ρ) hE9
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)
    (reg6 m) (hpre6 m) (hpost6 m) (reg7 m) (hpre7 m) (hpost7 m) (reg8 m) (hpre8 m) (hpost8 m)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev A2 (m n : Nat) : Type := (⟨2, ![m, n]⟩ : Shape).Idx → EReal

variable {M K H N C : Nat}

-- Entry (a, c) of max (x·w + b) 0.
def lin (x : A2 M K) (w : A2 K N) (b : A2 1 N) (a : Fin M) (c : Fin N) : EReal :=
  max ((∑ k : Fin K, x (ix2 a k) * w (ix2 k c)) + b (ix2 0 c)) 0

-- Entry (a, c) of (max (x·w₁ + b₁) 0)·w₂ + b₂.
def mlp (x : A2 M K) (w₁ : A2 K H) (b₁ : A2 1 H) (w₂ : A2 H N) (b₂ : A2 1 N) (a : Fin M) (c : Fin N) : EReal :=
  (∑ h : Fin H, lin x w₁ b₁ a h * w₂ (ix2 h c)) + b₂ (ix2 0 c)

-- Entry (a, c) of max (((s(a,c) / max cnt(a) 1 − μ(c)) · (σ²(c) + ε)^(−1/2)) · γ(c) + β(c)) 0.
def bn (ε : EReal) (s : A2 M C) (cnt : A2 M 1) (γ β μ σ2 : A2 1 C) (a : Fin M) (c : Fin C) : EReal :=
  max ((((Ideal.div (s (ix2 a c)) (max (cnt (ix2 a 0)) 1) - μ (ix2 0 c)) * Ideal.rsqrt (σ2 (ix2 0 c) + ε)) * γ (ix2 0 c))
    + β (ix2 0 c)) 0

-- Entry (a, c) of logistic (p·w + b).
def fc (p : A2 M K) (w : A2 K N) (b : A2 1 N) (a : Fin M) (c : Fin N) : EReal :=
  Ideal.logistic ((∑ k : Fin K, p (ix2 a k) * w (ix2 k c)) + b (ix2 0 c))

end Cert.Spec

end
-- ==== Proof.KI.ValLib.lean ====
import proofs.«424575_j83829171683414_1_alg».proof.Proof.Spec
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx

theorem zeros2 : (![0, 0] : Fin 2 → Nat) = fun _ => 0 := funext fun a => by fin_cases a <;> rfl

-- 2²³ · 2⁻²³ = 1
theorem one_bits : Ideal.ofBits .f32 0x3F800000#32 = 1 := by
  simp [Ideal.ofBits, Ideal.ieee]
  rw [← EReal.coe_mul]; norm_num

theorem rsqrt_at {s : Shape} {φ : FTy} (x : FVec Ideal s φ) (i : s.Idx) : rsqrt x i = Ideal.rsqrt (x i) := rfl

-- a one-column array spread over the columns reads its entry of the same row
theorem colTo {α : Type} {a b : Nat} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

-- the block whose index on every axis is the coordinate's quotient by the block's extent there holds the index
theorem mem_rect_of_div {sig : RefSig} {G : Pipeline.Grid} (w : Pipeline.Window sig G) (t : Fin G.N) (i : w.shape.Idx)
    (hx : ∀ a, w.xsize (G.coords t) a = w.size a) (hp : ∀ a, 0 < w.size a) (h : ∀ a, w.index t a = (i a).val / w.size a) :
    i ∈ (w.rect t).set :=
  Rect.mem_set_unit.2 fun a => by rw [h a, hx a]; exact ⟨Nat.div_mul_le_self _ _, Nat.lt_div_mul_add (hp a)⟩

-- the two-layer network at a row reads its first argument through that row only
theorem mlp_row {M M' K H N : Nat} (x : Cert.Spec.A2 M K) (x' : Cert.Spec.A2 M' K) (w1 : Cert.Spec.A2 K H) (b1 : Cert.Spec.A2 1 H)
    (w2 : Cert.Spec.A2 H N) (b2 : Cert.Spec.A2 1 N) (a : Fin M) (a' : Fin M') (hx : ∀ k : Fin K, x (ix2 a k) = x' (ix2 a' k)) (c : Fin N) :
    Cert.Spec.mlp x w1 b1 w2 b2 a c = Cert.Spec.mlp x' w1 b1 w2 b2 a' c := by
  unfold Cert.Spec.mlp Cert.Spec.lin
  simp only [hx]

end Cert.KernelIdeal.Hand

end
-- ==== Proof.LibPlainDot.lean ====
import Idealize.ShloMosaic.PureOps.Ideal.Laws
import Idealize.ShloMosaic.Lib.StackMember

noncomputable section

namespace Cert.LibPlainDot

open Idealize.ShloMosaic Idealize.ShloMosaic.ValueIdx

variable {M K N : Nat} {φ₁ φ₂ : FTy} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hlc hrc hln hrn hlb hrb

-- A record with the plain product's six lists is the plain product's record; its sum at (a, b) runs over the contracted coordinate k.
theorem dot_sum (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  exact (Ideal.dotGeneral_apply (φ₁ := .f32) (φ₂ := .f32) (DotDims.plain M K N) none .single l r (ix2 a b)).symm.trans
    (StackMember.dotGeneral_plain_apply (φ₁ := .f32) (φ₂ := .f32) none l r a b)

theorem matmul_zero_apply (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

theorem dotGeneral_apply (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KI.Val0.lean ====
import proofs.«424575_j83829171683414_1_alg».proof.Proof.KI.B0
import proofs.«424575_j83829171683414_1_alg».proof.Proof.KI.ValLib
import proofs.«424575_j83829171683414_1_alg».proof.Proof.LibPlainDot
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay0_apply (x : Vec Ideal S2000x8 .f32) (w : Vec Ideal S8x16 .f32) (b : Vec Ideal S1x16 .f32) (p : Fin 2000) (q : Fin 16) :
    k0_pay1 (F := Ideal) x w b (ix2 p q) = max ((∑ k : Fin 8, x (ix2 p k) * w (ix2 k q)) + b (ix2 0 q)) 0 := by
  unfold k0_pay1
  rw [maximumf_apply, addf_apply, broadcast_apply, broadcastTo_1b_ab_apply]
  refine congrArg₂ max (congrArg₂ (· + ·) ((Cert.LibPlainDot.matmul_zero_apply dot_S2000x8_S8x16_S2000x16_1_0_0_1_n_n rfl rfl rfl rfl rfl rfl none _ _ p q).trans ?_) ?_) Ideal.ofBits_zero_f32
  · simp only [truncf_apply, shapeCast_self]
  · rw [shapeCast_self]

theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev lin0 (c : Dev nD) : S200000x16.Idx → EReal := fun i =>
  Cert.Spec.lin (V c main_arg2 : Cert.Spec.A2 200000 8) (V c main_v4 : Cert.Spec.A2 8 16) (V c main_v5 : Cert.Spec.A2 1 16) (i 0) (i 1)

-- the stored entry (p, q) reads row 2000 t + p of x, the whole weight and the bias row
theorem flushed0_eq (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3]
  unfold out0_3
  rw [View.canon_unit_zero zeros2]
  simp only [View.ld_unit_zero (S := S2000x8) zeros2, View.ld_unit_zero (S := S8x16) zeros2, View.ld_unit_zero (S := S1x16) zeros2]
  obtain ⟨a0, a1, b0, b1, c0, c1, d0, d1⟩ := index0 t
  have ht : t.val < 100 := lt_of_lt_of_eq t.isLt N_0
  funext j
  obtain ⟨p, q, rfl⟩ : ∃ (p : Fin 2000) (q : Fin 16), j = ix2 p q := ⟨j 0, j 1, eq_ix2 j⟩
  have hp : p.val < 2000 := p.isLt
  show k0_pay1 (F := Ideal) (iblk0 V c 0 t) (iblk0 V c 1 t) (iblk0 V c 2 t) (ix2 p q) = lin0 V c (((cfg0.win 3).blk t).view.emb (ix2 p q))
  rw [show ((cfg0.win 3).blk t).view.emb (ix2 p q) = (ix2 (⟨t.val * 2000 + p.val, by omega⟩ : Fin 200000) q : S200000x16.Idx) from
    Shape.idx_ext₂ ((win0_3.rect_emb_val t (ix2 p q) (0 : Fin 2)).trans (congrArg (· * 2000 + p.val) d0)) (win0_3.rect_emb_val_of_index_zero t (1 : Fin 2) d1 (ix2 p q))]
  refine (pay0_apply _ _ _ p q).trans ?_
  exact congrArg₂ max (congrArg₂ (· + ·) (Finset.sum_congr rfl fun k _ => congrArg₂ (· * ·)
    (congrArg (V c main_arg2 : Cert.Spec.A2 200000 8) (Shape.idx_ext₂ ((win0_0.rect_emb_val t (ix2 p k) (0 : Fin 2)).trans (congrArg (· * 2000 + p.val) a0)) (win0_0.rect_emb_val_of_index_zero t (1 : Fin 2) a1 (ix2 p k))))
    (congrArg (V c main_v4 : Cert.Spec.A2 8 16) (Shape.idx_ext₂ (win0_1.rect_emb_val_of_index_zero t (0 : Fin 2) b0 (ix2 k q)) (win0_1.rect_emb_val_of_index_zero t (1 : Fin 2) b1 (ix2 k q)))))
    (congrArg (V c main_v5 : Cert.Spec.A2 1 16) (Shape.idx_ext₂ (win0_2.rect_emb_val_of_index_zero t (0 : Fin 2) c0 (ix2 0 q)) (win0_2.rect_emb_val_of_index_zero t (1 : Fin 2) c1 (ix2 0 q))))) rfl

theorem cover0 (i : S200000x16.Idx) : ∃ t : Fin cfg0.N, (cfg0.win 3).flush t = true ∧ i ∈ ((cfg0.win 3).blk t).view.set := by
  have hi0 : (i 0).val < 200000 := (i 0).isLt
  obtain ⟨t, ht⟩ : ∃ t : Fin cfg0.N, t.val = (i 0).val / 2000 := ⟨⟨(i 0).val / 2000, by rw [show cfg0.N = 100 from N_0]; omega⟩, rfl⟩
  obtain ⟨-, -, -, -, -, -, e0, e1⟩ := index0 t
  refine ⟨t, flush0_3 t, ?_⟩
  show i ∈ ((View.whole main_v6).slice (win0_3.rect t)).set
  rw [View.set_slice_whole]
  exact mem_rect_of_div win0_3 t i (fun _ => rfl) (by decide) fun a => by
    match a with
    | ⟨0, _⟩ => exact e0.trans ht
    | ⟨1, _⟩ => exact e1.trans (Nat.div_eq_of_lt (i 1).isLt).symm

theorem final0 (c : Dev nD) (a : Fin 200000) (b : Fin 16) :
    (dat0 (F := Ideal) V c).arrAt 3 cfg0.N (ix2 a b)
      = Cert.Spec.lin (V c main_arg2 : Cert.Spec.A2 200000 8) (V c main_v4 : Cert.Spec.A2 8 16) (V c main_v5 : Cert.Spec.A2 1 16) a b :=
  congrFun ((dat0 (F := Ideal) V c).arrAt_eq_of_cover 3 (lin0 V c) (fun t _ => flushed0_eq V c t) (cover0)) (ix2 a b)

end Cert.KernelIdeal.Hand

end
-- ==== Proof.KI.Val1.lean ====
import proofs.«424575_j83829171683414_1_alg».proof.Proof.KI.B1
import proofs.«424575_j83829171683414_1_alg».proof.Proof.KI.ValLib
import proofs.«424575_j83829171683414_1_alg».proof.Proof.LibPlainDot
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay1_apply (x : Vec Ideal S2000x32 .f32) (w : Vec Ideal S32x256 .f32) (b : Vec Ideal S1x256 .f32) (p : Fin 2000) (q : Fin 256) :
    k1_pay1 (F := Ideal) x w b (ix2 p q) = max ((∑ k : Fin 32, x (ix2 p k) * w (ix2 k q)) + b (ix2 0 q)) 0 := by
  unfold k1_pay1
  rw [maximumf_apply, addf_apply, broadcast_apply, broadcastTo_1b_ab_apply]
  refine congrArg₂ max (congrArg₂ (· + ·) ((Cert.LibPlainDot.matmul_zero_apply dot_S2000x32_S32x256_S2000x256_1_0_0_1_n_n rfl rfl rfl rfl rfl rfl none _ _ p q).trans ?_) ?_) Ideal.ofBits_zero_f32
  · simp only [truncf_apply, shapeCast_self]
  · rw [shapeCast_self]

theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev lin1 (c : Dev nD) : S20000x256.Idx → EReal := fun i =>
  Cert.Spec.lin (V c main_arg0 : Cert.Spec.A2 20000 32) (V c main_v7 : Cert.Spec.A2 32 256) (V c main_v8 : Cert.Spec.A2 1 256) (i 0) (i 1)

-- the stored entry (p, q) reads row 2000 t + p of x, the whole weight and the bias row
theorem flushed1_eq (c : Dev nD) (t : Fin cfg1.N) :
    (dat1 (F := Ideal) V c).flushed 3 t = ((cfg1.win 3).blk t).view.read (Elt Ideal) (lin1 V c) := by
  show (cfg1.win 3).cut (grid1.coords t) ((dat1 (F := Ideal) V c).after 3 t) = _
  rw [after1_3]
  unfold out1_3
  rw [View.canon_unit_zero zeros2]
  simp only [View.ld_unit_zero (S := S2000x32) zeros2, View.ld_unit_zero (S := S32x256) zeros2, View.ld_unit_zero (S := S1x256) zeros2]
  obtain ⟨a0, a1, b0, b1, c0, c1, d0, d1⟩ := index1 t
  have ht : t.val < 10 := lt_of_lt_of_eq t.isLt N_1
  funext j
  obtain ⟨p, q, rfl⟩ : ∃ (p : Fin 2000) (q : Fin 256), j = ix2 p q := ⟨j 0, j 1, eq_ix2 j⟩
  have hp : p.val < 2000 := p.isLt
  show k1_pay1 (F := Ideal) (iblk1 V c 0 t) (iblk1 V c 1 t) (iblk1 V c 2 t) (ix2 p q) = lin1 V c (((cfg1.win 3).blk t).view.emb (ix2 p q))
  rw [show ((cfg1.win 3).blk t).view.emb (ix2 p q) = (ix2 (⟨t.val * 2000 + p.val, by omega⟩ : Fin 20000) q : S20000x256.Idx) from
    Shape.idx_ext₂ ((win1_3.rect_emb_val t (ix2 p q) (0 : Fin 2)).trans (congrArg (· * 2000 + p.val) d0)) (win1_3.rect_emb_val_of_index_zero t (1 : Fin 2) d1 (ix2 p q))]
  refine (pay1_apply _ _ _ p q).trans ?_
  exact congrArg₂ max (congrArg₂ (· + ·) (Finset.sum_congr rfl fun k _ => congrArg₂ (· * ·)
    (congrArg (V c main_arg0 : Cert.Spec.A2 20000 32) (Shape.idx_ext₂ ((win1_0.rect_emb_val t (ix2 p k) (0 : Fin 2)).trans (congrArg (· * 2000 + p.val) a0)) (win1_0.rect_emb_val_of_index_zero t (1 : Fin 2) a1 (ix2 p k))))
    (congrArg (V c main_v7 : Cert.Spec.A2 32 256) (Shape.idx_ext₂ (win1_1.rect_emb_val_of_index_zero t (0 : Fin 2) b0 (ix2 k q)) (win1_1.rect_emb_val_of_index_zero t (1 : Fin 2) b1 (ix2 k q)))))
    (congrArg (V c main_v8 : Cert.Spec.A2 1 256) (Shape.idx_ext₂ (win1_2.rect_emb_val_of_index_zero t (0 : Fin 2) c0 (ix2 0 q)) (win1_2.rect_emb_val_of_index_zero t (1 : Fin 2) c1 (ix2 0 q))))) rfl

theorem cover1 (i : S20000x256.Idx) : ∃ t : Fin cfg1.N, (cfg1.win 3).flush t = true ∧ i ∈ ((cfg1.win 3).blk t).view.set := by
  have hi0 : (i 0).val < 20000 := (i 0).isLt
  obtain ⟨t, ht⟩ : ∃ t : Fin cfg1.N, t.val = (i 0).val / 2000 := ⟨⟨(i 0).val / 2000, by rw [show cfg1.N = 10 from N_1]; omega⟩, rfl⟩
  obtain ⟨-, -, -, -, -, -, e0, e1⟩ := index1 t
  refine ⟨t, flush1_3 t, ?_⟩
  show i ∈ ((View.whole main_v9).slice (win1_3.rect t)).set
  rw [View.set_slice_whole]
  exact mem_rect_of_div win1_3 t i (fun _ => rfl) (by decide) fun a => by
    match a with
    | ⟨0, _⟩ => exact e0.trans ht
    | ⟨1, _⟩ => exact e1.trans (Nat.div_eq_of_lt (i 1).isLt).symm

theorem final1 (c : Dev nD) (a : Fin 20000) (b : Fin 256) :
    (dat1 (F := Ideal) V c).arrAt 3 cfg1.N (ix2 a b)
      = Cert.Spec.lin (V c main_arg0 : Cert.Spec.A2 20000 32) (V c main_v7 : Cert.Spec.A2 32 256) (V c main_v8 : Cert.Spec.A2 1 256) a b :=
  congrFun ((dat1 (F := Ideal) V c).arrAt_eq_of_cover 3 (lin1 V c) (fun t _ => flushed1_eq V c t) (cover1)) (ix2 a b)

end Cert.KernelIdeal.Hand

end
-- ==== Proof.RefLin.lean ====
import proofs.«424575_j83829171683414_1_alg».proof.Proof.RefRead
import proofs.«424575_j83829171683414_1_alg».proof.Proof.Spec
import Idealize.ShloMosaic.Lib.StackMember
import Idealize.ShloMosaic.Lib.IdealHost

noncomputable section

namespace Cert.RefLegs

open Cert.ReferenceIdeal Cert.ReferenceIdeal.ReadP Idealize.ShloMosaic Idealize.ShloMosaic.ValueIdx

-- The product is read at an entry as a sum over the contracted coordinate, the bias row at (0, c), and the zero array is 0.
theorem lin_parts {M K N : Nat} (x : FVec Ideal ⟨2, ![M, K]⟩ .f32) (w : FVec Ideal ⟨2, ![K, N]⟩ .f32) (b : FVec Ideal ⟨2, ![1, N]⟩ .f32)
    {h₁ : (⟨2, ![1, N]⟩ : Shape).BroadcastsInDim ⟨2, ![M, N]⟩ ![0, 1]} {hz : (⟨0, ![]⟩ : Shape).BroadcastsInDim ⟨2, ![M, N]⟩ ![]}
    (a : Fin M) (c : Fin N) :
    maximumf (addf (Host.dotGeneral (DotDims.plain M K N) none x w) (broadcastInDim ⟨2, ![M, N]⟩ ![0, 1] h₁ b))
      (broadcastInDim ⟨2, ![M, N]⟩ ![] hz (constant ⟨0, ![]⟩ .f32 0x00000000#32)) (ix2 a c) = Cert.Spec.lin x w b a c := by
  unfold Cert.Spec.lin
  rw [maximumf_apply, addf_apply, broadcastInDim_oneRow_apply, broadcastInDim_scalar_apply, constant_apply,
    Ideal.ofBits_zero_f32, StackMember.dotGeneral_plain_apply]

variable (x0 : (⟨S20000x32, .f32⟩ : BufTy).Contents (Elt Ideal)) (x1 : (⟨S2x200000, .i32⟩ : BufTy).Contents (Elt Ideal))
  (x2 : (⟨S200000x8, .f32⟩ : BufTy).Contents (Elt Ideal)) (x3 : (⟨S20000, .i32⟩ : BufTy).Contents (Elt Ideal))
  (x4 : (⟨S16x8, .f32⟩ : BufTy).Contents (Elt Ideal)) (x5 : (⟨S16, .f32⟩ : BufTy).Contents (Elt Ideal))
  (x6 : (⟨S256x32, .f32⟩ : BufTy).Contents (Elt Ideal)) (x7 : (⟨S256, .f32⟩ : BufTy).Contents (Elt Ideal))
  (x8 : (⟨S512x528, .f32⟩ : BufTy).Contents (Elt Ideal)) (x9 : (⟨S512, .f32⟩ : BufTy).Contents (Elt Ideal))
  (x10 : (⟨S256x512, .f32⟩ : BufTy).Contents (Elt Ideal)) (x11 : (⟨S256, .f32⟩ : BufTy).Contents (Elt Ideal))
  (x12 : (⟨S512x528, .f32⟩ : BufTy).Contents (Elt Ideal)) (x13 : (⟨S512, .f32⟩ : BufTy).Contents (Elt Ideal))
  (x14 : (⟨S256x512, .f32⟩ : BufTy).Contents (Elt Ideal)) (x15 : (⟨S256, .f32⟩ : BufTy).Contents (Elt Ideal))
  (x16 : (⟨S256x528, .f32⟩ : BufTy).Contents (Elt Ideal)) (x17 : (⟨S256, .f32⟩ : BufTy).Contents (Elt Ideal))
  (x18 : (⟨S128x256, .f32⟩ : BufTy).Contents (Elt Ideal)) (x19 : (⟨S128, .f32⟩ : BufTy).Contents (Elt Ideal))
  (x20 x21 x22 x23 x24 x25 x26 x27 : (⟨S256, .f32⟩ : BufTy).Contents (Elt Ideal)) (x28 x29 x30 x31 : (⟨S128, .f32⟩ : BufTy).Contents (Elt Ideal))
  (x32 : (⟨S12x128, .f32⟩ : BufTy).Contents (Elt Ideal)) (x33 : (⟨S12, .f32⟩ : BufTy).Contents (Elt Ideal))

theorem e_leg (a : Fin 200000) (c : Fin 16) :
    val_main_v9 (F := Ideal) x2 x4 x5 (ix2 a c)
      = Cert.Spec.lin (x2 : Cert.Spec.A2 200000 8) (val_main_v4 (F := Ideal) x4 : Cert.Spec.A2 8 16)
          (val_main_v6 (F := Ideal) x5 : Cert.Spec.A2 1 16) a c :=
  lin_parts (K := 8) _ _ _ a c

theorem h0_leg (a : Fin 20000) (c : Fin 256) :
    val_main_v15 (F := Ideal) x0 x6 x7 (ix2 a c)
      = Cert.Spec.lin (x0 : Cert.Spec.A2 20000 32) (val_main_v10 (F := Ideal) x6 : Cert.Spec.A2 32 256)
          (val_main_v12 (F := Ideal) x7 : Cert.Spec.A2 1 256) a c :=
  lin_parts (K := 32) _ _ _ a c

theorem lidx_v191 (a : Fin 512) (c : Fin 12) (k : Fin 128) : lidx_main_v191 (ix2 a c) k = ix2 a k :=
  funext fun ax => Fin.ext (by match ax with | ⟨0, _⟩ => rfl | ⟨1, _⟩ => rfl)

theorem ridx_v191 (a : Fin 512) (c : Fin 12) (k : Fin 128) : ridx_main_v191 (ix2 a c) k = ix2 k c :=
  funext fun ax => Fin.ext (by match ax with | ⟨0, _⟩ => rfl | ⟨1, _⟩ => rfl)

theorem idx_v193 (a : Fin 512) (c : Fin 12) : idx_main_v193 (ix2 a c) = ix2 0 c :=
  funext fun ax => Fin.ext (by match ax with | ⟨0, _⟩ => rfl | ⟨1, _⟩ => rfl)

-- One over one plus the exponential of minus z is the logistic function of z.
theorem out_leg (a : Fin 512) (c : Fin 12) :
    val_main_v200 (F := Ideal) x0 x1 x2 x3 x4 x5 x6 x7 x8 x9 x10 x11 x12 x13 x14 x15 x16 x17 x18 x19 x20 x21 x22 x23 x24 x25 x26 x27 x28 x29 x30 x31 x32 x33 (ix2 a c)
      = Cert.Spec.fc (val_main_v189 (F := Ideal) x0 x1 x2 x3 x4 x5 x6 x7 x8 x9 x10 x11 x12 x13 x14 x15 x16 x17 x18 x19 x20 x21 x22 x23 x24 x25 x26 x27 x28 x29 x30 x31 : Cert.Spec.A2 512 128)
          (val_main_v190 (F := Ideal) x32 : Cert.Spec.A2 128 12) (val_main_v192 (F := Ideal) x33 : Cert.Spec.A2 1 12) a c := by
  rw [val_main_v200_apply, val_main_v199_apply, val_main_cst_30_apply, val_main_v198_apply, val_main_v197_apply,
    val_main_cst_29_apply, val_main_v196_apply, val_main_v195_apply, val_main_v194_apply, val_main_v191_apply,
    val_main_v193_apply]
  generalize val_main_v189 (F := Ideal) x0 x1 x2 x3 x4 x5 x6 x7 x8 x9 x10 x11 x12 x13 x14 x15 x16 x17 x18 x19 x20 x21 x22 x23 x24 x25 x26 x27 x28 x29 x30 x31 = p
  simp only [lidx_v191, ridx_v191, idx_v193, Ideal.hostDivf_def, Ideal.addf_def, Ideal.hostUnary_exp_def,
    Ideal.hostNegf_def, Ideal.negf_def, Ideal.ofBits_def, Ideal.ofBits_one_f32]
  rfl

end Cert.RefLegs

end
-- ==== Proof.LibReshapeAsBroadcast.lean ====
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

-- A coordinate below n is 0 when n = 1: the entry a broadcast reads along an axis of extent n.
theorem bcast_coord {n : Nat} (v : Fin n) : v.val = if n = 1 then 0 else v.val := by
  split
  · omega
  · rfl

-- Both tables hold x k at (0, k): row-major position 0 * n + k, and the coordinate on the broadcast axis.
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  have h0 : (j 0).val = 0 := Nat.lt_one_iff.mp (j 0).isLt
  refine (shapeCast_apply x h j (ix1 (j 1)) ?_).trans
    (broadcastInDim_apply ![1] hb x j (ix1 (j 1)) fun a => ?_).symm
  · rw [Shape.rowMajor_val_one, Shape.rowMajor_val_two]
    show (j 1).val = (j 0).val * n + (j 1).val
    rw [h0, Nat.zero_mul, Nat.zero_add]
  · obtain rfl : a = 0 := Subsingleton.elim _ _
    exact bcast_coord (j 1)

-- Both tables hold x k at (k, 0): row-major position k * 1 + 0, and the coordinate on the broadcast axis.
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  have h1 : (j 1).val = 0 := Nat.lt_one_iff.mp (j 1).isLt
  refine (shapeCast_apply x h j (ix1 (j 0)) ?_).trans
    (broadcastInDim_apply ![0] hb x j (ix1 (j 0)) fun a => ?_).symm
  · rw [Shape.rowMajor_val_one, Shape.rowMajor_val_two]
    show (j 0).val = (j 0).val * 1 + (j 1).val
    rw [h1, Nat.mul_one, Nat.add_zero]
  · obtain rfl : a = 0 := Subsingleton.elim _ _
    exact bcast_coord (j 0)

end Idealize.ShloMosaic.ReshapeAsBroadcast

end
-- ==== Proof.BridgeWeights.lean ====
import proofs.«424575_j83829171683414_1_alg».proof.Proof.KI.Chain
import proofs.«424575_j83829171683414_1_alg».proof.Proof.RefRead
import proofs.«424575_j83829171683414_1_alg».proof.Proof.LibReshapeAsBroadcast
import Idealize.ShloMosaic.Lib.StableHlo.Run

set_option maxRecDepth 16384

noncomputable section

namespace Cert.Bridge

open Cert.KernelIdeal Cert.KernelIdeal.Gen Cert.KernelIdeal.Hand Cert.ReferenceIdeal.ReadP
open Idealize.ShloMosaic Idealize.ShloMosaic.TcCoe Idealize.SL Idealize.SL.Sem Idealize.ShloMosaic.ValueIdx

variable (m : (ℓ : Loc nD τ sig) → Buf (Elt Ideal) ℓ) (c : Dev nD)

section
variable (r : Ref sig .tc)
theorem U1_of (h : r ∉ hostOps0_W) : U1 m c r = U0 m c r :=
  StableHlo.after_of_writes_sub hostOps0 _ hostOps0_writes h
theorem U2_of (h : r ≠ main_v6) : U2 m c r = U1 m c r :=
  Function.update_of_ne (StableHlo.devRef_ne_of_ne h) _ _
theorem U3_of (h : r ∉ hostOps1_W) : U3 m c r = U2 m c r :=
  StableHlo.after_of_writes_sub hostOps1 _ hostOps1_writes h
theorem U4_of (h : r ≠ main_v9) : U4 m c r = U3 m c r :=
  Function.update_of_ne (StableHlo.devRef_ne_of_ne h) _ _
theorem U5_of (h : r ∉ hostOps2_W) : U5 m c r = U4 m c r :=
  StableHlo.after_of_writes_sub hostOps2 _ hostOps2_writes h
theorem U6_of (h : r ∉ hostOps2_1_W) : U6 m c r = U5 m c r :=
  StableHlo.after_of_writes_sub hostOps2_1 _ hostOps2_1_writes h
theorem U7_of (h : r ∉ hostOps2_2_W) : U7 m c r = U6 m c r :=
  StableHlo.after_of_writes_sub hostOps2_2 _ hostOps2_2_writes h
theorem U8_of (h : r ≠ main_v17) : U8 m c r = U7 m c r :=
  Function.update_of_ne (StableHlo.devRef_ne_of_ne h) _ _
theorem U9_of (h : r ∉ hostOps3_W) : U9 m c r = U8 m c r :=
  StableHlo.after_of_writes_sub hostOps3 _ hostOps3_writes h
theorem U10_of (h : r ≠ main_v30) : U10 m c r = U9 m c r :=
  Function.update_of_ne (StableHlo.devRef_ne_of_ne h) _ _
theorem U11_of (h : r ∉ hostOps4_W) : U11 m c r = U10 m c r :=
  StableHlo.after_of_writes_sub hostOps4 _ hostOps4_writes h
theorem U12_of (h : r ∉ hostOps4_1_W) : U12 m c r = U11 m c r :=
  StableHlo.after_of_writes_sub hostOps4_1 _ hostOps4_1_writes h
theorem U13_of (h : r ∉ hostOps4_2_W) : U13 m c r = U12 m c r :=
  StableHlo.after_of_writes_sub hostOps4_2 _ hostOps4_2_writes h
theorem U14_of (h : r ≠ main_v38) : U14 m c r = U13 m c r :=
  Function.update_of_ne (StableHlo.devRef_ne_of_ne h) _ _
theorem U15_of (h : r ∉ hostOps5_W) : U15 m c r = U14 m c r :=
  StableHlo.after_of_writes_sub hostOps5 _ hostOps5_writes h
theorem U16_of (h : r ≠ main_v51) : U16 m c r = U15 m c r :=
  Function.update_of_ne (StableHlo.devRef_ne_of_ne h) _ _
theorem U17_of (h : r ∉ hostOps6_W) : U17 m c r = U16 m c r :=
  StableHlo.after_of_writes_sub hostOps6 _ hostOps6_writes h
theorem U18_of (h : r ∉ hostOps6_1_W) : U18 m c r = U17 m c r :=
  StableHlo.after_of_writes_sub hostOps6_1 _ hostOps6_1_writes h
theorem U19_of (h : r ∉ hostOps6_2_W) : U19 m c r = U18 m c r :=
  StableHlo.after_of_writes_sub hostOps6_2 _ hostOps6_2_writes h
theorem U20_of (h : r ≠ main_v59) : U20 m c r = U19 m c r :=
  Function.update_of_ne (StableHlo.devRef_ne_of_ne h) _ _
theorem U21_of (h : r ∉ hostOps7_W) : U21 m c r = U20 m c r :=
  StableHlo.after_of_writes_sub hostOps7 _ hostOps7_writes h
theorem U22_of (h : r ≠ main_v72) : U22 m c r = U21 m c r :=
  Function.update_of_ne (StableHlo.devRef_ne_of_ne h) _ _
theorem U23_of (h : r ∉ hostOps8_W) : U23 m c r = U22 m c r :=
  StableHlo.after_of_writes_sub hostOps8 _ hostOps8_writes h
theorem U24_of (h : r ≠ main_v87) : U24 m c r = U23 m c r :=
  Function.update_of_ne (StableHlo.devRef_ne_of_ne h) _ _
end

local macro "carry_back" : tactic => `(tactic| repeat (first
  | (rw [U24_of]; rotate_left; decide)
  | (rw [U23_of]; rotate_left; decide)
  | (rw [U22_of]; rotate_left; decide)
  | (rw [U21_of]; rotate_left; decide)
  | (rw [U20_of]; rotate_left; decide)
  | (rw [U19_of]; rotate_left; decide)
  | (rw [U18_of]; rotate_left; decide)
  | (rw [U17_of]; rotate_left; decide)
  | (rw [U16_of]; rotate_left; decide)
  | (rw [U15_of]; rotate_left; decide)
  | (rw [U14_of]; rotate_left; decide)
  | (rw [U13_of]; rotate_left; decide)
  | (rw [U12_of]; rotate_left; decide)
  | (rw [U11_of]; rotate_left; decide)
  | (rw [U10_of]; rotate_left; decide)
  | (rw [U9_of]; rotate_left; decide)
  | (rw [U8_of]; rotate_left; decide)
  | (rw [U7_of]; rotate_left; decide)
  | (rw [U6_of]; rotate_left; decide)
  | (rw [U5_of]; rotate_left; decide)
  | (rw [U4_of]; rotate_left; decide)
  | (rw [U3_of]; rotate_left; decide)
  | (rw [U2_of]; rotate_left; decide)
  | (rw [U1_of]; rotate_left; decide)))

theorem arg2_U1 : U1 m c main_arg2 = U0 m c main_arg2 := by carry_back
theorem arg0_U3 : U3 m c main_arg0 = U0 m c main_arg0 := by carry_back

theorem w_r0_v4 : U1 m c main_v4 = val_main_v4 (F := Ideal) (U0 m c main_arg4) := by
  dsimp only [U1, hostOps0]; after_results; rfl
theorem w_r0_v5 : U1 m c main_v5 = val_main_v6 (F := Ideal) (U0 m c main_arg5) := by
  dsimp only [U1, hostOps0]; after_results
  exact ReshapeAsBroadcast.shapeCast_row 16 _ _ _
theorem w_r1_v7 : U3 m c main_v7 = val_main_v10 (F := Ideal) (U0 m c main_arg6) := by
  dsimp only [U3, hostOps1]; after_results; carry_back <;> rfl
theorem w_r1_v8 : U3 m c main_v8 = val_main_v12 (F := Ideal) (U0 m c main_arg7) := by
  dsimp only [U3, hostOps1]; after_results; carry_back
  exact ReshapeAsBroadcast.shapeCast_row 256 _ _ _
theorem w_r2_v13 : U7 m c main_v13 = val_main_v31 (F := Ideal) (U0 m c main_arg8) := by
  dsimp only [U7, hostOps2_2]; after_results; carry_back <;> rfl
theorem w_r2_v15 : U7 m c main_v15 = val_main_v33 (F := Ideal) (U0 m c main_arg9) := by
  dsimp only [U7, hostOps2_2]; after_results; carry_back
  exact ReshapeAsBroadcast.shapeCast_row 512 _ _ _
theorem w_r2_v14 : U7 m c main_v14 = val_main_v37 (F := Ideal) (U0 m c main_arg10) := by
  dsimp only [U7, hostOps2_2]; after_results; carry_back <;> rfl
theorem w_r2_v16 : U7 m c main_v16 = val_main_v39 (F := Ideal) (U0 m c main_arg11) := by
  dsimp only [U7, hostOps2_2]; after_results; carry_back
  exact ReshapeAsBroadcast.shapeCast_row 256 _ _ _
theorem w_r3_v26 : U9 m c main_v26 = val_main_v63 (F := Ideal) (U0 m c main_arg20) := by
  dsimp only [U9, hostOps3]; after_results; carry_back
  exact ReshapeAsBroadcast.shapeCast_row 256 _ _ _
theorem w_r3_v27 : U9 m c main_v27 = val_main_v66 (F := Ideal) (U0 m c main_arg21) := by
  dsimp only [U9, hostOps3]; after_results; carry_back
  exact ReshapeAsBroadcast.shapeCast_row 256 _ _ _
theorem w_r3_v28 : U9 m c main_v28 = val_main_v54 (F := Ideal) (U0 m c main_arg22) := by
  dsimp only [U9, hostOps3]; after_results; carry_back
  exact ReshapeAsBroadcast.shapeCast_row 256 _ _ _
theorem w_r3_v29 : U9 m c main_v29 = broadcastInDim Cert.ReferenceIdeal.S1x256 ![1] Cert.ReferenceIdeal.Gen.bcast_S256_S1x256_1 (U0 m c main_arg23) := by
  dsimp only [U9, hostOps3]; after_results; carry_back
  exact ReshapeAsBroadcast.shapeCast_row 256 _ _ _
theorem w_r4_v34 : U13 m c main_v34 = val_main_v85 (F := Ideal) (U0 m c main_arg12) := by
  dsimp only [U13, hostOps4_2]; after_results; carry_back <;> rfl
theorem w_r4_v36 : U13 m c main_v36 = val_main_v87 (F := Ideal) (U0 m c main_arg13) := by
  dsimp only [U13, hostOps4_2]; after_results; carry_back
  exact ReshapeAsBroadcast.shapeCast_row 512 _ _ _
theorem w_r4_v35 : U13 m c main_v35 = val_main_v91 (F := Ideal) (U0 m c main_arg14) := by
  dsimp only [U13, hostOps4_2]; after_results; carry_back <;> rfl
theorem w_r4_v37 : U13 m c main_v37 = val_main_v93 (F := Ideal) (U0 m c main_arg15) := by
  dsimp only [U13, hostOps4_2]; after_results; carry_back
  exact ReshapeAsBroadcast.shapeCast_row 256 _ _ _
theorem w_r5_v47 : U15 m c main_v47 = val_main_v117 (F := Ideal) (U0 m c main_arg24) := by
  dsimp only [U15, hostOps5]; after_results; carry_back
  exact ReshapeAsBroadcast.shapeCast_row 256 _ _ _
theorem w_r5_v48 : U15 m c main_v48 = val_main_v120 (F := Ideal) (U0 m c main_arg25) := by
  dsimp only [U15, hostOps5]; after_results; carry_back
  exact ReshapeAsBroadcast.shapeCast_row 256 _ _ _
theorem w_r5_v49 : U15 m c main_v49 = val_main_v108 (F := Ideal) (U0 m c main_arg26) := by
  dsimp only [U15, hostOps5]; after_results; carry_back
  exact ReshapeAsBroadcast.shapeCast_row 256 _ _ _
theorem w_r5_v50 : U15 m c main_v50 = broadcastInDim Cert.ReferenceIdeal.S1x256 ![1] Cert.ReferenceIdeal.Gen.bcast_S256_S1x256_1 (U0 m c main_arg27) := by
  dsimp only [U15, hostOps5]; after_results; carry_back
  exact ReshapeAsBroadcast.shapeCast_row 256 _ _ _
theorem w_r6_v55 : U19 m c main_v55 = val_main_v139 (F := Ideal) (U0 m c main_arg16) := by
  dsimp only [U19, hostOps6_2]; after_results; carry_back <;> rfl
theorem w_r6_v57 : U19 m c main_v57 = val_main_v141 (F := Ideal) (U0 m c main_arg17) := by
  dsimp only [U19, hostOps6_2]; after_results; carry_back
  exact ReshapeAsBroadcast.shapeCast_row 256 _ _ _
theorem w_r6_v56 : U19 m c main_v56 = val_main_v145 (F := Ideal) (U0 m c main_arg18) := by
  dsimp only [U19, hostOps6_2]; after_results; carry_back <;> rfl
theorem w_r6_v58 : U19 m c main_v58 = val_main_v147 (F := Ideal) (U0 m c main_arg19) := by
  dsimp only [U19, hostOps6_2]; after_results; carry_back
  exact ReshapeAsBroadcast.shapeCast_row 128 _ _ _
theorem w_r7_v68 : U21 m c main_v68 = val_main_v171 (F := Ideal) (U0 m c main_arg28) := by
  dsimp only [U21, hostOps7]; after_results; carry_back
  exact ReshapeAsBroadcast.shapeCast_row 128 _ _ _
theorem w_r7_v69 : U21 m c main_v69 = val_main_v174 (F := Ideal) (U0 m c main_arg29) := by
  dsimp only [U21, hostOps7]; after_results; carry_back
  exact ReshapeAsBroadcast.shapeCast_row 128 _ _ _
theorem w_r7_v70 : U21 m c main_v70 = val_main_v162 (F := Ideal) (U0 m c main_arg30) := by
  dsimp only [U21, hostOps7]; after_results; carry_back
  exact ReshapeAsBroadcast.shapeCast_row 128 _ _ _
theorem w_r7_v71 : U21 m c main_v71 = broadcastInDim Cert.ReferenceIdeal.S1x128 ![1] Cert.ReferenceIdeal.Gen.bcast_S128_S1x128_1 (U0 m c main_arg31) := by
  dsimp only [U21, hostOps7]; after_results; carry_back
  exact ReshapeAsBroadcast.shapeCast_row 128 _ _ _
theorem w_r8_v85 : U23 m c main_v85 = val_main_v190 (F := Ideal) (U0 m c main_arg32) := by
  dsimp only [U23, hostOps8]; after_results; carry_back <;> rfl
theorem w_r8_v86 : U23 m c main_v86 = val_main_v192 (F := Ideal) (U0 m c main_arg33) := by
  dsimp only [U23, hostOps8]; after_results; carry_back
  exact ReshapeAsBroadcast.shapeCast_row 12 _ _ _

theorem keep_v6_U6 : U6 m c main_v6 = o2 m c := by
  carry_back <;> exact Function.update_self ..
theorem keep_v6_U12 : U12 m c main_v6 = o2 m c := by
  carry_back <;> exact Function.update_self ..
theorem keep_v6_U18 : U18 m c main_v6 = o2 m c := by
  carry_back <;> exact Function.update_self ..
theorem keep_v9_U4 : U4 m c main_v9 = o4 m c := by
  carry_back <;> exact Function.update_self ..
theorem keep_v9_U5 : U5 m c main_v9 = o4 m c := by
  carry_back <;> exact Function.update_self ..
theorem keep_v30_U10 : U10 m c main_v30 = o10 m c := by
  carry_back <;> exact Function.update_self ..
theorem keep_v30_U11 : U11 m c main_v30 = o10 m c := by
  carry_back <;> exact Function.update_self ..
theorem keep_v51_U16 : U16 m c main_v51 = o16 m c := by
  carry_back <;> exact Function.update_self ..
theorem keep_v51_U17 : U17 m c main_v51 = o16 m c := by
  carry_back <;> exact Function.update_self ..

theorem idx_v1_U1 : U1 m c main_v1 = val_main_v1 (F := Ideal) (m ((c : Thread nD τ).loc main_arg1)) := by
  dsimp only [U1, hostOps0]; after_results; rfl
theorem idx_v1_U5 : U5 m c main_v1 = val_main_v1 (F := Ideal) (m ((c : Thread nD τ).loc main_arg1)) := by
  carry_back <;> exact idx_v1_U1 m c
theorem idx_v1_U11 : U11 m c main_v1 = val_main_v1 (F := Ideal) (m ((c : Thread nD τ).loc main_arg1)) := by
  carry_back <;> exact idx_v1_U1 m c
theorem idx_v1_U17 : U17 m c main_v1 = val_main_v1 (F := Ideal) (m ((c : Thread nD τ).loc main_arg1)) := by
  carry_back <;> exact idx_v1_U1 m c
theorem idx_v3_U1 : U1 m c main_v3 = val_main_v3 (F := Ideal) (m ((c : Thread nD τ).loc main_arg1)) := by
  dsimp only [U1, hostOps0]; after_results; rfl
theorem idx_v3_U4 : U4 m c main_v3 = val_main_v3 (F := Ideal) (m ((c : Thread nD τ).loc main_arg1)) := by
  carry_back <;> exact idx_v3_U1 m c
theorem idx_v3_U10 : U10 m c main_v3 = val_main_v3 (F := Ideal) (m ((c : Thread nD τ).loc main_arg1)) := by
  carry_back <;> exact idx_v3_U1 m c
theorem idx_v3_U16 : U16 m c main_v3 = val_main_v3 (F := Ideal) (m ((c : Thread nD τ).loc main_arg1)) := by
  carry_back <;> exact idx_v3_U1 m c

/-- Two arrays that are one function of the coordinates, entry by entry, are equal. -/
theorem eq_of_read {M N : ℕ} {o r : (⟨2, ![M, N]⟩ : Shape).Idx → EReal} {f : Fin M → Fin N → EReal}
    (ho : ∀ a b, o (ix2 a b) = f a b) (hr : ∀ a b, r (ix2 a b) = f a b) : o = r := by
  funext i
  obtain ⟨a, b, rfl⟩ : ∃ a b, i = ix2 a b := ⟨i 0, i 1, eq_ix2 i⟩
  exact (ho a b).trans (hr a b).symm

end Cert.Bridge

end
-- ==== Proof.BridgeLin.lean ====
import proofs.«424575_j83829171683414_1_alg».proof.Proof.KI.Val0
import proofs.«424575_j83829171683414_1_alg».proof.Proof.KI.Val1
import proofs.«424575_j83829171683414_1_alg».proof.Proof.RefLin
import proofs.«424575_j83829171683414_1_alg».proof.Proof.BridgeWeights

set_option maxRecDepth 16384

noncomputable section

namespace Cert.Bridge

open Cert.KernelIdeal Cert.KernelIdeal.Gen Cert.KernelIdeal.Hand Cert.ReferenceIdeal.ReadP Cert.RefLegs
open Idealize.ShloMosaic Idealize.ShloMosaic.TcCoe Idealize.SL Idealize.SL.Sem Idealize.ShloMosaic.ValueIdx

variable (m : (ℓ : Loc nD τ sig) → Buf (Elt Ideal) ℓ) (c : Dev nD)

theorem e_eq : o2 m c = val_main_v9 (F := Ideal) (U0 m c main_arg2) (U0 m c main_arg4) (U0 m c main_arg5) :=
  eq_of_read (final0 (atRefs (U1 m)) c) fun a b => by
    rw [e_leg, ← arg2_U1 m c, ← w_r0_v4 m c, ← w_r0_v5 m c]

theorem h0_eq : o4 m c = val_main_v15 (F := Ideal) (U0 m c main_arg0) (U0 m c main_arg6) (U0 m c main_arg7) :=
  eq_of_read (final1 (atRefs (U3 m)) c) fun a b => by
    rw [h0_leg, ← arg0_U3 m c, ← w_r1_v7 m c, ← w_r1_v8 m c]

end Cert.Bridge

end
-- ==== Proof.PreFacts.lean ====
import proofs.«424575_j83829171683414_1_alg».proof.Defs
import Idealize.ShloMosaic.Lib.ReduceAll
import Idealize.ShloMosaic.PureOps.Ideal.Laws
import Idealize.ShloMosaic.Lib.ValueIdx

noncomputable section

namespace Cert.PreFacts

open Idealize.ShloMosaic Idealize.ShloMosaic.TcCoe Idealize.SL.Sem

instance subsingleton_idx_rank_zero : Subsingleton (⟨0, ![]⟩ : Shape).Idx := ⟨fun a b => funext fun d => d.elim0⟩

-- The comparison bit of "x is at least 0.0" is one only if 0 ≤ x in the extended reals.
theorem nonneg_of_oge {x : EReal} (h : Ideal.cmp .oge x (Ideal.ofBits .f32 0x00000000#32) = 1#1) : 0 ≤ x := by
  rw [Ideal.ofBits_zero_f32] at h
  by_contra hn
  simp [Ideal.cmp, hn] at h

section Tail

variable [Cert.Pre_finite_inputs.Facts]

open Cert.Pre_finite_inputs in
-- A conjunction that is one has every conjunct one, and a reduction by conjunction that is one met a one at every entry.
theorem of_part9 (a1 : IVec S2x200000 32) (a23 a27 : FVec Ideal S256 .f32) (a31 : FVec Ideal S128 .f32)
    (a33 : FVec Ideal S12 .f32) (v153 : IVec S_ 1) (j : S_.Idx)
    (h : fn_part9 (F := Ideal) a1 a23 a27 a31 a33 v153 j = 1#1) :
    (∀ i, 0 ≤ (a1 i).toInt ∧ (a1 i).toInt < 20000) ∧ (∀ k, (0 : EReal) ≤ a23 k) ∧ (∀ k, (0 : EReal) ≤ a27 k)
      ∧ (∀ k, (0 : EReal) ≤ a31 k) := by
  unfold fn_part9 fn_part10 at h
  dsimp only [Idealize.ShloMosaic.andi] at h
  simp only [IntOp.andi_eq_one] at h
  obtain ⟨⟨⟨⟨⟨-, hge⟩, hlt⟩, h23⟩, h27⟩, h31⟩ := h
  refine ⟨fun i => ⟨?_, ?_⟩, fun k => nonneg_of_oge (Host.reduce_andi_all _ _ _ _ j h23 k),
    fun k => nonneg_of_oge (Host.reduce_andi_all _ _ _ _ j h27 k), fun k => nonneg_of_oge (Host.reduce_andi_all _ _ _ _ j h31 k)⟩
  · have h : IntOp.cmpi .sge (a1 i) 0#32 = 1#1 := Host.reduce_andi_all _ _ _ _ j hge i
    simpa using IntOp.cmpi_sge.1 h
  · have h : IntOp.cmpi .slt (a1 i) 20000#32 = 1#1 := Host.reduce_andi_all _ _ _ _ j hlt i
    simpa using IntOp.cmpi_slt.1 h

end Tail

section AtMemory

open Cert.KernelIdeal

variable [Cert.Pre_finite_inputs.Facts]
variable (m : (ℓ : Loc nD τ sig) → Buf (Elt Ideal) ℓ)

theorem facts (h : Cert.Pre_KernelIdeal m) (c : Dev nD) :
    (∀ i : S2x200000.Idx, 0 ≤ (m ((c.tc : Thread nD τ).loc main_arg1) i).toInt ∧ (m ((c.tc : Thread nD τ).loc main_arg1) i).toInt < 20000)
      ∧ (∀ k : S256.Idx, (0 : EReal) ≤ m ((c.tc : Thread nD τ).loc main_arg23) k)
      ∧ (∀ k : S256.Idx, (0 : EReal) ≤ m ((c.tc : Thread nD τ).loc main_arg27) k)
      ∧ (∀ k : S128.Idx, (0 : EReal) ≤ m ((c.tc : Thread nD τ).loc main_arg31) k) := by
  have e := congrFun (h c) ValueIdx.ix0
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 Cert.Pre_finite_inputs.fn_part6 Cert.Pre_finite_inputs.fn_part7 Cert.Pre_finite_inputs.fn_part8 at e
  exact of_part9 _ _ _ _ _ _ _ e

theorem idx_range_ix2 (h : Cert.Pre_KernelIdeal m) (c : Dev nD) (r : Fin 2) (e : Fin 200000) :
    0 ≤ (m ((c.tc : Thread nD τ).loc main_arg1) (ValueIdx.ix2 r e)).toInt ∧ (m ((c.tc : Thread nD τ).loc main_arg1) (ValueIdx.ix2 r e)).toInt < 20000 :=
  (facts m h c).1 _

theorem var0_nonneg (h : Cert.Pre_KernelIdeal m) (c : Dev nD) (j : S256.Idx) :
    (0 : EReal) ≤ m ((c.tc : Thread nD τ).loc main_arg23) j :=
  (facts m h c).2.1 j

theorem var1_nonneg (h : Cert.Pre_KernelIdeal m) (c : Dev nD) (j : S256.Idx) :
    (0 : EReal) ≤ m ((c.tc : Thread nD τ).loc main_arg27) j :=
  (facts m h c).2.2.1 j

theorem var2_nonneg (h : Cert.Pre_KernelIdeal m) (c : Dev nD) (j : S128.Idx) :
    (0 : EReal) ≤ m ((c.tc : Thread nD τ).loc main_arg31) j :=
  (facts m h c).2.2.2 j

end AtMemory

end Cert.PreFacts

end
-- ==== Proof.TakeRows.lean ====
import Idealize.ShloMosaic.PureOps
import Idealize.ShloMosaic.PureOps.Ideal
import Idealize.ShloMosaic.Lib.ReduceAll
import Idealize.ShloMosaic.Lib.ValueIdx
import Idealize.ShloMosaic.Lib.StableHlo.Predicate
import Idealize.ShloMosaic.Lib.DynamicIndex

noncomputable section

namespace Cert.TakeRows

open Idealize.ShloMosaic Idealize.ShloMosaic.StableHlo.Predicate
open Idealize.ShloMosaic.ValueIdx

-- A word whose signed reading lies in [0, 20000) is below 20000 read unsigned.
theorem toNat_of_toInt_range {w : BitVec 32} (h0 : 0 ≤ w.toInt) (h1 : w.toInt < 20000) : w.toNat < 20000 := by
  have hlt := w.isLt
  rw [BitVec.toInt_eq_toNat_cond] at h0 h1
  split at h0 <;> split at h1 <;> omega

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (f a) = 1#1 := by rw [h a (List.mem_cons_self ..)]; decide
    rw [List.foldl_cons, e]
    exact foldl_andi_one f l fun n hn => h n (List.mem_cons_of_mem _ hn)

-- A reduce by and, from 1, of a mask that is 1 everywhere is 1 everywhere.
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun i _ => hx i

local notation "SE" => (⟨1, ![200000]⟩ : Shape)
local notation "SE1" => (⟨2, ![200000, 1]⟩ : Shape)
local notation "SEC" => (⟨2, ![200000, 256]⟩ : Shape)
local notation "SNC" => (⟨2, ![20000, 256]⟩ : Shape)
local notation "S0" => (⟨0, ![]⟩ : Shape)
local notation "S1" => (⟨1, ![1]⟩ : Shape)
local notation "S11" => (⟨2, ![1, 1]⟩ : Shape)

section Mask
variable (hb01 : Shape.BroadcastsInDim S0 SE1 (![] : Fin 0 → Fin (Shape.rank SE1)))
  (hb1 : Shape.BroadcastsInDim S1 S11 (![1] : Fin 1 → Fin (Shape.rank S11)))
  (hb11 : Shape.BroadcastsInDim S11 SE1 (![0, 1] : Fin 2 → Fin (Shape.rank SE1)))
  (hred : Shape.ReducesTo SE1 [1] SE) (h0 : 0 < Shape.numel S0)
  (hbm : Shape.BroadcastsInDim SE SEC (![0] : Fin 1 → Fin (Shape.rank SEC)))

theorem inRange_apply (col : IVec SE1 32) (hcol : ∀ i, (col i).toNat ≤ 19999) (i : Shape.Idx SE1) :
    andi (cmpi .sge col (broadcastInDim SE1 ![] hb01 (constantI S0 32 0#32)))
      (cmpi .sle col (broadcastInDim SE1 ![0, 1] hb11 (broadcastInDim S11 ![1] hb1 (constantI S1 32 19999#32)))) i
      = 1#1 := by
  show IntOp.andi (IntOp.cmpi .sge (col i) 0#32) (IntOp.cmpi .sle (col i) 19999#32) = 1#1
  have hc := hcol i
  have z : (0#32 : BitVec 32).toNat = 0 := by decide
  have m : (19999#32 : BitVec 32).toNat = 19999 := by decide
  rw [IntOp.andi_eq_one]
  exact ⟨(sge_iff_toNat (by omega) (by omega)).mpr (by omega), (sle_iff_toNat (by omega) (by omega)).mpr (by omega)⟩

theorem mask_apply (col : IVec SE1 32) (hcol : ∀ i, (col i).toNat ≤ 19999) (i : Shape.Idx SEC) :
    broadcastInDim SEC ![0] hbm
      (Host.reduce IntOp.andi
        (andi (cmpi .sge col (broadcastInDim SE1 ![] hb01 (constantI S0 32 0#32)))
          (cmpi .sle col (broadcastInDim SE1 ![0, 1] hb11 (broadcastInDim S11 ![1] hb1 (constantI S1 32 19999#32)))))
        (constantI S0 1 1#1) hred h0) i = 1#1 := by
  unfold broadcastInDim
  exact reduce_andi_of_all _ _ hred h0 rfl (inRange_apply hb01 hb1 hb11 col hcol) _

-- With every start index at most 19999 the range mask is 1 everywhere, so the select is its first operand.
theorem select_mask_eq {α : Type} (col : IVec SE1 32) (hcol : ∀ i, (col i).toNat ≤ 19999) (a b : Shape.Idx SEC → α) :
    select
      (broadcastInDim SEC ![0] hbm
        (Host.reduce IntOp.andi
          (andi (cmpi .sge col (broadcastInDim SE1 ![] hb01 (constantI S0 32 0#32)))
            (cmpi .sle col (broadcastInDim SE1 ![0, 1] hb11 (broadcastInDim S11 ![1] hb1 (constantI S1 32 19999#32)))))
          (constantI S0 1 1#1) hred h0))
      a b = a := by
  funext i
  rw [select_apply, mask_apply hb01 hb1 hb11 hred h0 hbm col hcol i, select_one]

end Mask

section Take
variable (hb0 : Shape.BroadcastsInDim S0 SE (![] : Fin 0 → Fin (Shape.rank SE)))
  (hbc : Shape.BroadcastsInDim SE SE1 (![0] : Fin 1 → Fin (Shape.rank SE1)))
  (hb01 : Shape.BroadcastsInDim S0 SE1 (![] : Fin 0 → Fin (Shape.rank SE1)))
  (hb1 : Shape.BroadcastsInDim S1 S11 (![1] : Fin 1 → Fin (Shape.rank S11)))
  (hb11 : Shape.BroadcastsInDim S11 SE1 (![0, 1] : Fin 2 → Fin (Shape.rank SE1)))
  (hred : Shape.ReducesTo SE1 [1] SE) (h0 : 0 < Shape.numel S0)
  (hbm : Shape.BroadcastsInDim SE SEC (![0] : Fin 1 → Fin (Shape.rank SEC)))
  (g : GatherDims SNC SE1 SEC)

-- Every index word, read signed, is a row number of the table.
def InRange (idx : IVec SE 32) : Prop := ∀ e : Fin 200000, 0 ≤ (idx (ix1 e)).toInt ∧ (idx (ix1 e)).toInt < 20000

theorem InRange.toNat_lt {idx : IVec SE 32} (h : InRange idx) (e : Fin 200000) : (idx (ix1 e)).toNat < 20000 :=
  toNat_of_toInt_range (h e).1 (h e).2

local notation "wrapCol[" hbc ", " hb0 ", " idx "]" =>
  broadcastInDim SE1 ![0] hbc
    (select (cmpi CmpIPredicate.slt idx (broadcastInDim SE ![] hb0 (constantI S0 32 0#32)))
      (addi idx (broadcastInDim SE ![] hb0 (constantI S0 32 20000#32))) idx)

theorem ix2_zero_eq_ixP (e : Fin 200000) : (ix2 e (0 : Fin 1) : Shape.Idx SE1) = ixP e := by
  funext d; match d with | ⟨0, _⟩ => rfl | ⟨1, _⟩ => rfl

theorem ofFin_eq_ix1 (e : Fin 200000) : (Shape.Idx.ofFin e : Shape.Idx SE) = ix1 e := by
  funext d; match d with | ⟨0, _⟩ => rfl

-- An index in range is not negative, so adding the row count to negative words leaves it.
theorem wrapCol_apply (idx : IVec SE 32) (hidx : InRange idx) (e : Fin 200000) :
    wrapCol[hbc, hb0, idx] (ix2 e (0 : Fin 1)) = idx (ix1 e) := by
  rw [ix2_zero_eq_ixP, bcast_col1 hbc, ofFin_eq_ix1]
  exact select_slt_zero_of_nonneg idx _ idx _ (hidx e).1

theorem wrapCol_toNat_le (idx : IVec SE 32) (hidx : InRange idx) (i : Shape.Idx SE1) :
    (wrapCol[hbc, hb0, idx] i).toNat ≤ 19999 := by
  obtain ⟨e, rfl⟩ : ∃ e : Fin 200000, i = ix2 e (0 : Fin 1) := ⟨i 0, funext fun d => by
    match d with
    | ⟨0, _⟩ => rfl
    | ⟨1, _⟩ => exact Subsingleton.elim (α := Fin 1) _ _⟩
  rw [wrapCol_apply hb0 hbc idx hidx e]
  have := hidx.toNat_lt e
  omega

-- With the indices in range the mask of the take is 1 everywhere: the take is its gather.
theorem take_eq_gather {α : Type} (x : Shape.Idx SNC → α) (idx : IVec SE 32) (hidx : InRange idx) (nan : Shape.Idx SEC → α) :
    select
      (broadcastInDim SEC ![0] hbm
        (Host.reduce IntOp.andi
          (andi (cmpi .sge wrapCol[hbc, hb0, idx] (broadcastInDim SE1 ![] hb01 (constantI S0 32 0#32)))
            (cmpi .sle wrapCol[hbc, hb0, idx]
              (broadcastInDim SE1 ![0, 1] hb11 (broadcastInDim S11 ![1] hb1 (constantI S1 32 19999#32)))))
          (constantI S0 1 1#1) hred h0))
      (Host.gather g x wrapCol[hbc, hb0, idx]) nan
      = Host.gather g x wrapCol[hbc, hb0, idx] :=
  select_mask_eq hb01 hb1 hb11 hred h0 hbm _ (wrapCol_toNat_le hb0 hbc idx hidx) _ _

end Take

end Cert.TakeRows

end
-- ==== Proof.BridgeTakeCol.lean ====
import proofs.«424575_j83829171683414_1_alg».proof.Proof.Gen.KernelIdeal

noncomputable section

namespace Cert.Bridge

open Cert.KernelIdeal Cert.KernelIdeal.Gen
open Idealize.ShloMosaic

abbrev takeCol (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 20000#32))) idx)

end Cert.Bridge

end
-- ==== Proof.BridgeTakeRun0.lean ====
import proofs.«424575_j83829171683414_1_alg».proof.Proof.Gen.KernelIdeal.Launch
import proofs.«424575_j83829171683414_1_alg».proof.Proof.TakeRows
import proofs.«424575_j83829171683414_1_alg».proof.Proof.BridgeTakeCol
import Idealize.ShloMosaic.Lib.StableHlo.Run

set_option maxRecDepth 16384

noncomputable section

namespace Cert.Bridge

open Cert.KernelIdeal Cert.KernelIdeal.Gen
open Idealize.ShloMosaic Idealize.ShloMosaic.TcCoe
open Idealize.SL Idealize.SL.Sem

set_option maxHeartbeats 1000000 in
theorem take0_after (W : Valuation τ sig (Elt Ideal)) (hidx : Cert.TakeRows.InRange (W main_v3)) :
    (StableHlo.after hostOps2 W main_v10 : S200000x256.Idx → EReal)
      = Host.gather gather_S20000x256_S200000x1_S200000x256_1_0_n_n_0_1_1256 (W main_v9) (takeCol (W main_v3)) := by
  unfold hostOps2
  after_results_simp
  simp only [StableHlo.TRef.ofBuf, StableHlo.TRef.toBuf, cast_cast, cast_eq]
  exact Cert.TakeRows.take_eq_gather _ _ _ _ _ _ _ _ _ _ _ hidx _

set_option maxHeartbeats 1000000 in
theorem take1_after (W : Valuation τ sig (Elt Ideal)) (hidx : Cert.TakeRows.InRange (W main_v1)) :
    (StableHlo.after hostOps2_1 W main_v11 : S200000x256.Idx → EReal)
      = Host.gather gather_S20000x256_S200000x1_S200000x256_1_0_n_n_0_1_1256 (W main_v9) (takeCol (W main_v1)) := by
  unfold hostOps2_1
  after_results_simp
  simp only [StableHlo.TRef.ofBuf, StableHlo.TRef.toBuf, cast_cast, cast_eq]
  exact Cert.TakeRows.take_eq_gather _ _ _ _ _ _ _ _ _ _ _ hidx _

end Cert.Bridge

end
-- ==== Proof.BridgeTakeRun1.lean ====
import proofs.«424575_j83829171683414_1_alg».proof.Proof.Gen.KernelIdeal.Launch
import proofs.«424575_j83829171683414_1_alg».proof.Proof.TakeRows
import proofs.«424575_j83829171683414_1_alg».proof.Proof.BridgeTakeCol
import Idealize.ShloMosaic.Lib.StableHlo.Run

set_option maxRecDepth 16384

noncomputable section

namespace Cert.Bridge

open Cert.KernelIdeal Cert.KernelIdeal.Gen
open Idealize.ShloMosaic Idealize.ShloMosaic.TcCoe
open Idealize.SL Idealize.SL.Sem

set_option maxHeartbeats 1000000 in
theorem take2_after (W : Valuation τ sig (Elt Ideal)) (hidx : Cert.TakeRows.InRange (W main_v3)) :
    (StableHlo.after hostOps4 W main_v31 : S200000x256.Idx → EReal)
      = Host.gather gather_S20000x256_S200000x1_S200000x256_1_0_n_n_0_1_1256 (W main_v30) (takeCol (W main_v3)) := by
  unfold hostOps4
  after_results_simp
  simp only [StableHlo.TRef.ofBuf, StableHlo.TRef.toBuf, cast_cast, cast_eq]
  exact Cert.TakeRows.take_eq_gather _ _ _ _ _ _ _ _ _ _ _ hidx _

set_option maxHeartbeats 1000000 in
theorem take3_after (W : Valuation τ sig (Elt Ideal)) (hidx : Cert.TakeRows.InRange (W main_v1)) :
    (StableHlo.after hostOps4_1 W main_v32 : S200000x256.Idx → EReal)
      = Host.gather gather_S20000x256_S200000x1_S200000x256_1_0_n_n_0_1_1256 (W main_v30) (takeCol (W main_v1)) := by
  unfold hostOps4_1
  after_results_simp
  simp only [StableHlo.TRef.ofBuf, StableHlo.TRef.toBuf, cast_cast, cast_eq]
  exact Cert.TakeRows.take_eq_gather _ _ _ _ _ _ _ _ _ _ _ hidx _

end Cert.Bridge

end
-- ==== Proof.BridgeTakeRun2.lean ====
import proofs.«424575_j83829171683414_1_alg».proof.Proof.Gen.KernelIdeal.Launch
import proofs.«424575_j83829171683414_1_alg».proof.Proof.TakeRows
import proofs.«424575_j83829171683414_1_alg».proof.Proof.BridgeTakeCol
import Idealize.ShloMosaic.Lib.StableHlo.Run

set_option maxRecDepth 16384

noncomputable section

namespace Cert.Bridge

open Cert.KernelIdeal Cert.KernelIdeal.Gen
open Idealize.ShloMosaic Idealize.ShloMosaic.TcCoe
open Idealize.SL Idealize.SL.Sem

set_option maxHeartbeats 1000000 in
theorem take4_after (W : Valuation τ sig (Elt Ideal)) (hidx : Cert.TakeRows.InRange (W main_v3)) :
    (StableHlo.after hostOps6 W main_v52 : S200000x256.Idx → EReal)
      = Host.gather gather_S20000x256_S200000x1_S200000x256_1_0_n_n_0_1_1256 (W main_v51) (takeCol (W main_v3)) := by
  unfold hostOps6
  after_results_simp
  simp only [StableHlo.TRef.ofBuf, StableHlo.TRef.toBuf, cast_cast, cast_eq]
  exact Cert.TakeRows.take_eq_gather _ _ _ _ _ _ _ _ _ _ _ hidx _

set_option maxHeartbeats 1000000 in
theorem take5_after (W : Valuation τ sig (Elt Ideal)) (hidx : Cert.TakeRows.InRange (W main_v1)) :
    (StableHlo.after hostOps6_1 W main_v53 : S200000x256.Idx → EReal)
      = Host.gather gather_S20000x256_S200000x1_S200000x256_1_0_n_n_0_1_1256 (W main_v51) (takeCol (W main_v1)) := by
  unfold hostOps6_1
  after_results_simp
  simp only [StableHlo.TRef.ofBuf, StableHlo.TRef.toBuf, cast_cast, cast_eq]
  exact Cert.TakeRows.take_eq_gather _ _ _ _ _ _ _ _ _ _ _ hidx _

end Cert.Bridge

end
-- ==== Proof.BridgeTakeOf.lean ====
import proofs.«424575_j83829171683414_1_alg».proof.Proof.KI.Chain
import proofs.«424575_j83829171683414_1_alg».proof.Proof.RefRead
import proofs.«424575_j83829171683414_1_alg».proof.Proof.PreFacts
import proofs.«424575_j83829171683414_1_alg».proof.Proof.BridgeTakeRun0
import proofs.«424575_j83829171683414_1_alg».proof.Proof.BridgeTakeRun1
import proofs.«424575_j83829171683414_1_alg».proof.Proof.BridgeTakeRun2

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Cert.ReferenceIdeal.ReadP (val_main_v1 val_main_v3)

section AtMemory
variable [Cert.Pre_finite_inputs.Facts]
variable (m : (ℓ : Loc nD τ sig) → Buf (Elt Ideal) ℓ) (c : Dev nD)

theorem take_inRange_v3 (hp : Cert.Pre_KernelIdeal m) :
    Cert.TakeRows.InRange (val_main_v3 (F := Ideal) (m ((c.tc : Thread nD τ).loc main_arg1))) := fun e => by
  have h := Cert.PreFacts.idx_range_ix2 m hp c 1 e
  have hi : Cert.ReferenceIdeal.ReadP.idx_main_v2 (Cert.ReferenceIdeal.ReadP.idx_main_v3 (ValueIdx.ix1 e))
      = ValueIdx.ix2 (1 : Fin 2) e :=
    funext fun a => Fin.ext (by match a with | ⟨0, _⟩ => rfl | ⟨1, _⟩ => exact Nat.mod_eq_of_lt e.isLt)
  rw [Cert.ReferenceIdeal.ReadP.val_main_v3_apply, Cert.ReferenceIdeal.ReadP.val_main_v2_apply, hi]
  exact h

theorem take_inRange_v1 (hp : Cert.Pre_KernelIdeal m) :
    Cert.TakeRows.InRange (val_main_v1 (F := Ideal) (m ((c.tc : Thread nD τ).loc main_arg1))) := fun e => by
  have h := Cert.PreFacts.idx_range_ix2 m hp c 0 e
  have hi : Cert.ReferenceIdeal.ReadP.idx_main_v0 (Cert.ReferenceIdeal.ReadP.idx_main_v1 (ValueIdx.ix1 e))
      = ValueIdx.ix2 (0 : Fin 2) e :=
    funext fun a => Fin.ext (by match a with | ⟨0, _⟩ => rfl | ⟨1, _⟩ => exact Nat.mod_eq_of_lt e.isLt)
  rw [Cert.ReferenceIdeal.ReadP.val_main_v1_apply, Cert.ReferenceIdeal.ReadP.val_main_v0_apply, hi]
  exact h

end AtMemory

end Cert.Bridge

end
-- ==== Proof.BridgeTake.lean ====
import proofs.«424575_j83829171683414_1_alg».proof.Proof.BridgeTakeOf
import proofs.«424575_j83829171683414_1_alg».proof.Proof.BridgeWeights

set_option maxRecDepth 16384

noncomputable section

namespace Cert.Bridge

open Cert.KernelIdeal Cert.KernelIdeal.Gen Cert.KernelIdeal.Hand
open Idealize.ShloMosaic Idealize.ShloMosaic.TcCoe
open Idealize.SL Idealize.SL.Sem
open Cert.ReferenceIdeal.ReadP (val_main_v15 val_main_v22 val_main_v29 val_main_v69 val_main_v76 val_main_v83 val_main_v123
  val_main_v130 val_main_v137)

variable [Cert.Pre_finite_inputs.Facts]
variable (m : (ℓ : Loc nD τ sig) → Buf (Elt Ideal) ℓ) (c : Dev nD) (hp : Cert.Pre_KernelIdeal m)

section
variable (hh : o4 m c = val_main_v15 (F := Ideal) (m ((c.tc : Thread nD τ).loc main_arg0)) (m ((c.tc : Thread nD τ).loc main_arg6)) (m ((c.tc : Thread nD τ).loc main_arg7)))
include hp hh

theorem dst0_eq :
    U7 m c main_v10 = val_main_v22 (F := Ideal) (m ((c.tc : Thread nD τ).loc main_arg0)) (m ((c.tc : Thread nD τ).loc main_arg1)) (m ((c.tc : Thread nD τ).loc main_arg6)) (m ((c.tc : Thread nD τ).loc main_arg7)) := by
  have hidx : Cert.TakeRows.InRange (U4 m c main_v3) := by rw [idx_v3_U4 m c]; exact take_inRange_v3 m c hp
  have e : U7 m c main_v10 = StableHlo.after hostOps2 (U4 m c) main_v10 :=
    (StableHlo.after_of_writes_sub hostOps2_2 _ hostOps2_2_writes (by decide)).trans
      (StableHlo.after_of_writes_sub hostOps2_1 _ hostOps2_1_writes (by decide))
  rw [e, take0_after (U4 m c) hidx, idx_v3_U4 m c, (keep_v9_U4 m c).trans hh]
  rfl

theorem src0_eq :
    U7 m c main_v11 = val_main_v29 (F := Ideal) (m ((c.tc : Thread nD τ).loc main_arg0)) (m ((c.tc : Thread nD τ).loc main_arg1)) (m ((c.tc : Thread nD τ).loc main_arg6)) (m ((c.tc : Thread nD τ).loc main_arg7)) := by
  have hidx : Cert.TakeRows.InRange (U5 m c main_v1) := by rw [idx_v1_U5 m c]; exact take_inRange_v1 m c hp
  have e : U7 m c main_v11 = StableHlo.after hostOps2_1 (U5 m c) main_v11 :=
    StableHlo.after_of_writes_sub hostOps2_2 _ hostOps2_2_writes (by decide)
  rw [e, take1_after (U5 m c) hidx, idx_v1_U5 m c, (keep_v9_U5 m c).trans hh]
  rfl

end

section
variable (hh : o10 m c = val_main_v69 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg20)) (m ((c.tc : Thread nD τ).loc main_arg21)) (m ((c.tc : Thread nD τ).loc main_arg22)) (m ((c.tc : Thread nD τ).loc main_arg23)))
include hp hh

theorem dst1_eq :
    U13 m c main_v31 = val_main_v76 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg20)) (m ((c.tc : Thread nD τ).loc main_arg21)) (m ((c.tc : Thread nD τ).loc main_arg22)) (m ((c.tc : Thread nD τ).loc main_arg23)) := by
  have hidx : Cert.TakeRows.InRange (U10 m c main_v3) := by rw [idx_v3_U10 m c]; exact take_inRange_v3 m c hp
  have e : U13 m c main_v31 = StableHlo.after hostOps4 (U10 m c) main_v31 :=
    (StableHlo.after_of_writes_sub hostOps4_2 _ hostOps4_2_writes (by decide)).trans
      (StableHlo.after_of_writes_sub hostOps4_1 _ hostOps4_1_writes (by decide))
  rw [e, take2_after (U10 m c) hidx, idx_v3_U10 m c, (keep_v30_U10 m c).trans hh]
  rfl

theorem src1_eq :
    U13 m c main_v32 = val_main_v83 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg20)) (m ((c.tc : Thread nD τ).loc main_arg21)) (m ((c.tc : Thread nD τ).loc main_arg22)) (m ((c.tc : Thread nD τ).loc main_arg23)) := by
  have hidx : Cert.TakeRows.InRange (U11 m c main_v1) := by rw [idx_v1_U11 m c]; exact take_inRange_v1 m c hp
  have e : U13 m c main_v32 = StableHlo.after hostOps4_1 (U11 m c) main_v32 :=
    StableHlo.after_of_writes_sub hostOps4_2 _ hostOps4_2_writes (by decide)
  rw [e, take3_after (U11 m c) hidx, idx_v1_U11 m c, (keep_v30_U11 m c).trans hh]
  rfl

end

section
variable (hh : o16 m c = val_main_v123 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21)) (m ((c.tc : Thread nD τ).loc main_arg22))
      (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
include hp hh

theorem dst2_eq :
    U19 m c main_v52 = val_main_v130 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21)) (m ((c.tc : Thread nD τ).loc main_arg22))
      (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  have hidx : Cert.TakeRows.InRange (U16 m c main_v3) := by rw [idx_v3_U16 m c]; exact take_inRange_v3 m c hp
  have e : U19 m c main_v52 = StableHlo.after hostOps6 (U16 m c) main_v52 :=
    (StableHlo.after_of_writes_sub hostOps6_2 _ hostOps6_2_writes (by decide)).trans
      (StableHlo.after_of_writes_sub hostOps6_1 _ hostOps6_1_writes (by decide))
  rw [e, take4_after (U16 m c) hidx, idx_v3_U16 m c, (keep_v51_U16 m c).trans hh]
  rfl

theorem src2_eq :
    U19 m c main_v53 = val_main_v137 (F := Ideal) (m ((c.tc : Thread nD τ).loc main_arg0)) (m ((c.tc : Thread nD τ).loc main_arg1)) (m ((c.tc : Thread nD τ).loc main_arg2)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20)) (m ((c.tc : Thread nD τ).loc main_arg21)) (m ((c.tc : Thread nD τ).loc main_arg22))
      (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := by
  have hidx : Cert.TakeRows.InRange (U17 m c main_v1) := by rw [idx_v1_U17 m c]; exact take_inRange_v1 m c hp
  have e : U19 m c main_v53 = StableHlo.after hostOps6_1 (U17 m c) main_v53 :=
    StableHlo.after_of_writes_sub hostOps6_2 _ hostOps6_2_writes (by decide)
  rw [e, take5_after (U17 m c) hidx, idx_v1_U17 m c, (keep_v51_U17 m c).trans hh]
  rfl

end

end Cert.Bridge

end
-- ==== Proof.BridgeConcat.lean ====
import proofs.«424575_j83829171683414_1_alg».proof.Proof.BridgeWeights

set_option maxRecDepth 16384

noncomputable section

namespace Cert.Bridge

open Cert.KernelIdeal Cert.KernelIdeal.Gen Cert.KernelIdeal.Hand Cert.ReferenceIdeal.ReadP
open Idealize.ShloMosaic Idealize.ShloMosaic.TcCoe Idealize.SL Idealize.SL.Sem Idealize.ShloMosaic.ValueIdx

/-- Three row blocks side by side: 256, 256 and 16 columns. -/
def cat3 {F : FTy → Type} [FloatOps F] (x y : S200000x256.Idx → F .f32) (z : S200000x16.Idx → F .f32) : S200000x528.Idx → F .f32 :=
  concatenate S200000x528 1 [⟨S200000x256, x⟩, ⟨S200000x256, y⟩, ⟨S200000x16, z⟩] concatenates_S200000x256_S200000x256_S200000x16_S200000x528_d1

section
variable {F : FTy → Type} [FloatOps F] (W : Valuation τ sig (Elt F))
theorem after_join0 : (StableHlo.after hostOps2_2 W main_v12 : S200000x528.Idx → F .f32) = cat3 (W main_v10) (W main_v11) (W main_v6) := by
  after_results; rfl
theorem after_join1 : (StableHlo.after hostOps4_2 W main_v33 : S200000x528.Idx → F .f32) = cat3 (W main_v31) (W main_v32) (W main_v6) := by
  after_results; rfl
theorem after_join2 : (StableHlo.after hostOps6_2 W main_v54 : S200000x528.Idx → F .f32) = cat3 (W main_v52) (W main_v53) (W main_v6) := by
  after_results; rfl
end

variable (m : (ℓ : Loc nD τ sig) → Buf (Elt Ideal) ℓ) (c : Dev nD)

/-- The join a message region reads is the reference's join, once its three operands are the reference's. -/
theorem cat0_eq (hd : U7 m c main_v10 = val_main_v22 (F := Ideal) (U0 m c main_arg0) (U0 m c main_arg1) (U0 m c main_arg6) (U0 m c main_arg7))
    (hs : U7 m c main_v11 = val_main_v29 (F := Ideal) (U0 m c main_arg0) (U0 m c main_arg1) (U0 m c main_arg6) (U0 m c main_arg7))
    (he : o2 m c = val_main_v9 (F := Ideal) (U0 m c main_arg2) (U0 m c main_arg4) (U0 m c main_arg5)) :
    U7 m c main_v12 = val_main_v30 (F := Ideal) (U0 m c main_arg0) (U0 m c main_arg1) (U0 m c main_arg2) (U0 m c main_arg4) (U0 m c main_arg5) (U0 m c main_arg6) (U0 m c main_arg7) := by
  refine (after_join0 (U6 m c)).trans ?_
  rw [← U7_of m c main_v10 (by decide), ← U7_of m c main_v11 (by decide), keep_v6_U6 m c, hd, hs, he]
  rfl

theorem cat1_eq (hd : U13 m c main_v31 = val_main_v76 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg20) (U0 m c main_arg21) (U0 m c main_arg22) (U0 m c main_arg23))
    (hs : U13 m c main_v32 = val_main_v83 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg20) (U0 m c main_arg21) (U0 m c main_arg22) (U0 m c main_arg23))
    (he : o2 m c = val_main_v9 (F := Ideal) (U0 m c main_arg2) (U0 m c main_arg4) (U0 m c main_arg5)) :
    U13 m c main_v33 = val_main_v84 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg20) (U0 m c main_arg21) (U0 m c main_arg22) (U0 m c main_arg23) := by
  refine (after_join1 (U12 m c)).trans ?_
  rw [← U13_of m c main_v31 (by decide), ← U13_of m c main_v32 (by decide), keep_v6_U12 m c, hd, hs, he]
  rfl

theorem cat2_eq (hd : U19 m c main_v52 = val_main_v130 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) (U0 m c main_arg24) (U0 m c main_arg25) (U0 m c main_arg26) (U0 m c main_arg27))
    (hs : U19 m c main_v53 = val_main_v137 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) (U0 m c main_arg24) (U0 m c main_arg25) (U0 m c main_arg26) (U0 m c main_arg27))
    (he : o2 m c = val_main_v9 (F := Ideal) (U0 m c main_arg2) (U0 m c main_arg4) (U0 m c main_arg5)) :
    U19 m c main_v54 = val_main_v138 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) (U0 m c main_arg24) (U0 m c main_arg25) (U0 m c main_arg26) (U0 m c main_arg27) := by
  refine (after_join2 (U18 m c)).trans ?_
  rw [← U19_of m c main_v52 (by decide), ← U19_of m c main_v53 (by decide), keep_v6_U18 m c, hd, hs, he]
  rfl

end Cert.Bridge

end
-- ==== Proof.KI.Val2.lean ====
import proofs.«424575_j83829171683414_1_alg».proof.Proof.KI.B2
import proofs.«424575_j83829171683414_1_alg».proof.Proof.KI.ValLib
import proofs.«424575_j83829171683414_1_alg».proof.Proof.LibPlainDot
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay2_eq (x : FVec Ideal S2000x528 .f32) (w1 : FVec Ideal S528x512 .f32) (b1 : FVec Ideal S1x512 .f32)
    (w2 : FVec Ideal S512x256 .f32) (b2 : FVec Ideal S1x256 .f32) (p : Fin 2000) (q : Fin 256) :
    k2_pay1 (F := Ideal) x w1 b1 w2 b2 (ix2 p q) = Cert.Spec.mlp x w1 b1 w2 b2 p q := by
  unfold k2_pay1 Cert.Spec.mlp Cert.Spec.lin
  simp only [shapeCast_self, matmul]
  rw [addf_apply, broadcastTo_1b_ab_apply,
    Cert.LibPlainDot.matmul_zero_apply dot_S2000x512_S512x256_S2000x256_1_0_0_1_n_n rfl rfl rfl rfl rfl rfl]
  refine congrArg (· + b2 (ix2 0 q)) (Finset.sum_congr rfl fun h _ => ?_)
  rw [truncf_apply, truncf_apply, maximumf_apply, addf_apply, broadcastTo_1b_ab_apply, broadcast_apply,
    Cert.LibPlainDot.matmul_zero_apply dot_S2000x528_S528x512_S2000x512_1_0_0_1_n_n rfl rfl rfl rfl rfl rfl]
  simp only [truncf_apply]
  exact congrArg (fun z => max ((∑ k : Fin 528, x (ix2 p k) * w1 (ix2 k h)) + b1 (ix2 0 h)) z * w2 (ix2 h q)) Ideal.ofBits_zero_f32

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

abbrev G2 (c : Dev nD) : S200000x256.Idx → EReal := fun i =>
  Cert.Spec.mlp (V c main_v12) (V c main_v13) (V c main_v15) (V c main_v14) (V c main_v16) (i 0) (i 1)

-- the weight and bias blocks are their whole arrays; row p of the tiled operand's block is row 2000 t + p of its array
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero zeros2]
  simp only [View.ld_unit_zero (S := S2000x528) zeros2, View.ld_unit_zero (S := S528x512) zeros2, View.ld_unit_zero (S := S1x512) zeros2,
    View.ld_unit_zero (S := S512x256) zeros2, View.ld_unit_zero (S := S1x256) zeros2]
  obtain ⟨a0, a1, b0, b1, c0, c1, d0, d1, e0, e1, f0, f1⟩ := idx_facts2 t
  rw [show (iblk2 V c 1 t : FVec Ideal S528x512 .f32) = V c main_v13 from funext fun j => congrArg (V c main_v13) (Shape.idx_ext₂ (win2_1.rect_emb_val_of_index_zero t (0 : Fin 2) b0 j) (win2_1.rect_emb_val_of_index_zero t (1 : Fin 2) b1 j)),
    show (iblk2 V c 2 t : FVec Ideal S1x512 .f32) = V c main_v15 from funext fun j => congrArg (V c main_v15) (Shape.idx_ext₂ (win2_2.rect_emb_val_of_index_zero t (0 : Fin 2) c0 j) (win2_2.rect_emb_val_of_index_zero t (1 : Fin 2) c1 j)),
    show (iblk2 V c 3 t : FVec Ideal S512x256 .f32) = V c main_v14 from funext fun j => congrArg (V c main_v14) (Shape.idx_ext₂ (win2_3.rect_emb_val_of_index_zero t (0 : Fin 2) d0 j) (win2_3.rect_emb_val_of_index_zero t (1 : Fin 2) d1 j)),
    show (iblk2 V c 4 t : FVec Ideal S1x256 .f32) = V c main_v16 from funext fun j => congrArg (V c main_v16) (Shape.idx_ext₂ (win2_4.rect_emb_val_of_index_zero t (0 : Fin 2) e0 j) (win2_4.rect_emb_val_of_index_zero t (1 : Fin 2) e1 j))]
  have ht : t.val < 100 := lt_of_lt_of_eq t.isLt N_2
  funext j
  obtain ⟨p, q, rfl⟩ : ∃ (p : Fin 2000) (q : Fin 256), j = ix2 p q := ⟨j 0, j 1, eq_ix2 j⟩
  have hp : p.val < 2000 := p.isLt
  show k2_pay1 (F := Ideal) (iblk2 V c 0 t) (V c main_v13) (V c main_v15) (V c main_v14) (V c main_v16) (ix2 p q)
    = G2 V c (((cfg2.win 5).blk t).view.emb (ix2 p q))
  rw [show ((cfg2.win 5).blk t).view.emb (ix2 p q) = (ix2 (⟨t.val * 2000 + p.val, by omega⟩ : Fin 200000) q : S200000x256.Idx) from
    Shape.idx_ext₂ ((win2_5.rect_emb_val t (ix2 p q) (0 : Fin 2)).trans (congrArg (· * 2000 + p.val) f0)) (win2_5.rect_emb_val_of_index_zero t (1 : Fin 2) f1 (ix2 p q))]
  exact (pay2_eq (iblk2 V c 0 t) (V c main_v13) (V c main_v15) (V c main_v14) (V c main_v16) p q).trans (mlp_row _ _ _ _ _ _ p _ (fun k => congrArg (V c main_v12)
    (show ((cfg2.win 0).blk t).view.emb (ix2 p k) = (ix2 (⟨t.val * 2000 + p.val, by omega⟩ : Fin 200000) k : (⟨2, ![200000, 528]⟩ : Shape).Idx) from
      Shape.idx_ext₂ ((win2_0.rect_emb_val t (ix2 p k) (0 : Fin 2)).trans (congrArg (· * 2000 + p.val) a0)) (win2_0.rect_emb_val_of_index_zero t (1 : Fin 2) a1 (ix2 p k)))) q)

theorem cover2 (i : S200000x256.Idx) : ∃ t : Fin cfg2.N, (cfg2.win 5).flush t = true ∧ i ∈ ((cfg2.win 5).blk t).view.set := by
  have hi0 : (i 0).val < 200000 := (i 0).isLt
  obtain ⟨t, ht⟩ : ∃ t : Fin cfg2.N, t.val = (i 0).val / 2000 := ⟨⟨(i 0).val / 2000, by rw [show cfg2.N = 100 from N_2]; omega⟩, rfl⟩
  obtain ⟨-, -, -, -, -, -, -, -, -, -, e0, e1⟩ := idx_facts2 t
  refine ⟨t, flush2_5 t, ?_⟩
  show i ∈ ((View.whole main_v17).slice (win2_5.rect t)).set
  rw [View.set_slice_whole]
  exact mem_rect_of_div win2_5 t i (fun _ => rfl) (by decide) fun a => by
    match a with
    | ⟨0, _⟩ => exact e0.trans ht
    | ⟨1, _⟩ => exact e1.trans (Nat.div_eq_of_lt (i 1).isLt).symm

theorem final2 (c : Dev nD) (a : Fin 200000) (b : Fin 256) :
    (dat2 (F := Ideal) V c).arrAt 5 cfg2.N (ValueIdx.ix2 a b)
      = Cert.Spec.mlp (V c main_v12) (V c main_v13) (V c main_v15) (V c main_v14) (V c main_v16) a b :=
  congrFun ((dat2 (F := Ideal) V c).arrAt_eq_of_cover 5 (G2 V c) (fun t _ => flushed2_eq V c t) (cover2)) (ix2 a b)

end Cert.KernelIdeal.Hand
-- ==== Proof.KI.Val4.lean ====
import proofs.«424575_j83829171683414_1_alg».proof.Proof.KI.B4
import proofs.«424575_j83829171683414_1_alg».proof.Proof.KI.ValLib
import proofs.«424575_j83829171683414_1_alg».proof.Proof.LibPlainDot
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay4_eq (x : FVec Ideal S2000x528 .f32) (w1 : FVec Ideal S528x512 .f32) (b1 : FVec Ideal S1x512 .f32)
    (w2 : FVec Ideal S512x256 .f32) (b2 : FVec Ideal S1x256 .f32) (p : Fin 2000) (q : Fin 256) :
    k4_pay1 (F := Ideal) x w1 b1 w2 b2 (ix2 p q) = Cert.Spec.mlp x w1 b1 w2 b2 p q := by
  unfold k4_pay1 Cert.Spec.mlp Cert.Spec.lin
  simp only [shapeCast_self, matmul]
  rw [addf_apply, broadcastTo_1b_ab_apply,
    Cert.LibPlainDot.matmul_zero_apply dot_S2000x512_S512x256_S2000x256_1_0_0_1_n_n rfl rfl rfl rfl rfl rfl]
  refine congrArg (· + b2 (ix2 0 q)) (Finset.sum_congr rfl fun h _ => ?_)
  rw [truncf_apply, truncf_apply, maximumf_apply, addf_apply, broadcastTo_1b_ab_apply, broadcast_apply,
    Cert.LibPlainDot.matmul_zero_apply dot_S2000x528_S528x512_S2000x512_1_0_0_1_n_n rfl rfl rfl rfl rfl rfl]
  simp only [truncf_apply]
  exact congrArg (fun z => max ((∑ k : Fin 528, x (ix2 p k) * w1 (ix2 k h)) + b1 (ix2 0 h)) z * w2 (ix2 h q)) Ideal.ofBits_zero_f32

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

abbrev G4 (c : Dev nD) : S200000x256.Idx → EReal := fun i =>
  Cert.Spec.mlp (V c main_v33) (V c main_v34) (V c main_v36) (V c main_v35) (V c main_v37) (i 0) (i 1)

-- the weight and bias blocks are their whole arrays; row p of the tiled operand's block is row 2000 t + p of its array
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero zeros2]
  simp only [View.ld_unit_zero (S := S2000x528) zeros2, View.ld_unit_zero (S := S528x512) zeros2, View.ld_unit_zero (S := S1x512) zeros2,
    View.ld_unit_zero (S := S512x256) zeros2, View.ld_unit_zero (S := S1x256) zeros2]
  obtain ⟨a0, a1, b0, b1, c0, c1, d0, d1, e0, e1, f0, f1⟩ := idx_facts4 t
  rw [show (iblk4 V c 1 t : FVec Ideal S528x512 .f32) = V c main_v34 from funext fun j => congrArg (V c main_v34) (Shape.idx_ext₂ (win4_1.rect_emb_val_of_index_zero t (0 : Fin 2) b0 j) (win4_1.rect_emb_val_of_index_zero t (1 : Fin 2) b1 j)),
    show (iblk4 V c 2 t : FVec Ideal S1x512 .f32) = V c main_v36 from funext fun j => congrArg (V c main_v36) (Shape.idx_ext₂ (win4_2.rect_emb_val_of_index_zero t (0 : Fin 2) c0 j) (win4_2.rect_emb_val_of_index_zero t (1 : Fin 2) c1 j)),
    show (iblk4 V c 3 t : FVec Ideal S512x256 .f32) = V c main_v35 from funext fun j => congrArg (V c main_v35) (Shape.idx_ext₂ (win4_3.rect_emb_val_of_index_zero t (0 : Fin 2) d0 j) (win4_3.rect_emb_val_of_index_zero t (1 : Fin 2) d1 j)),
    show (iblk4 V c 4 t : FVec Ideal S1x256 .f32) = V c main_v37 from funext fun j => congrArg (V c main_v37) (Shape.idx_ext₂ (win4_4.rect_emb_val_of_index_zero t (0 : Fin 2) e0 j) (win4_4.rect_emb_val_of_index_zero t (1 : Fin 2) e1 j))]
  have ht : t.val < 100 := lt_of_lt_of_eq t.isLt N_4
  funext j
  obtain ⟨p, q, rfl⟩ : ∃ (p : Fin 2000) (q : Fin 256), j = ix2 p q := ⟨j 0, j 1, eq_ix2 j⟩
  have hp : p.val < 2000 := p.isLt
  show k4_pay1 (F := Ideal) (iblk4 V c 0 t) (V c main_v34) (V c main_v36) (V c main_v35) (V c main_v37) (ix2 p q)
    = G4 V c (((cfg4.win 5).blk t).view.emb (ix2 p q))
  rw [show ((cfg4.win 5).blk t).view.emb (ix2 p q) = (ix2 (⟨t.val * 2000 + p.val, by omega⟩ : Fin 200000) q : S200000x256.Idx) from
    Shape.idx_ext₂ ((win4_5.rect_emb_val t (ix2 p q) (0 : Fin 2)).trans (congrArg (· * 2000 + p.val) f0)) (win4_5.rect_emb_val_of_index_zero t (1 : Fin 2) f1 (ix2 p q))]
  exact (pay4_eq (iblk4 V c 0 t) (V c main_v34) (V c main_v36) (V c main_v35) (V c main_v37) p q).trans (mlp_row _ _ _ _ _ _ p _ (fun k => congrArg (V c main_v33)
    (show ((cfg4.win 0).blk t).view.emb (ix2 p k) = (ix2 (⟨t.val * 2000 + p.val, by omega⟩ : Fin 200000) k : (⟨2, ![200000, 528]⟩ : Shape).Idx) from
      Shape.idx_ext₂ ((win4_0.rect_emb_val t (ix2 p k) (0 : Fin 2)).trans (congrArg (· * 2000 + p.val) a0)) (win4_0.rect_emb_val_of_index_zero t (1 : Fin 2) a1 (ix2 p k)))) q)

theorem cover4 (i : S200000x256.Idx) : ∃ t : Fin cfg4.N, (cfg4.win 5).flush t = true ∧ i ∈ ((cfg4.win 5).blk t).view.set := by
  have hi0 : (i 0).val < 200000 := (i 0).isLt
  obtain ⟨t, ht⟩ : ∃ t : Fin cfg4.N, t.val = (i 0).val / 2000 := ⟨⟨(i 0).val / 2000, by rw [show cfg4.N = 100 from N_4]; omega⟩, rfl⟩
  obtain ⟨-, -, -, -, -, -, -, -, -, -, e0, e1⟩ := idx_facts4 t
  refine ⟨t, flush4_5 t, ?_⟩
  show i ∈ ((View.whole main_v38).slice (win4_5.rect t)).set
  rw [View.set_slice_whole]
  exact mem_rect_of_div win4_5 t i (fun _ => rfl) (by decide) fun a => by
    match a with
    | ⟨0, _⟩ => exact e0.trans ht
    | ⟨1, _⟩ => exact e1.trans (Nat.div_eq_of_lt (i 1).isLt).symm

theorem final4 (c : Dev nD) (a : Fin 200000) (b : Fin 256) :
    (dat4 (F := Ideal) V c).arrAt 5 cfg4.N (ValueIdx.ix2 a b)
      = Cert.Spec.mlp (V c main_v33) (V c main_v34) (V c main_v36) (V c main_v35) (V c main_v37) a b :=
  congrFun ((dat4 (F := Ideal) V c).arrAt_eq_of_cover 5 (G4 V c) (fun t _ => flushed4_eq V c t) (cover4)) (ix2 a b)

end Cert.KernelIdeal.Hand
-- ==== Proof.KI.Val6.lean ====
import proofs.«424575_j83829171683414_1_alg».proof.Proof.KI.B6
import proofs.«424575_j83829171683414_1_alg».proof.Proof.KI.ValLib
import proofs.«424575_j83829171683414_1_alg».proof.Proof.LibPlainDot
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay6_eq (x : FVec Ideal S2000x528 .f32) (w1 : FVec Ideal S528x256 .f32) (b1 : FVec Ideal S1x256 .f32)
    (w2 : FVec Ideal S256x128 .f32) (b2 : FVec Ideal S1x128 .f32) (p : Fin 2000) (q : Fin 128) :
    k6_pay1 (F := Ideal) x w1 b1 w2 b2 (ix2 p q) = Cert.Spec.mlp x w1 b1 w2 b2 p q := by
  unfold k6_pay1 Cert.Spec.mlp Cert.Spec.lin
  simp only [shapeCast_self, matmul]
  rw [addf_apply, broadcastTo_1b_ab_apply,
    Cert.LibPlainDot.matmul_zero_apply dot_S2000x256_S256x128_S2000x128_1_0_0_1_n_n rfl rfl rfl rfl rfl rfl]
  refine congrArg (· + b2 (ix2 0 q)) (Finset.sum_congr rfl fun h _ => ?_)
  rw [truncf_apply, truncf_apply, maximumf_apply, addf_apply, broadcastTo_1b_ab_apply, broadcast_apply,
    Cert.LibPlainDot.matmul_zero_apply dot_S2000x528_S528x256_S2000x256_1_0_0_1_n_n rfl rfl rfl rfl rfl rfl]
  simp only [truncf_apply]
  exact congrArg (fun z => max ((∑ k : Fin 528, x (ix2 p k) * w1 (ix2 k h)) + b1 (ix2 0 h)) z * w2 (ix2 h q)) Ideal.ofBits_zero_f32

theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

abbrev G6 (c : Dev nD) : S200000x128.Idx → EReal := fun i =>
  Cert.Spec.mlp (V c main_v54) (V c main_v55) (V c main_v57) (V c main_v56) (V c main_v58) (i 0) (i 1)

-- the weight and bias blocks are their whole arrays; row p of the tiled operand's block is row 2000 t + p of its array
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  unfold out6_5
  rw [View.canon_unit_zero zeros2]
  simp only [View.ld_unit_zero (S := S2000x528) zeros2, View.ld_unit_zero (S := S528x256) zeros2, View.ld_unit_zero (S := S1x256) zeros2,
    View.ld_unit_zero (S := S256x128) zeros2, View.ld_unit_zero (S := S1x128) zeros2]
  obtain ⟨a0, a1, b0, b1, c0, c1, d0, d1, e0, e1, f0, f1⟩ := idx_facts6 t
  rw [show (iblk6 V c 1 t : FVec Ideal S528x256 .f32) = V c main_v55 from funext fun j => congrArg (V c main_v55) (Shape.idx_ext₂ (win6_1.rect_emb_val_of_index_zero t (0 : Fin 2) b0 j) (win6_1.rect_emb_val_of_index_zero t (1 : Fin 2) b1 j)),
    show (iblk6 V c 2 t : FVec Ideal S1x256 .f32) = V c main_v57 from funext fun j => congrArg (V c main_v57) (Shape.idx_ext₂ (win6_2.rect_emb_val_of_index_zero t (0 : Fin 2) c0 j) (win6_2.rect_emb_val_of_index_zero t (1 : Fin 2) c1 j)),
    show (iblk6 V c 3 t : FVec Ideal S256x128 .f32) = V c main_v56 from funext fun j => congrArg (V c main_v56) (Shape.idx_ext₂ (win6_3.rect_emb_val_of_index_zero t (0 : Fin 2) d0 j) (win6_3.rect_emb_val_of_index_zero t (1 : Fin 2) d1 j)),
    show (iblk6 V c 4 t : FVec Ideal S1x128 .f32) = V c main_v58 from funext fun j => congrArg (V c main_v58) (Shape.idx_ext₂ (win6_4.rect_emb_val_of_index_zero t (0 : Fin 2) e0 j) (win6_4.rect_emb_val_of_index_zero t (1 : Fin 2) e1 j))]
  have ht : t.val < 100 := lt_of_lt_of_eq t.isLt N_6
  funext j
  obtain ⟨p, q, rfl⟩ : ∃ (p : Fin 2000) (q : Fin 128), j = ix2 p q := ⟨j 0, j 1, eq_ix2 j⟩
  have hp : p.val < 2000 := p.isLt
  show k6_pay1 (F := Ideal) (iblk6 V c 0 t) (V c main_v55) (V c main_v57) (V c main_v56) (V c main_v58) (ix2 p q)
    = G6 V c (((cfg6.win 5).blk t).view.emb (ix2 p q))
  rw [show ((cfg6.win 5).blk t).view.emb (ix2 p q) = (ix2 (⟨t.val * 2000 + p.val, by omega⟩ : Fin 200000) q : S200000x128.Idx) from
    Shape.idx_ext₂ ((win6_5.rect_emb_val t (ix2 p q) (0 : Fin 2)).trans (congrArg (· * 2000 + p.val) f0)) (win6_5.rect_emb_val_of_index_zero t (1 : Fin 2) f1 (ix2 p q))]
  exact (pay6_eq (iblk6 V c 0 t) (V c main_v55) (V c main_v57) (V c main_v56) (V c main_v58) p q).trans (mlp_row _ _ _ _ _ _ p _ (fun k => congrArg (V c main_v54)
    (show ((cfg6.win 0).blk t).view.emb (ix2 p k) = (ix2 (⟨t.val * 2000 + p.val, by omega⟩ : Fin 200000) k : (⟨2, ![200000, 528]⟩ : Shape).Idx) from
      Shape.idx_ext₂ ((win6_0.rect_emb_val t (ix2 p k) (0 : Fin 2)).trans (congrArg (· * 2000 + p.val) a0)) (win6_0.rect_emb_val_of_index_zero t (1 : Fin 2) a1 (ix2 p k)))) q)

theorem cover6 (i : S200000x128.Idx) : ∃ t : Fin cfg6.N, (cfg6.win 5).flush t = true ∧ i ∈ ((cfg6.win 5).blk t).view.set := by
  have hi0 : (i 0).val < 200000 := (i 0).isLt
  obtain ⟨t, ht⟩ : ∃ t : Fin cfg6.N, t.val = (i 0).val / 2000 := ⟨⟨(i 0).val / 2000, by rw [show cfg6.N = 100 from N_6]; omega⟩, rfl⟩
  obtain ⟨-, -, -, -, -, -, -, -, -, -, e0, e1⟩ := idx_facts6 t
  refine ⟨t, flush6_5 t, ?_⟩
  show i ∈ ((View.whole main_v59).slice (win6_5.rect t)).set
  rw [View.set_slice_whole]
  exact mem_rect_of_div win6_5 t i (fun _ => rfl) (by decide) fun a => by
    match a with
    | ⟨0, _⟩ => exact e0.trans ht
    | ⟨1, _⟩ => exact e1.trans (Nat.div_eq_of_lt (i 1).isLt).symm

theorem final6 (c : Dev nD) (a : Fin 200000) (b : Fin 128) :
    (dat6 (F := Ideal) V c).arrAt 5 cfg6.N (ValueIdx.ix2 a b)
      = Cert.Spec.mlp (V c main_v54) (V c main_v55) (V c main_v57) (V c main_v56) (V c main_v58) a b :=
  congrFun ((dat6 (F := Ideal) V c).arrAt_eq_of_cover 5 (G6 V c) (fun t _ => flushed6_eq V c t) (cover6)) (ix2 a b)

end Cert.KernelIdeal.Hand
-- ==== Proof.RefMlp.lean ====
import proofs.«424575_j83829171683414_1_alg».proof.Proof.RefRead
import proofs.«424575_j83829171683414_1_alg».proof.Proof.Spec
import Idealize.ShloMosaic.Lib.StackMember
import Idealize.ShloMosaic.Lib.IdealHost

noncomputable section

namespace Cert.RefLegs

open Cert.ReferenceIdeal Cert.ReferenceIdeal.Gen Cert.ReferenceIdeal.ReadP Idealize.ShloMosaic Idealize.ShloMosaic.ValueIdx

-- Each product is read at an entry as a sum over the contracted coordinate, each bias row at (0, ·), and the zero array is 0.
theorem mlp_parts {M K H N : Nat} (x : FVec Ideal ⟨2, ![M, K]⟩ .f32) (w₁ : FVec Ideal ⟨2, ![K, H]⟩ .f32)
    (b₁ : FVec Ideal ⟨2, ![1, H]⟩ .f32) (w₂ : FVec Ideal ⟨2, ![H, N]⟩ .f32) (b₂ : FVec Ideal ⟨2, ![1, N]⟩ .f32)
    {h₁ : (⟨2, ![1, H]⟩ : Shape).BroadcastsInDim ⟨2, ![M, H]⟩ ![0, 1]}
    {hz : (⟨0, ![]⟩ : Shape).BroadcastsInDim ⟨2, ![M, H]⟩ ![]}
    {h₂ : (⟨2, ![1, N]⟩ : Shape).BroadcastsInDim ⟨2, ![M, N]⟩ ![0, 1]} (a : Fin M) (c : Fin N) :
    addf (Host.dotGeneral (DotDims.plain M H N) none (maximumf (addf (Host.dotGeneral (DotDims.plain M K H) none x w₁)
        (broadcastInDim ⟨2, ![M, H]⟩ ![0, 1] h₁ b₁))
        (broadcastInDim ⟨2, ![M, H]⟩ ![] hz (constant ⟨0, ![]⟩ .f32 0x00000000#32))) w₂)
      (broadcastInDim ⟨2, ![M, N]⟩ ![0, 1] h₂ b₂) (ix2 a c) = Cert.Spec.mlp x w₁ b₁ w₂ b₂ a c := by
  rw [addf_apply, broadcastInDim_oneRow_apply, StackMember.dotGeneral_plain_apply]
  unfold Cert.Spec.mlp Cert.Spec.lin
  congr 1
  refine Finset.sum_congr rfl fun h _ => ?_
  rw [maximumf_apply, addf_apply, broadcastInDim_oneRow_apply, broadcastInDim_scalar_apply, constant_apply,
    Ideal.ofBits_zero_f32, StackMember.dotGeneral_plain_apply]

variable (x0 : (⟨S20000x32, .f32⟩ : BufTy).Contents (Elt Ideal)) (x1 : (⟨S2x200000, .i32⟩ : BufTy).Contents (Elt Ideal))
  (x2 : (⟨S200000x8, .f32⟩ : BufTy).Contents (Elt Ideal)) (x4 : (⟨S16x8, .f32⟩ : BufTy).Contents (Elt Ideal))
  (x5 : (⟨S16, .f32⟩ : BufTy).Contents (Elt Ideal)) (x6 : (⟨S256x32, .f32⟩ : BufTy).Contents (Elt Ideal))
  (x7 : (⟨S256, .f32⟩ : BufTy).Contents (Elt Ideal)) (x8 : (⟨S512x528, .f32⟩ : BufTy).Contents (Elt Ideal))
  (x9 : (⟨S512, .f32⟩ : BufTy).Contents (Elt Ideal)) (x10 : (⟨S256x512, .f32⟩ : BufTy).Contents (Elt Ideal))
  (x11 : (⟨S256, .f32⟩ : BufTy).Contents (Elt Ideal)) (x12 : (⟨S512x528, .f32⟩ : BufTy).Contents (Elt Ideal))
  (x13 : (⟨S512, .f32⟩ : BufTy).Contents (Elt Ideal)) (x14 : (⟨S256x512, .f32⟩ : BufTy).Contents (Elt Ideal))
  (x15 : (⟨S256, .f32⟩ : BufTy).Contents (Elt Ideal)) (x16 : (⟨S256x528, .f32⟩ : BufTy).Contents (Elt Ideal))
  (x17 : (⟨S256, .f32⟩ : BufTy).Contents (Elt Ideal)) (x18 : (⟨S128x256, .f32⟩ : BufTy).Contents (Elt Ideal))
  (x19 : (⟨S128, .f32⟩ : BufTy).Contents (Elt Ideal)) (x20 x21 x22 x23 x24 x25 x26 x27 : (⟨S256, .f32⟩ : BufTy).Contents (Elt Ideal))

theorem msg0_leg (a : Fin 200000) (c : Fin 256) :
    val_main_v41 (F := Ideal) x0 x1 x2 x4 x5 x6 x7 x8 x9 x10 x11 (ix2 a c)
      = Cert.Spec.mlp
          (val_main_v30 (F := Ideal) x0 x1 x2 x4 x5 x6 x7)
          (val_main_v31 (F := Ideal) x8) (val_main_v33 (F := Ideal) x9) (val_main_v37 (F := Ideal) x10) (val_main_v39 (F := Ideal) x11) a c :=
  mlp_parts (K := 528) (H := 512) _ _ _ _ _ a c

theorem msg1_leg (a : Fin 200000) (c : Fin 256) :
    val_main_v95 (F := Ideal) x0 x1 x2 x4 x5 x6 x7 x8 x9 x10 x11 x12 x13 x14 x15 x20 x21 x22 x23 (ix2 a c)
      = Cert.Spec.mlp
          (val_main_v84 (F := Ideal) x0 x1 x2 x4 x5 x6 x7 x8 x9 x10 x11 x20 x21 x22 x23)
          (val_main_v85 (F := Ideal) x12) (val_main_v87 (F := Ideal) x13) (val_main_v91 (F := Ideal) x14) (val_main_v93 (F := Ideal) x15) a c :=
  mlp_parts (K := 528) (H := 512) _ _ _ _ _ a c

theorem msg2_leg (a : Fin 200000) (c : Fin 128) :
    val_main_v149 (F := Ideal) x0 x1 x2 x4 x5 x6 x7 x8 x9 x10 x11 x12 x13 x14 x15 x16 x17 x18 x19 x20 x21 x22 x23 x24 x25 x26 x27 (ix2 a c)
      = Cert.Spec.mlp
          (val_main_v138 (F := Ideal) x0 x1 x2 x4 x5 x6 x7 x8 x9 x10 x11 x12 x13 x14 x15 x20 x21 x22 x23 x24 x25 x26 x27)
          (val_main_v139 (F := Ideal) x16) (val_main_v141 (F := Ideal) x17) (val_main_v145 (F := Ideal) x18) (val_main_v147 (F := Ideal) x19) a c :=
  mlp_parts (K := 528) (H := 256) _ _ _ _ _ a c

end Cert.RefLegs

end
-- ==== Proof.BridgeMsg.lean ====
import proofs.«424575_j83829171683414_1_alg».proof.Proof.KI.Val2
import proofs.«424575_j83829171683414_1_alg».proof.Proof.KI.Val4
import proofs.«424575_j83829171683414_1_alg».proof.Proof.KI.Val6
import proofs.«424575_j83829171683414_1_alg».proof.Proof.RefMlp
import proofs.«424575_j83829171683414_1_alg».proof.Proof.BridgeWeights

set_option maxRecDepth 16384

noncomputable section

namespace Cert.Bridge

open Cert.KernelIdeal Cert.KernelIdeal.Gen Cert.KernelIdeal.Hand Cert.ReferenceIdeal.ReadP Cert.RefLegs
open Idealize.ShloMosaic Idealize.ShloMosaic.TcCoe Idealize.SL Idealize.SL.Sem Idealize.ShloMosaic.ValueIdx

variable (m : (ℓ : Loc nD τ sig) → Buf (Elt Ideal) ℓ) (c : Dev nD)

theorem msg0_eq (hcat : U7 m c main_v12 = val_main_v30 (F := Ideal) (U0 m c main_arg0) (U0 m c main_arg1) (U0 m c main_arg2) (U0 m c main_arg4) (U0 m c main_arg5) (U0 m c main_arg6) (U0 m c main_arg7)) :
    o8 m c = val_main_v41 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) :=
  eq_of_read (final2 (atRefs (U7 m)) c) fun a b => by
    rw [msg0_leg, ← hcat, ← w_r2_v13 m c, ← w_r2_v15 m c, ← w_r2_v14 m c, ← w_r2_v16 m c]

theorem msg1_eq (hcat : U13 m c main_v33 = val_main_v84 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg20) (U0 m c main_arg21) (U0 m c main_arg22) (U0 m c main_arg23)) :
    o14 m c = val_main_v95 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) :=
  eq_of_read (final4 (atRefs (U13 m)) c) fun a b => by
    rw [msg1_leg, ← hcat, ← w_r4_v34 m c, ← w_r4_v36 m c, ← w_r4_v35 m c, ← w_r4_v37 m c]

theorem msg2_eq (hcat : U19 m c main_v54 = val_main_v138 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) (U0 m c main_arg24) (U0 m c main_arg25) (U0 m c main_arg26) (U0 m c main_arg27)) :
    o20 m c = val_main_v149 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg16) (U0 m c main_arg17) (U0 m c main_arg18) (U0 m c main_arg19) (U0 m c main_arg20) (U0 m c main_arg21) (U0 m c main_arg22) (U0 m c main_arg23) (U0 m c main_arg24) (U0 m c main_arg25) (U0 m c main_arg26) (U0 m c main_arg27) :=
  eq_of_read (final6 (atRefs (U19 m)) c) fun a b => by
    rw [msg2_leg, ← hcat, ← w_r6_v55 m c, ← w_r6_v57 m c, ← w_r6_v56 m c, ← w_r6_v58 m c]

end Cert.Bridge

end
-- ==== Proof.BridgeScatter.lean ====
import proofs.«424575_j83829171683414_1_alg».proof.Proof.KI.Chain
import proofs.«424575_j83829171683414_1_alg».proof.Proof.RefRead
import Idealize.ShloMosaic.Lib.StableHlo.Run

set_option maxRecDepth 16384

set_option quotPrecheck false

noncomputable section

namespace Cert.Bridge

open Cert.KernelIdeal Cert.KernelIdeal.Gen Cert.KernelIdeal.Hand
open Cert.ReferenceIdeal.ReadP
open Idealize.ShloMosaic Idealize.ShloMosaic.TcCoe
open Idealize.SL Idealize.SL.Sem

variable (m : (ℓ : Loc nD τ sig) → Buf (Elt Ideal) ℓ) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
local notation "a18" => m ((c : Thread nD τ).loc main_arg18)
local notation "a19" => m ((c : Thread nD τ).loc main_arg19)
local notation "a20" => m ((c : Thread nD τ).loc main_arg20)
local notation "a21" => m ((c : Thread nD τ).loc main_arg21)
local notation "a22" => m ((c : Thread nD τ).loc main_arg22)
local notation "a23" => m ((c : Thread nD τ).loc main_arg23)
local notation "a24" => m ((c : Thread nD τ).loc main_arg24)
local notation "a25" => m ((c : Thread nD τ).loc main_arg25)
local notation "a26" => m ((c : Thread nD τ).loc main_arg26)
local notation "a27" => m ((c : Thread nD τ).loc main_arg27)
local notation "a28" => m ((c : Thread nD τ).loc main_arg28)
local notation "a29" => m ((c : Thread nD τ).loc main_arg29)
local notation "a30" => m ((c : Thread nD τ).loc main_arg30)
local notation "a31" => m ((c : Thread nD τ).loc main_arg31)

theorem keepHost (ops : List (HloOp τ sig (Elt Ideal))) (W : List (Ref sig .tc))
    (hW : ops.Forall fun op => op.writes ⊆ (W.map (Proc.devRef (τ := τ) .tc)).toFinset)
    (V : Valuation τ sig (Elt Ideal)) (r : Ref sig .tc) (h : r ∉ W) :
    StableHlo.after ops V r = V r :=
  StableHlo.after_of_writes_sub ops V hW h

theorem keepRegion (V : Valuation τ sig (Elt Ideal)) (y : Ref sig .tc) (v : Buf (Elt Ideal) ((c : Thread nD τ).loc y))
    (r : Ref sig .tc) (h : r ≠ y) :
    Function.update V (y : DevRef τ sig) v r = V r :=
  Function.update_of_ne (StableHlo.devRef_ne_of_ne h) _ _

theorem U1_v3 :
    (U1 m c main_v3 : (⟨S200000, .i32⟩ : BufTy).Contents (Elt Ideal)) = val_main_v3 (F := Ideal) a1 := by
  have e : U1 m c main_v3 =
      shapeCast S200000 (extractStridedSlice S1x200000 ![1, 0] (U0 m c main_arg1) slices_S2x200000_S1x200000_1_0)
        shapeCasts_S1x200000_S200000 := by
    dsimp only [U1, hostOps0]; after_results <;> rfl
  rw [e]; unfold val_main_v3 val_main_v2; rfl

theorem U8_v3 : (U8 m c main_v3 : (⟨S200000, .i32⟩ : BufTy).Contents (Elt Ideal)) = val_main_v3 (F := Ideal) a1 :=
  (keepRegion c _ main_v17 _ main_v3 (by decide)).trans <|
  (keepHost hostOps2_2 hostOps2_2_W hostOps2_2_writes _ main_v3 (by decide)).trans <|
  (keepHost hostOps2_1 hostOps2_1_W hostOps2_1_writes _ main_v3 (by decide)).trans <|
  (keepHost hostOps2 hostOps2_W hostOps2_writes _ main_v3 (by decide)).trans <|
  (keepRegion c _ main_v9 _ main_v3 (by decide)).trans <|
  (keepHost hostOps1 hostOps1_W hostOps1_writes _ main_v3 (by decide)).trans <|
  (keepRegion c _ main_v6 _ main_v3 (by decide)).trans <|
  (U1_v3 m c)

theorem U14_v3 : (U14 m c main_v3 : (⟨S200000, .i32⟩ : BufTy).Contents (Elt Ideal)) = val_main_v3 (F := Ideal) a1 :=
  (keepRegion c _ main_v38 _ main_v3 (by decide)).trans <|
  (keepHost hostOps4_2 hostOps4_2_W hostOps4_2_writes _ main_v3 (by decide)).trans <|
  (keepHost hostOps4_1 hostOps4_1_W hostOps4_1_writes _ main_v3 (by decide)).trans <|
  (keepHost hostOps4 hostOps4_W hostOps4_writes _ main_v3 (by decide)).trans <|
  (keepRegion c _ main_v30 _ main_v3 (by decide)).trans <|
  (keepHost hostOps3 hostOps3_W hostOps3_writes _ main_v3 (by decide)).trans <|
  (U8_v3 m c)

theorem U20_v3 : (U20 m c main_v3 : (⟨S200000, .i32⟩ : BufTy).Contents (Elt Ideal)) = val_main_v3 (F := Ideal) a1 :=
  (keepRegion c _ main_v59 _ main_v3 (by decide)).trans <|
  (keepHost hostOps6_2 hostOps6_2_W hostOps6_2_writes _ main_v3 (by decide)).trans <|
  (keepHost hostOps6_1 hostOps6_1_W hostOps6_1_writes _ main_v3 (by decide)).trans <|
  (keepHost hostOps6 hostOps6_W hostOps6_writes _ main_v3 (by decide)).trans <|
  (keepRegion c _ main_v51 _ main_v3 (by decide)).trans <|
  (keepHost hostOps5 hostOps5_W hostOps5_writes _ main_v3 (by decide)).trans <|
  (U14_v3 m c)

-- The rows of x summed into the rows the words name, from zero; and the number of words naming each row.
private abbrev sumOf (w : (⟨S200000, .i32⟩ : BufTy).Contents (Elt Ideal)) (x : (⟨S200000x256, .f32⟩ : BufTy).Contents (Elt Ideal)) :
    (⟨S20000x256, .f32⟩ : BufTy).Contents (Elt Ideal) :=
  Host.scatterAdd scatter_S20000x256_S200000x1_S200000x256_1_0_0_1
    (broadcastInDim S20000x256 ![] bcast_S_S20000x256 (constant (F := Ideal) S_ .f32 0x00000000#32))
    (broadcastInDim S200000x1 ![0] bcast_S200000_S200000x1_0 w) x

private abbrev degOf (w : (⟨S200000, .i32⟩ : BufTy).Contents (Elt Ideal)) : (⟨S20000, .f32⟩ : BufTy).Contents (Elt Ideal) :=
  Host.scatterAdd scatter_S20000_S200000x1_S200000_n_0_0_1
    (broadcastInDim S20000 ![] bcast_S_S20000 (constant (F := Ideal) S_ .f32 0x00000000#32))
    (broadcastInDim S200000x1 ![0] bcast_S200000_S200000x1_0 w)
    (broadcastInDim S200000 ![] bcast_S_S200000 (constant (F := Ideal) S_ .f32 0x3F800000#32))

theorem hs0
    (hmsg : (o8 m c : (⟨S200000x256, .f32⟩ : BufTy).Contents (Elt Ideal)) = val_main_v41 (F := Ideal) a0 a1 a2 a4 a5 a6 a7 a8 a9 a10 a11) :
    (U9 m c main_v20 : (⟨S20000x256, .f32⟩ : BufTy).Contents (Elt Ideal)) = val_main_v44 (F := Ideal) a0 a1 a2 a4 a5 a6 a7 a8 a9 a10 a11 := by
  have e : U9 m c main_v20 =
      sumOf (U8 m c main_v3) (U8 m c main_v17) := by
    dsimp only [U9, hostOps3]; after_results <;> rfl
  rw [e, U8_v3, show U8 m c main_v17 = o8 m c from Function.update_self .., hmsg]
  rfl

theorem cn0 :
    (U9 m c main_v24 : (⟨S20000, .f32⟩ : BufTy).Contents (Elt Ideal)) = val_main_v48 (F := Ideal) a1 := by
  have e : U9 m c main_v24 =
      degOf (U8 m c main_v3) := by
    dsimp only [U9, hostOps3]; after_results <;> rfl
  rw [e, U8_v3]
  rfl

theorem hs1
    (hmsg : (o14 m c : (⟨S200000x256, .f32⟩ : BufTy).Contents (Elt Ideal)) = val_main_v95 (F := Ideal) a0 a1 a2 a4 a5 a6 a7 a8 a9 a10 a11 a12 a13 a14 a15 a20 a21 a22 a23) :
    (U15 m c main_v41 : (⟨S20000x256, .f32⟩ : BufTy).Contents (Elt Ideal)) = val_main_v98 (F := Ideal) a0 a1 a2 a4 a5 a6 a7 a8 a9 a10 a11 a12 a13 a14 a15 a20 a21 a22 a23 := by
  have e : U15 m c main_v41 =
      sumOf (U14 m c main_v3) (U14 m c main_v38) := by
    dsimp only [U15, hostOps5]; after_results <;> rfl
  rw [e, U14_v3, show U14 m c main_v38 = o14 m c from Function.update_self .., hmsg]
  rfl

theorem cn1 :
    (U15 m c main_v45 : (⟨S20000, .f32⟩ : BufTy).Contents (Elt Ideal)) = val_main_v102 (F := Ideal) a1 := by
  have e : U15 m c main_v45 =
      degOf (U14 m c main_v3) := by
    dsimp only [U15, hostOps5]; after_results <;> rfl
  rw [e, U14_v3]
  rfl

theorem hs2
    (hmsg : (o20 m c : (⟨S200000x128, .f32⟩ : BufTy).Contents (Elt Ideal)) = val_main_v149 (F := Ideal) a0 a1 a2 a4 a5 a6 a7 a8 a9 a10 a11 a12 a13 a14 a15 a16 a17 a18 a19 a20 a21 a22 a23 a24 a25 a26 a27) :
    (U21 m c main_v62 : (⟨S20000x128, .f32⟩ : BufTy).Contents (Elt Ideal)) = val_main_v152 (F := Ideal) a0 a1 a2 a4 a5 a6 a7 a8 a9 a10 a11 a12 a13 a14 a15 a16 a17 a18 a19 a20 a21 a22 a23 a24 a25 a26 a27 := by
  have e : U21 m c main_v62 =
      Host.scatterAdd scatter_S20000x128_S200000x1_S200000x128_1_0_0_1
        (broadcastInDim S20000x128 ![] bcast_S_S20000x128 (constant (F := Ideal) S_ .f32 0x00000000#32))
        (broadcastInDim S200000x1 ![0] bcast_S200000_S200000x1_0 (U20 m c main_v3))
        (U20 m c main_v59) := by
    dsimp only [U21, hostOps7]; after_results <;> rfl
  rw [e, U20_v3, show U20 m c main_v59 = o20 m c from Function.update_self .., hmsg]
  rfl

theorem cn2 :
    (U21 m c main_v66 : (⟨S20000, .f32⟩ : BufTy).Contents (Elt Ideal)) = val_main_v156 (F := Ideal) a1 := by
  have e : U21 m c main_v66 =
      degOf (U20 m c main_v3) := by
    dsimp only [U21, hostOps7]; after_results <;> rfl
  rw [e, U20_v3]
  rfl

theorem U22_arg3 : (U22 m c main_arg3 : (⟨S20000, .i32⟩ : BufTy).Contents (Elt Ideal)) = a3 :=
  (keepRegion c _ main_v72 _ main_arg3 (by decide)).trans <|
  (keepHost hostOps7 hostOps7_W hostOps7_writes _ main_arg3 (by decide)).trans <|
  (keepRegion c _ main_v59 _ main_arg3 (by decide)).trans <|
  (keepHost hostOps6_2 hostOps6_2_W hostOps6_2_writes _ main_arg3 (by decide)).trans <|
  (keepHost hostOps6_1 hostOps6_1_W hostOps6_1_writes _ main_arg3 (by decide)).trans <|
  (keepHost hostOps6 hostOps6_W hostOps6_writes _ main_arg3 (by decide)).trans <|
  (keepRegion c _ main_v51 _ main_arg3 (by decide)).trans <|
  (keepHost hostOps5 hostOps5_W hostOps5_writes _ main_arg3 (by decide)).trans <|
  (keepRegion c _ main_v38 _ main_arg3 (by decide)).trans <|
  (keepHost hostOps4_2 hostOps4_2_W hostOps4_2_writes _ main_arg3 (by decide)).trans <|
  (keepHost hostOps4_1 hostOps4_1_W hostOps4_1_writes _ main_arg3 (by decide)).trans <|
  (keepHost hostOps4 hostOps4_W hostOps4_writes _ main_arg3 (by decide)).trans <|
  (keepRegion c _ main_v30 _ main_arg3 (by decide)).trans <|
  (keepHost hostOps3 hostOps3_W hostOps3_writes _ main_arg3 (by decide)).trans <|
  (keepRegion c _ main_v17 _ main_arg3 (by decide)).trans <|
  (keepHost hostOps2_2 hostOps2_2_W hostOps2_2_writes _ main_arg3 (by decide)).trans <|
  (keepHost hostOps2_1 hostOps2_1_W hostOps2_1_writes _ main_arg3 (by decide)).trans <|
  (keepHost hostOps2 hostOps2_W hostOps2_writes _ main_arg3 (by decide)).trans <|
  (keepRegion c _ main_v9 _ main_arg3 (by decide)).trans <|
  (keepHost hostOps1 hostOps1_W hostOps1_writes _ main_arg3 (by decide)).trans <|
  (keepRegion c _ main_v6 _ main_arg3 (by decide)).trans <|
  (keepHost hostOps0 hostOps0_W hostOps0_writes _ main_arg3 (by decide))

theorem pool
    (hh3 : (o22 m c : (⟨S20000x128, .f32⟩ : BufTy).Contents (Elt Ideal)) = val_main_v177 (F := Ideal) a0 a1 a2 a4 a5 a6 a7 a8 a9 a10 a11 a12 a13 a14 a15 a16 a17 a18 a19 a20 a21 a22 a23 a24 a25 a26 a27 a28 a29 a30 a31) :
    (U23 m c main_v84 : (⟨S512x128, .f32⟩ : BufTy).Contents (Elt Ideal)) = val_main_v189 (F := Ideal) a0 a1 a2 a3 a4 a5 a6 a7 a8 a9 a10 a11 a12 a13 a14 a15 a16 a17 a18 a19 a20 a21 a22 a23 a24 a25 a26 a27 a28 a29 a30 a31 := by
  have e : U23 m c main_v84 =
      Host.divf
        (Host.scatterAdd scatter_S512x128_S20000x1_S20000x128_1_0_0_1
          (broadcastInDim S512x128 ![] bcast_S_S512x128 (constant (F := Ideal) S_ .f32 0x00000000#32))
          (broadcastInDim S20000x1 ![0] bcast_S20000_S20000x1_0 (U22 m c main_arg3))
          (U22 m c main_v72))
        (broadcastInDim S512x128 ![0, 1] bcast_S512x1_S512x128_0_1
          (broadcastInDim S512x1 ![0] bcast_S512_S512x1_0
            (maximumf
              (Host.scatterAdd scatter_S512_S20000x1_S20000_n_0_0_1
                (broadcastInDim S512 ![] bcast_S_S512 (constant (F := Ideal) S_ .f32 0x00000000#32))
                (broadcastInDim S20000x1 ![0] bcast_S20000_S20000x1_0 (U22 m c main_arg3))
                (broadcastInDim S20000 ![] bcast_S_S20000 (constant (F := Ideal) S_ .f32 0x3F800000#32)))
              (broadcastInDim S512 ![] bcast_S_S512 (constant (F := Ideal) S_ .f32 0x3F800000#32))))) := by
    dsimp only [U23, hostOps8]; after_results <;> rfl
  rw [e, U22_arg3, show U22 m c main_v72 = o22 m c from Function.update_self .., hh3]
  rfl

end Cert.Bridge

end
-- ==== Proof.KI.Val3.lean ====
import proofs.«424575_j83829171683414_1_alg».proof.Proof.KI.B3
import proofs.«424575_j83829171683414_1_alg».proof.Proof.KI.ValLib
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay3_apply (v0 : Vec Ideal S2000x1 .f32) (v4 : Vec Ideal S2000x256 .f32) (v8 v12 v19 v23 : Vec Ideal S1x256 .f32)
    (p : Fin 2000) (q : Fin 256) :
    k3_pay1 v0 v4 v8 v12 v19 v23 (ix2 p q) =
      max ((((Ideal.div (v4 (ix2 p q)) (max (v0 (ix2 p 0)) 1) - v8 (ix2 0 q))
        * Ideal.rsqrt (v12 (ix2 0 q) + Ideal.ofBits .f32 0x3727C5AC#32)) * v19 (ix2 0 q)) + v23 (ix2 0 q)) 0 := by
  unfold k3_pay1
  simp only [shapeCast_self]
  simp only [maximumf_apply, addf_apply, mulf_apply, subf_apply, divf_apply, broadcast_apply, colTo, broadcastTo_1b_ab_apply, rsqrt_at,
    Ideal.ofBits_def, Ideal.ofBits_zero_f32, one_bits]

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem points3 : cfg3.N = 10 := rfl

def row3 (t : Fin cfg3.N) (p : Fin 2000) : Fin 20000 :=
  ⟨t.val * 2000 + p.val, by have h : t.val < 10 := Nat.lt_of_lt_of_eq t.isLt points3; have := p.isLt; omega⟩

def bnArr3 (c : Dev nD) : S20000x256.Idx → EReal := fun i =>
  Cert.Spec.bn (Ideal.ofBits .f32 0x3727C5AC#32) (V c main_v20) (V c main_v25) (V c main_v26) (V c main_v27) (V c main_v28) (V c main_v29) (i 0) (i 1)

-- the stored entry (p, q) reads every input where the tile's entry sits in that input's array
theorem flushed3_eq (c : Dev nD) (t : Fin cfg3.N) :
    (dat3 (F := Ideal) V c).flushed 6 t = ((cfg3.win 6).blk t).view.read (Elt Ideal) (bnArr3 V c) := by
  show (cfg3.win 6).cut (grid3.coords t) ((dat3 V c).after 6 t) = _
  rw [after3_6]
  unfold out3_6
  rw [View.canon_unit_zero zeros2]
  simp only [View.ld_unit_zero (S := S2000x256) zeros2, View.ld_unit_zero (S := S2000x1) zeros2, View.ld_unit_zero (S := S1x256) zeros2]
  obtain ⟨a0, a1, b0, b1, c0, c1, d0, d1, e0, e1, f0, f1, g0, g1⟩ := idx3 t
  funext j
  obtain ⟨p, q, rfl⟩ : ∃ (p : Fin 2000) (q : Fin 256), j = ix2 p q := ⟨j 0, j 1, eq_ix2 j⟩
  refine (pay3_apply _ _ _ _ _ _ p q).trans ?_
  rw [View.read_apply,
    show ((cfg3.win 6).blk t).view.emb (ix2 p q) = ix2 (row3 t p) q from Shape.idx_ext₂ ((win3_6.rect_emb_val t (ix2 p q) (0 : Fin 2)).trans (congrArg (· * 2000 + p.val) g0)) (win3_6.rect_emb_val_of_index_zero t (1 : Fin 2) g1 (ix2 p q)),
    show iblk3 V c 0 t (ix2 p q) = V c main_v20 (ix2 (row3 t p) q) from congrArg (V c main_v20) (Shape.idx_ext₂ ((win3_0.rect_emb_val t (ix2 p q) (0 : Fin 2)).trans (congrArg (· * 2000 + p.val) a0)) (win3_0.rect_emb_val_of_index_zero t (1 : Fin 2) a1 (ix2 p q))),
    show iblk3 V c 1 t (ix2 p (0 : Fin 1)) = V c main_v25 (ix2 (row3 t p) (0 : Fin 1)) from congrArg (V c main_v25) (Shape.idx_ext₂ ((win3_1.rect_emb_val t (ix2 p (0 : Fin 1)) (0 : Fin 2)).trans (congrArg (· * 2000 + p.val) b0)) (win3_1.rect_emb_val_of_index_zero t (1 : Fin 2) b1 (ix2 p (0 : Fin 1)))),
    show iblk3 V c 2 t (ix2 (0 : Fin 1) q) = V c main_v26 (ix2 (0 : Fin 1) q) from congrArg (V c main_v26) (Shape.idx_ext₂ (win3_2.rect_emb_val_of_index_zero t (0 : Fin 2) c0 (ix2 (0 : Fin 1) q)) (win3_2.rect_emb_val_of_index_zero t (1 : Fin 2) c1 (ix2 (0 : Fin 1) q))),
    show iblk3 V c 3 t (ix2 (0 : Fin 1) q) = V c main_v27 (ix2 (0 : Fin 1) q) from congrArg (V c main_v27) (Shape.idx_ext₂ (win3_3.rect_emb_val_of_index_zero t (0 : Fin 2) d0 (ix2 (0 : Fin 1) q)) (win3_3.rect_emb_val_of_index_zero t (1 : Fin 2) d1 (ix2 (0 : Fin 1) q))),
    show iblk3 V c 4 t (ix2 (0 : Fin 1) q) = V c main_v28 (ix2 (0 : Fin 1) q) from congrArg (V c main_v28) (Shape.idx_ext₂ (win3_4.rect_emb_val_of_index_zero t (0 : Fin 2) e0 (ix2 (0 : Fin 1) q)) (win3_4.rect_emb_val_of_index_zero t (1 : Fin 2) e1 (ix2 (0 : Fin 1) q))),
    show iblk3 V c 5 t (ix2 (0 : Fin 1) q) = V c main_v29 (ix2 (0 : Fin 1) q) from congrArg (V c main_v29) (Shape.idx_ext₂ (win3_5.rect_emb_val_of_index_zero t (0 : Fin 2) f0 (ix2 (0 : Fin 1) q)) (win3_5.rect_emb_val_of_index_zero t (1 : Fin 2) f1 (ix2 (0 : Fin 1) q)))]
  rfl

theorem cover3 (i : S20000x256.Idx) :
    ∃ t : Fin cfg3.N, (cfg3.win 6).flush t = true ∧ i ∈ ((cfg3.win 6).blk t).view.set := by
  have hi0 : (i 0).val < 20000 := (i 0).isLt
  obtain ⟨t, ht⟩ : ∃ t : Fin cfg3.N, t.val = (i 0).val / 2000 :=
    ⟨⟨(i 0).val / 2000, by rw [points3]; omega⟩, rfl⟩
  obtain ⟨-, -, -, -, -, -, -, -, -, -, -, -, e0, e1⟩ := idx3 t
  refine ⟨t, flush3_6 t, ?_⟩
  show i ∈ ((View.whole main_v30).slice (win3_6.rect t)).set
  rw [View.set_slice_whole]
  exact mem_rect_of_div win3_6 t i (fun _ => rfl) (by decide) fun a => by
    match a with
    | ⟨0, _⟩ => exact e0.trans ht
    | ⟨1, _⟩ => exact e1.trans (Nat.div_eq_of_lt (i 1).isLt).symm

theorem final3 (c : Dev nD) (a : Fin 20000) (b : Fin 256) :
    (dat3 (F := Ideal) V c).arrAt 6 cfg3.N (ix2 a b)
      = Cert.Spec.bn (Ideal.ofBits .f32 0x3727C5AC#32) (V c main_v20) (V c main_v25) (V c main_v26) (V c main_v27) (V c main_v28) (V c main_v29) a b :=
  congrFun ((dat3 (F := Ideal) V c).arrAt_eq_of_cover 6 (bnArr3 V c) (fun t _ => flushed3_eq V c t) (cover3)) (ix2 a b)

end Cert.KernelIdeal.Hand
-- ==== Proof.KI.Val5.lean ====
import proofs.«424575_j83829171683414_1_alg».proof.Proof.KI.B5
import proofs.«424575_j83829171683414_1_alg».proof.Proof.KI.ValLib
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay5_apply (v0 : Vec Ideal S2000x1 .f32) (v4 : Vec Ideal S2000x256 .f32) (v8 v12 v19 v23 : Vec Ideal S1x256 .f32)
    (p : Fin 2000) (q : Fin 256) :
    k5_pay1 v0 v4 v8 v12 v19 v23 (ix2 p q) =
      max ((((Ideal.div (v4 (ix2 p q)) (max (v0 (ix2 p 0)) 1) - v8 (ix2 0 q))
        * Ideal.rsqrt (v12 (ix2 0 q) + Ideal.ofBits .f32 0x3727C5AC#32)) * v19 (ix2 0 q)) + v23 (ix2 0 q)) 0 := by
  unfold k5_pay1
  simp only [shapeCast_self]
  simp only [maximumf_apply, addf_apply, mulf_apply, subf_apply, divf_apply, broadcast_apply, colTo, broadcastTo_1b_ab_apply, rsqrt_at,
    Ideal.ofBits_def, Ideal.ofBits_zero_f32, one_bits]

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem points5 : cfg5.N = 10 := rfl

def row5 (t : Fin cfg5.N) (p : Fin 2000) : Fin 20000 :=
  ⟨t.val * 2000 + p.val, by have h : t.val < 10 := Nat.lt_of_lt_of_eq t.isLt points5; have := p.isLt; omega⟩

def bnArr5 (c : Dev nD) : S20000x256.Idx → EReal := fun i =>
  Cert.Spec.bn (Ideal.ofBits .f32 0x3727C5AC#32) (V c main_v41) (V c main_v46) (V c main_v47) (V c main_v48) (V c main_v49) (V c main_v50) (i 0) (i 1)

-- the stored entry (p, q) reads every input where the tile's entry sits in that input's array
theorem flushed5_eq (c : Dev nD) (t : Fin cfg5.N) :
    (dat5 (F := Ideal) V c).flushed 6 t = ((cfg5.win 6).blk t).view.read (Elt Ideal) (bnArr5 V c) := by
  show (cfg5.win 6).cut (grid5.coords t) ((dat5 V c).after 6 t) = _
  rw [after5_6]
  unfold out5_6
  rw [View.canon_unit_zero zeros2]
  simp only [View.ld_unit_zero (S := S2000x256) zeros2, View.ld_unit_zero (S := S2000x1) zeros2, View.ld_unit_zero (S := S1x256) zeros2]
  obtain ⟨a0, a1, b0, b1, c0, c1, d0, d1, e0, e1, f0, f1, g0, g1⟩ := idx5 t
  funext j
  obtain ⟨p, q, rfl⟩ : ∃ (p : Fin 2000) (q : Fin 256), j = ix2 p q := ⟨j 0, j 1, eq_ix2 j⟩
  refine (pay5_apply _ _ _ _ _ _ p q).trans ?_
  rw [View.read_apply,
    show ((cfg5.win 6).blk t).view.emb (ix2 p q) = ix2 (row5 t p) q from Shape.idx_ext₂ ((win5_6.rect_emb_val t (ix2 p q) (0 : Fin 2)).trans (congrArg (· * 2000 + p.val) g0)) (win5_6.rect_emb_val_of_index_zero t (1 : Fin 2) g1 (ix2 p q)),
    show iblk5 V c 0 t (ix2 p q) = V c main_v41 (ix2 (row5 t p) q) from congrArg (V c main_v41) (Shape.idx_ext₂ ((win5_0.rect_emb_val t (ix2 p q) (0 : Fin 2)).trans (congrArg (· * 2000 + p.val) a0)) (win5_0.rect_emb_val_of_index_zero t (1 : Fin 2) a1 (ix2 p q))),
    show iblk5 V c 1 t (ix2 p (0 : Fin 1)) = V c main_v46 (ix2 (row5 t p) (0 : Fin 1)) from congrArg (V c main_v46) (Shape.idx_ext₂ ((win5_1.rect_emb_val t (ix2 p (0 : Fin 1)) (0 : Fin 2)).trans (congrArg (· * 2000 + p.val) b0)) (win5_1.rect_emb_val_of_index_zero t (1 : Fin 2) b1 (ix2 p (0 : Fin 1)))),
    show iblk5 V c 2 t (ix2 (0 : Fin 1) q) = V c main_v47 (ix2 (0 : Fin 1) q) from congrArg (V c main_v47) (Shape.idx_ext₂ (win5_2.rect_emb_val_of_index_zero t (0 : Fin 2) c0 (ix2 (0 : Fin 1) q)) (win5_2.rect_emb_val_of_index_zero t (1 : Fin 2) c1 (ix2 (0 : Fin 1) q))),
    show iblk5 V c 3 t (ix2 (0 : Fin 1) q) = V c main_v48 (ix2 (0 : Fin 1) q) from congrArg (V c main_v48) (Shape.idx_ext₂ (win5_3.rect_emb_val_of_index_zero t (0 : Fin 2) d0 (ix2 (0 : Fin 1) q)) (win5_3.rect_emb_val_of_index_zero t (1 : Fin 2) d1 (ix2 (0 : Fin 1) q))),
    show iblk5 V c 4 t (ix2 (0 : Fin 1) q) = V c main_v49 (ix2 (0 : Fin 1) q) from congrArg (V c main_v49) (Shape.idx_ext₂ (win5_4.rect_emb_val_of_index_zero t (0 : Fin 2) e0 (ix2 (0 : Fin 1) q)) (win5_4.rect_emb_val_of_index_zero t (1 : Fin 2) e1 (ix2 (0 : Fin 1) q))),
    show iblk5 V c 5 t (ix2 (0 : Fin 1) q) = V c main_v50 (ix2 (0 : Fin 1) q) from congrArg (V c main_v50) (Shape.idx_ext₂ (win5_5.rect_emb_val_of_index_zero t (0 : Fin 2) f0 (ix2 (0 : Fin 1) q)) (win5_5.rect_emb_val_of_index_zero t (1 : Fin 2) f1 (ix2 (0 : Fin 1) q)))]
  rfl

theorem cover5 (i : S20000x256.Idx) :
    ∃ t : Fin cfg5.N, (cfg5.win 6).flush t = true ∧ i ∈ ((cfg5.win 6).blk t).view.set := by
  have hi0 : (i 0).val < 20000 := (i 0).isLt
  obtain ⟨t, ht⟩ : ∃ t : Fin cfg5.N, t.val = (i 0).val / 2000 :=
    ⟨⟨(i 0).val / 2000, by rw [points5]; omega⟩, rfl⟩
  obtain ⟨-, -, -, -, -, -, -, -, -, -, -, -, e0, e1⟩ := idx5 t
  refine ⟨t, flush5_6 t, ?_⟩
  show i ∈ ((View.whole main_v51).slice (win5_6.rect t)).set
  rw [View.set_slice_whole]
  exact mem_rect_of_div win5_6 t i (fun _ => rfl) (by decide) fun a => by
    match a with
    | ⟨0, _⟩ => exact e0.trans ht
    | ⟨1, _⟩ => exact e1.trans (Nat.div_eq_of_lt (i 1).isLt).symm

theorem final5 (c : Dev nD) (a : Fin 20000) (b : Fin 256) :
    (dat5 (F := Ideal) V c).arrAt 6 cfg5.N (ix2 a b)
      = Cert.Spec.bn (Ideal.ofBits .f32 0x3727C5AC#32) (V c main_v41) (V c main_v46) (V c main_v47) (V c main_v48) (V c main_v49) (V c main_v50) a b :=
  congrFun ((dat5 (F := Ideal) V c).arrAt_eq_of_cover 6 (bnArr5 V c) (fun t _ => flushed5_eq V c t) (cover5)) (ix2 a b)

end Cert.KernelIdeal.Hand
-- ==== Proof.KI.Val7.lean ====
import proofs.«424575_j83829171683414_1_alg».proof.Proof.KI.B7
import proofs.«424575_j83829171683414_1_alg».proof.Proof.KI.ValLib
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay7_apply (v0 : Vec Ideal S2000x1 .f32) (v4 : Vec Ideal S2000x128 .f32) (v8 v12 v19 v23 : Vec Ideal S1x128 .f32)
    (p : Fin 2000) (q : Fin 128) :
    k7_pay1 v0 v4 v8 v12 v19 v23 (ix2 p q) =
      max ((((Ideal.div (v4 (ix2 p q)) (max (v0 (ix2 p 0)) 1) - v8 (ix2 0 q))
        * Ideal.rsqrt (v12 (ix2 0 q) + Ideal.ofBits .f32 0x3727C5AC#32)) * v19 (ix2 0 q)) + v23 (ix2 0 q)) 0 := by
  unfold k7_pay1
  simp only [shapeCast_self]
  simp only [maximumf_apply, addf_apply, mulf_apply, subf_apply, divf_apply, broadcast_apply, colTo, broadcastTo_1b_ab_apply, rsqrt_at,
    Ideal.ofBits_def, Ideal.ofBits_zero_f32, one_bits]

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

theorem points7 : cfg7.N = 10 := rfl

def row7 (t : Fin cfg7.N) (p : Fin 2000) : Fin 20000 :=
  ⟨t.val * 2000 + p.val, by have h : t.val < 10 := Nat.lt_of_lt_of_eq t.isLt points7; have := p.isLt; omega⟩

def bnArr7 (c : Dev nD) : S20000x128.Idx → EReal := fun i =>
  Cert.Spec.bn (Ideal.ofBits .f32 0x3727C5AC#32) (V c main_v62) (V c main_v67) (V c main_v68) (V c main_v69) (V c main_v70) (V c main_v71) (i 0) (i 1)

-- the stored entry (p, q) reads every input where the tile's entry sits in that input's array
theorem flushed7_eq (c : Dev nD) (t : Fin cfg7.N) :
    (dat7 (F := Ideal) V c).flushed 6 t = ((cfg7.win 6).blk t).view.read (Elt Ideal) (bnArr7 V c) := by
  show (cfg7.win 6).cut (grid7.coords t) ((dat7 V c).after 6 t) = _
  rw [after7_6]
  unfold out7_6
  rw [View.canon_unit_zero zeros2]
  simp only [View.ld_unit_zero (S := S2000x128) zeros2, View.ld_unit_zero (S := S2000x1) zeros2, View.ld_unit_zero (S := S1x128) zeros2]
  obtain ⟨a0, a1, b0, b1, c0, c1, d0, d1, e0, e1, f0, f1, g0, g1⟩ := idx7 t
  funext j
  obtain ⟨p, q, rfl⟩ : ∃ (p : Fin 2000) (q : Fin 128), j = ix2 p q := ⟨j 0, j 1, eq_ix2 j⟩
  refine (pay7_apply _ _ _ _ _ _ p q).trans ?_
  rw [View.read_apply,
    show ((cfg7.win 6).blk t).view.emb (ix2 p q) = ix2 (row7 t p) q from Shape.idx_ext₂ ((win7_6.rect_emb_val t (ix2 p q) (0 : Fin 2)).trans (congrArg (· * 2000 + p.val) g0)) (win7_6.rect_emb_val_of_index_zero t (1 : Fin 2) g1 (ix2 p q)),
    show iblk7 V c 0 t (ix2 p q) = V c main_v62 (ix2 (row7 t p) q) from congrArg (V c main_v62) (Shape.idx_ext₂ ((win7_0.rect_emb_val t (ix2 p q) (0 : Fin 2)).trans (congrArg (· * 2000 + p.val) a0)) (win7_0.rect_emb_val_of_index_zero t (1 : Fin 2) a1 (ix2 p q))),
    show iblk7 V c 1 t (ix2 p (0 : Fin 1)) = V c main_v67 (ix2 (row7 t p) (0 : Fin 1)) from congrArg (V c main_v67) (Shape.idx_ext₂ ((win7_1.rect_emb_val t (ix2 p (0 : Fin 1)) (0 : Fin 2)).trans (congrArg (· * 2000 + p.val) b0)) (win7_1.rect_emb_val_of_index_zero t (1 : Fin 2) b1 (ix2 p (0 : Fin 1)))),
    show iblk7 V c 2 t (ix2 (0 : Fin 1) q) = V c main_v68 (ix2 (0 : Fin 1) q) from congrArg (V c main_v68) (Shape.idx_ext₂ (win7_2.rect_emb_val_of_index_zero t (0 : Fin 2) c0 (ix2 (0 : Fin 1) q)) (win7_2.rect_emb_val_of_index_zero t (1 : Fin 2) c1 (ix2 (0 : Fin 1) q))),
    show iblk7 V c 3 t (ix2 (0 : Fin 1) q) = V c main_v69 (ix2 (0 : Fin 1) q) from congrArg (V c main_v69) (Shape.idx_ext₂ (win7_3.rect_emb_val_of_index_zero t (0 : Fin 2) d0 (ix2 (0 : Fin 1) q)) (win7_3.rect_emb_val_of_index_zero t (1 : Fin 2) d1 (ix2 (0 : Fin 1) q))),
    show iblk7 V c 4 t (ix2 (0 : Fin 1) q) = V c main_v70 (ix2 (0 : Fin 1) q) from congrArg (V c main_v70) (Shape.idx_ext₂ (win7_4.rect_emb_val_of_index_zero t (0 : Fin 2) e0 (ix2 (0 : Fin 1) q)) (win7_4.rect_emb_val_of_index_zero t (1 : Fin 2) e1 (ix2 (0 : Fin 1) q))),
    show iblk7 V c 5 t (ix2 (0 : Fin 1) q) = V c main_v71 (ix2 (0 : Fin 1) q) from congrArg (V c main_v71) (Shape.idx_ext₂ (win7_5.rect_emb_val_of_index_zero t (0 : Fin 2) f0 (ix2 (0 : Fin 1) q)) (win7_5.rect_emb_val_of_index_zero t (1 : Fin 2) f1 (ix2 (0 : Fin 1) q)))]
  rfl

theorem cover7 (i : S20000x128.Idx) :
    ∃ t : Fin cfg7.N, (cfg7.win 6).flush t = true ∧ i ∈ ((cfg7.win 6).blk t).view.set := by
  have hi0 : (i 0).val < 20000 := (i 0).isLt
  obtain ⟨t, ht⟩ : ∃ t : Fin cfg7.N, t.val = (i 0).val / 2000 :=
    ⟨⟨(i 0).val / 2000, by rw [points7]; omega⟩, rfl⟩
  obtain ⟨-, -, -, -, -, -, -, -, -, -, -, -, e0, e1⟩ := idx7 t
  refine ⟨t, flush7_6 t, ?_⟩
  show i ∈ ((View.whole main_v72).slice (win7_6.rect t)).set
  rw [View.set_slice_whole]
  exact mem_rect_of_div win7_6 t i (fun _ => rfl) (by decide) fun a => by
    match a with
    | ⟨0, _⟩ => exact e0.trans ht
    | ⟨1, _⟩ => exact e1.trans (Nat.div_eq_of_lt (i 1).isLt).symm

theorem final7 (c : Dev nD) (a : Fin 20000) (b : Fin 128) :
    (dat7 (F := Ideal) V c).arrAt 6 cfg7.N (ix2 a b)
      = Cert.Spec.bn (Ideal.ofBits .f32 0x3727C5AC#32) (V c main_v62) (V c main_v67) (V c main_v68) (V c main_v69) (V c main_v70) (V c main_v71) a b :=
  congrFun ((dat7 (F := Ideal) V c).arrAt_eq_of_cover 6 (bnArr7 V c) (fun t _ => flushed7_eq V c t) (cover7)) (ix2 a b)

end Cert.KernelIdeal.Hand
-- ==== Proof.RefBn.lean ====
import proofs.«424575_j83829171683414_1_alg».proof.Proof.RefRead
import proofs.«424575_j83829171683414_1_alg».proof.Proof.Spec
import Idealize.ShloMosaic.Lib.IdealHost
import Idealize.ShloMosaic.Lib.KernelVsHost

noncomputable section

namespace Cert.RefLegs

open Cert.ReferenceIdeal Cert.ReferenceIdeal.Gen Cert.ReferenceIdeal.ReadP Idealize.ShloMosaic Idealize.ShloMosaic.TcCoe
  Idealize.ShloMosaic.ValueIdx

-- The shift is the positive real 10995116 · 2⁻⁴⁰.
theorem eps_real : ∃ e : ℝ, 0 < e ∧ Ideal.ofBits .f32 0x3727C5AC#32 = (e : EReal) := by
  refine ⟨(10995116 : ℝ) * ((2 : ℝ) ^ 40)⁻¹, by positivity, ?_⟩
  simp [Ideal.ofBits, Ideal.ieee]

-- For real v ≥ 0 the root of v + e is a nonzero real r and x / r = x · r⁻¹; at v = ⊤ the root is ⊤, ⊤⁻¹ = 0, and the reciprocal root is 0.
theorem div_sqrt_eq_mul_rsqrt (e : ℝ) (he : 0 < e) (v : EReal) (hv : 0 ≤ v) (x : EReal) :
    Ideal.div x (Ideal.sqrt (v + (e : EReal))) = x * Ideal.rsqrt (v + (e : EReal)) := by
  induction v using EReal.rec with
  | bot => exact absurd hv (by simp)
  | top => rw [EReal.top_add_coe, Ideal.sqrt_top, Ideal.rsqrt_top, Ideal.div, if_neg EReal.top_ne_zero, EReal.inv_top]
  | coe r =>
    have hpos : 0 < r + e := add_pos_of_nonneg_of_pos (by exact_mod_cast hv) he
    rw [← EReal.coe_add, Ideal.sqrt_coe, Ideal.rsqrt_coe, if_neg (not_lt.mpr hpos.le), if_neg (not_lt.mpr hpos.le), if_neg hpos.ne',
      Ideal.div_coe (Real.sqrt_pos.mpr hpos).ne', one_div]

section Reads

variable {α : Type} {M C : Nat}

-- A coordinate below n is 0 when n = 1: the entry a broadcast reads along an axis of extent n.
theorem bcast_coord {n : Nat} (v : Fin n) : v.val = if n = 1 then 0 else v.val := by
  split
  · have := v.isLt; omega
  · rfl

theorem hdivf_apply {s : Shape} {φ : FTy} (x y : FVec Ideal s φ) (i : s.Idx) : Host.divf x y i = Ideal.div (x i) (y i) := rfl

theorem hsqrt_apply {s : Shape} {φ : FTy} (x : FVec Ideal s φ) (i : s.Idx) : Host.sqrt x i = Ideal.sqrt (x i) := rfl

theorem vec_col (hc : (⟨1, ![M]⟩ : Shape).BroadcastsInDim ⟨2, ![M, 1]⟩ ![0]) (y : (⟨1, ![M]⟩ : Shape).Idx → α) (a : Fin M) :
    broadcastInDim ⟨2, ![M, 1]⟩ ![0] hc y (ix2 a 0) = y (ix1 a) :=
  broadcastInDim_apply ![0] hc y _ _ fun d => by obtain rfl : d = 0 := Subsingleton.elim _ _; exact bcast_coord a

theorem vec_row (hr : (⟨1, ![C]⟩ : Shape).BroadcastsInDim ⟨2, ![1, C]⟩ ![1]) (y : (⟨1, ![C]⟩ : Shape).Idx → α) (c : Fin C) :
    broadcastInDim ⟨2, ![1, C]⟩ ![1] hr y (ix2 0 c) = y (ix1 c) :=
  broadcastInDim_apply ![1] hr y _ _ fun d => by obtain rfl : d = 0 := Subsingleton.elim _ _; exact bcast_coord c

theorem col_at (hC : (⟨2, ![M, 1]⟩ : Shape).BroadcastsInDim ⟨2, ![M, C]⟩ ![0, 1]) (y : (⟨2, ![M, 1]⟩ : Shape).Idx → α)
    (a : Fin M) (c : Fin C) : broadcastInDim ⟨2, ![M, C]⟩ ![0, 1] hC y (ix2 a c) = y (ix2 a 0) :=
  broadcastInDim_apply ![0, 1] hC y _ _ fun d => match d with
    | ⟨0, _⟩ => bcast_coord a
    | ⟨1, _⟩ => by show 0 = if (1 : Nat) = 1 then 0 else c.val; rw [if_pos rfl]

-- Each broadcast operand is read at its own entry, and a quotient by the root of v + ε with v ≥ 0 is a product with the reciprocal root.
theorem bn_parts (s : FVec Ideal ⟨2, ![M, C]⟩ .f32) (n : FVec Ideal ⟨1, ![M]⟩ .f32) (g b u v : FVec Ideal ⟨1, ![C]⟩ .f32)
    {hc : (⟨1, ![M]⟩ : Shape).BroadcastsInDim ⟨2, ![M, 1]⟩ ![0]}
    {hC : (⟨2, ![M, 1]⟩ : Shape).BroadcastsInDim ⟨2, ![M, C]⟩ ![0, 1]}
    {hr : (⟨1, ![C]⟩ : Shape).BroadcastsInDim ⟨2, ![1, C]⟩ ![1]}
    {hR : (⟨2, ![1, C]⟩ : Shape).BroadcastsInDim ⟨2, ![M, C]⟩ ![0, 1]}
    {h1 : (⟨0, ![]⟩ : Shape).BroadcastsInDim ⟨1, ![M]⟩ ![]} {he : (⟨0, ![]⟩ : Shape).BroadcastsInDim ⟨1, ![C]⟩ ![]}
    {hz : (⟨0, ![]⟩ : Shape).BroadcastsInDim ⟨2, ![M, C]⟩ ![]}
    (hv : ∀ j, (0 : EReal) ≤ v j) (a : Fin M) (c : Fin C) :
    maximumf (addf (mulf (Host.divf (subf (Host.divf s
        (broadcastInDim ⟨2, ![M, C]⟩ ![0, 1] hC (broadcastInDim ⟨2, ![M, 1]⟩ ![0] hc
          (maximumf n (broadcastInDim ⟨1, ![M]⟩ ![] h1 (constant ⟨0, ![]⟩ .f32 0x3F800000#32))))))
        (broadcastInDim ⟨2, ![M, C]⟩ ![0, 1] hR (broadcastInDim ⟨2, ![1, C]⟩ ![1] hr u)))
        (broadcastInDim ⟨2, ![M, C]⟩ ![0, 1] hR (broadcastInDim ⟨2, ![1, C]⟩ ![1] hr
          (Host.sqrt (addf v (broadcastInDim ⟨1, ![C]⟩ ![] he (constant ⟨0, ![]⟩ .f32 0x3727C5AC#32)))))))
        (broadcastInDim ⟨2, ![M, C]⟩ ![0, 1] hR (broadcastInDim ⟨2, ![1, C]⟩ ![1] hr g)))
        (broadcastInDim ⟨2, ![M, C]⟩ ![0, 1] hR (broadcastInDim ⟨2, ![1, C]⟩ ![1] hr b)))
        (broadcastInDim ⟨2, ![M, C]⟩ ![] hz (constant ⟨0, ![]⟩ .f32 0x00000000#32)) (ix2 a c)
      = Cert.Spec.bn (Ideal.ofBits .f32 0x3727C5AC#32) s (broadcastInDim ⟨2, ![M, 1]⟩ ![0] hc n)
          (broadcastInDim ⟨2, ![1, C]⟩ ![1] hr g) (broadcastInDim ⟨2, ![1, C]⟩ ![1] hr b)
          (broadcastInDim ⟨2, ![1, C]⟩ ![1] hr u) (broadcastInDim ⟨2, ![1, C]⟩ ![1] hr v) a c := by
  obtain ⟨e, he0, hε⟩ := eps_real
  unfold Cert.Spec.bn
  simp only [maximumf_apply, addf_apply, mulf_apply, subf_apply, hdivf_apply]
  rw [col_at]
  repeat rw [vec_col]
  repeat rw [broadcastInDim_oneRow_apply]
  repeat rw [vec_row]
  simp only [maximumf_apply, addf_apply, hsqrt_apply]
  repeat rw [broadcastInDim_scalar_apply]
  repeat rw [constant_apply]
  rw [Ideal.ofBits_one_f32, Ideal.ofBits_zero_f32, hε, div_sqrt_eq_mul_rsqrt e he0 _ (hv _)]

end Reads

variable (x0 : (⟨S20000x32, .f32⟩ : BufTy).Contents (Elt Ideal)) (x1 : (⟨S2x200000, .i32⟩ : BufTy).Contents (Elt Ideal))
  (x2 : (⟨S200000x8, .f32⟩ : BufTy).Contents (Elt Ideal)) (x4 : (⟨S16x8, .f32⟩ : BufTy).Contents (Elt Ideal))
  (x5 : (⟨S16, .f32⟩ : BufTy).Contents (Elt Ideal)) (x6 : (⟨S256x32, .f32⟩ : BufTy).Contents (Elt Ideal))
  (x7 : (⟨S256, .f32⟩ : BufTy).Contents (Elt Ideal)) (x8 : (⟨S512x528, .f32⟩ : BufTy).Contents (Elt Ideal))
  (x9 : (⟨S512, .f32⟩ : BufTy).Contents (Elt Ideal)) (x10 : (⟨S256x512, .f32⟩ : BufTy).Contents (Elt Ideal))
  (x11 : (⟨S256, .f32⟩ : BufTy).Contents (Elt Ideal)) (x12 : (⟨S512x528, .f32⟩ : BufTy).Contents (Elt Ideal))
  (x13 : (⟨S512, .f32⟩ : BufTy).Contents (Elt Ideal)) (x14 : (⟨S256x512, .f32⟩ : BufTy).Contents (Elt Ideal))
  (x15 : (⟨S256, .f32⟩ : BufTy).Contents (Elt Ideal)) (x16 : (⟨S256x528, .f32⟩ : BufTy).Contents (Elt Ideal))
  (x17 : (⟨S256, .f32⟩ : BufTy).Contents (Elt Ideal)) (x18 : (⟨S128x256, .f32⟩ : BufTy).Contents (Elt Ideal))
  (x19 : (⟨S128, .f32⟩ : BufTy).Contents (Elt Ideal)) (x20 x21 x22 x23 x24 x25 x26 x27 : (⟨S256, .f32⟩ : BufTy).Contents (Elt Ideal))
  (x28 x29 x30 x31 : (⟨S128, .f32⟩ : BufTy).Contents (Elt Ideal))

theorem h1_leg (hv : ∀ j, (0 : EReal) ≤ x23 j) (a : Fin 20000) (c : Fin 256) :
    val_main_v69 (F := Ideal) x0 x1 x2 x4 x5 x6 x7 x8 x9 x10 x11 x20 x21 x22 x23 (ix2 a c)
      = Cert.Spec.bn (M := 20000) (C := 256) (Ideal.ofBits .f32 0x3727C5AC#32)
          (val_main_v44 (F := Ideal) x0 x1 x2 x4 x5 x6 x7 x8 x9 x10 x11)
          (broadcastInDim S20000x1 ![0] bcast_S20000_S20000x1_0 (val_main_v48 (F := Ideal) x1))
          (val_main_v63 (F := Ideal) x20) (val_main_v66 (F := Ideal) x21) (val_main_v54 (F := Ideal) x22)
          (broadcastInDim S1x256 ![1] bcast_S256_S1x256_1 x23) a c :=
  bn_parts _ _ _ _ _ _ hv a c

theorem h2_leg (hv : ∀ j, (0 : EReal) ≤ x27 j) (a : Fin 20000) (c : Fin 256) :
    val_main_v123 (F := Ideal) x0 x1 x2 x4 x5 x6 x7 x8 x9 x10 x11 x12 x13 x14 x15 x20 x21 x22 x23 x24 x25 x26 x27 (ix2 a c)
      = Cert.Spec.bn (M := 20000) (C := 256) (Ideal.ofBits .f32 0x3727C5AC#32)
          (val_main_v98 (F := Ideal) x0 x1 x2 x4 x5 x6 x7 x8 x9 x10 x11 x12 x13 x14 x15 x20 x21 x22 x23)
          (broadcastInDim S20000x1 ![0] bcast_S20000_S20000x1_0 (val_main_v102 (F := Ideal) x1))
          (val_main_v117 (F := Ideal) x24) (val_main_v120 (F := Ideal) x25) (val_main_v108 (F := Ideal) x26)
          (broadcastInDim S1x256 ![1] bcast_S256_S1x256_1 x27) a c :=
  bn_parts _ _ _ _ _ _ hv a c

theorem h3_leg (hv : ∀ j, (0 : EReal) ≤ x31 j) (a : Fin 20000) (c : Fin 128) :
    val_main_v177 (F := Ideal) x0 x1 x2 x4 x5 x6 x7 x8 x9 x10 x11 x12 x13 x14 x15 x16 x17 x18 x19 x20 x21 x22 x23 x24 x25 x26 x27 x28 x29 x30 x31 (ix2 a c)
      = Cert.Spec.bn (M := 20000) (C := 128) (Ideal.ofBits .f32 0x3727C5AC#32)
          (val_main_v152 (F := Ideal) x0 x1 x2 x4 x5 x6 x7 x8 x9 x10 x11 x12 x13 x14 x15 x16 x17 x18 x19 x20 x21 x22 x23 x24 x25 x26 x27)
          (broadcastInDim S20000x1 ![0] bcast_S20000_S20000x1_0 (val_main_v156 (F := Ideal) x1))
          (val_main_v171 (F := Ideal) x28) (val_main_v174 (F := Ideal) x29) (val_main_v162 (F := Ideal) x30)
          (broadcastInDim S1x128 ![1] bcast_S128_S1x128_1 x31) a c :=
  bn_parts _ _ _ _ _ _ hv a c

end Cert.RefLegs

end
-- ==== Proof.BridgeBn.lean ====
import proofs.«424575_j83829171683414_1_alg».proof.Proof.KI.Val3
import proofs.«424575_j83829171683414_1_alg».proof.Proof.KI.Val5
import proofs.«424575_j83829171683414_1_alg».proof.Proof.KI.Val7
import proofs.«424575_j83829171683414_1_alg».proof.Proof.RefBn
import proofs.«424575_j83829171683414_1_alg».proof.Proof.PreFacts
import proofs.«424575_j83829171683414_1_alg».proof.Proof.BridgeWeights

set_option maxRecDepth 16384

noncomputable section

namespace Cert.Bridge

open Cert.KernelIdeal Cert.KernelIdeal.Gen Cert.KernelIdeal.Hand Cert.ReferenceIdeal.ReadP Cert.RefLegs
open Idealize.ShloMosaic Idealize.ShloMosaic.TcCoe Idealize.SL Idealize.SL.Sem Idealize.ShloMosaic.ValueIdx

variable [Cert.Pre_finite_inputs.Facts]
variable (m : (ℓ : Loc nD τ sig) → Buf (Elt Ideal) ℓ) (c : Dev nD)

set_option maxHeartbeats 1000000 in
private theorem cntCol1 : U9 m c main_v25 = shapeCast S20000x1 (U9 m c main_v24) shapeCasts_S20000_S20000x1 := by
  dsimp only [U9, hostOps3]; after_results <;> rfl

theorem h1_eq (hp : Cert.Pre_KernelIdeal m) (hhs : U9 m c main_v20 = val_main_v44 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11))
    (hcn : U9 m c main_v24 = val_main_v48 (F := Ideal) (U0 m c main_arg1)) :
    o10 m c = val_main_v69 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg20) (U0 m c main_arg21) (U0 m c main_arg22) (U0 m c main_arg23) :=
  eq_of_read (final3 (atRefs (U9 m)) c) fun a b => by
    have hv : ∀ j, (0 : EReal) ≤ U0 m c main_arg23 j := Cert.PreFacts.var0_nonneg m hp c
    have hcol : U9 m c main_v25 = broadcastInDim Cert.ReferenceIdeal.S20000x1 ![0] Cert.ReferenceIdeal.Gen.bcast_S20000_S20000x1_0 (val_main_v48 (F := Ideal) (U0 m c main_arg1)) := by
      rw [cntCol1 m c, hcn]; exact ReshapeAsBroadcast.shapeCast_col 20000 _ _ _
    rw [h1_leg _ _ _ _ _ _ _ _ _ _ _ _ _ _ _ hv, ← hhs, ← hcol, ← w_r3_v26 m c, ← w_r3_v27 m c, ← w_r3_v28 m c, ← w_r3_v29 m c] <;> rfl

set_option maxHeartbeats 1000000 in
private theorem cntCol2 : U15 m c main_v46 = shapeCast S20000x1 (U15 m c main_v45) shapeCasts_S20000_S20000x1 := by
  dsimp only [U15, hostOps5]; after_results <;> rfl

theorem h2_eq (hp : Cert.Pre_KernelIdeal m) (hhs : U15 m c main_v41 = val_main_v98 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23))
    (hcn : U15 m c main_v45 = val_main_v102 (F := Ideal) (U0 m c main_arg1)) :
    o16 m c = val_main_v123 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg20) (U0 m c main_arg21) (U0 m c main_arg22) (U0 m c main_arg23) (U0 m c main_arg24) (U0 m c main_arg25) (U0 m c main_arg26) (U0 m c main_arg27) :=
  eq_of_read (final5 (atRefs (U15 m)) c) fun a b => by
    have hv : ∀ j, (0 : EReal) ≤ U0 m c main_arg27 j := Cert.PreFacts.var1_nonneg m hp c
    have hcol : U15 m c main_v46 = broadcastInDim Cert.ReferenceIdeal.S20000x1 ![0] Cert.ReferenceIdeal.Gen.bcast_S20000_S20000x1_0 (val_main_v102 (F := Ideal) (U0 m c main_arg1)) := by
      rw [cntCol2 m c, hcn]; exact ReshapeAsBroadcast.shapeCast_col 20000 _ _ _
    rw [h2_leg _ _ _ _ _ _ _ _ _ _ _ _ _ _ _ _ _ _ _ _ _ _ _ hv, ← hhs, ← hcol, ← w_r5_v47 m c, ← w_r5_v48 m c, ← w_r5_v49 m c, ← w_r5_v50 m c] <;> rfl

set_option maxHeartbeats 1000000 in
private theorem cntCol3 : U21 m c main_v67 = shapeCast S20000x1 (U21 m c main_v66) shapeCasts_S20000_S20000x1 := by
  dsimp only [U21, hostOps7]; after_results <;> rfl

theorem h3_eq (hp : Cert.Pre_KernelIdeal m) (hhs : U21 m c main_v62 = val_main_v152 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg16) (U0 m c main_arg17) (U0 m c main_arg18) (U0 m c main_arg19) (U0 m c main_arg20) (U0 m c main_arg21) (U0 m c main_arg22) (U0 m c main_arg23) (U0 m c main_arg24) (U0 m c main_arg25) (U0 m c main_arg26) (U0 m c main_arg27))
    (hcn : U21 m c main_v66 = val_main_v156 (F := Ideal) (U0 m c main_arg1)) :
    o22 m c = val_main_v177 (F := Ideal) (U0 m c main_arg0) (U0 m c main_arg1) (U0 m c main_arg2) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg16) (U0 m c main_arg17) (U0 m c main_arg18) (U0 m c main_arg19) (U0 m c main_arg20) (U0 m c main_arg21) (U0 m c main_arg22) (U0 m c main_arg23) (U0 m c main_arg24) (U0 m c main_arg25) (U0 m c main_arg26) (U0 m c main_arg27) (U0 m c main_arg28) (U0 m c main_arg29) (U0 m c main_arg30) (U0 m c main_arg31) :=
  eq_of_read (final7 (atRefs (U21 m)) c) fun a b => by
    have hv : ∀ j, (0 : EReal) ≤ U0 m c main_arg31 j := Cert.PreFacts.var2_nonneg m hp c
    have hcol : U21 m c main_v67 = broadcastInDim Cert.ReferenceIdeal.S20000x1 ![0] Cert.ReferenceIdeal.Gen.bcast_S20000_S20000x1_0 (val_main_v156 (F := Ideal) (U0 m c main_arg1)) := by
      rw [cntCol3 m c, hcn]; exact ReshapeAsBroadcast.shapeCast_col 20000 _ _ _
    rw [h3_leg _ _ _ _ _ _ _ _ _ _ _ _ _ _ _ _ _ _ _ _ _ _ _ _ _ _ _ _ _ _ _ hv, ← hhs, ← hcol, ← w_r7_v68 m c, ← w_r7_v69 m c, ← w_r7_v70 m c, ← w_r7_v71 m c] <;> rfl

end Cert.Bridge

end
-- ==== Proof.KI.Val8.lean ====
import proofs.«424575_j83829171683414_1_alg».proof.Proof.KI.B8
import proofs.«424575_j83829171683414_1_alg».proof.Proof.KI.ValLib
import proofs.«424575_j83829171683414_1_alg».proof.Proof.LibPlainDot

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

theorem idx_zero8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

section AnyField
variable {F : FTy → Type} [FloatOps F]
variable (V : (c : Dev nD) → (b : Ref sig .tc) → Buf (Elt F) ((c : Thread nD τ).loc b))

-- every window's one block is its whole array, so the point writes back the payload of the three arrays
theorem flushed8_3_eq (c : Dev nD) (t : Fin cfg8.N) :
    (dat8 V c).flushed 3 t = ((cfg8.win 3).blk t).view.read (Elt F) (k8_pay1 (V c main_v84) (V c main_v85) (V c main_v86)) := by
  show (cfg8.win 3).cut (grid8.coords t) ((dat8 V c).after 3 t) = _
  rw [after8_3]
  unfold out8_3
  rw [View.canon_unit_zero zeros2]
  simp only [View.ld_unit_zero (S := S512x128) zeros2, View.ld_unit_zero (S := S128x12) zeros2, View.ld_unit_zero (S := S1x12) zeros2]
  obtain ⟨a0, a1, b0, b1, c0, c1, d0, d1⟩ := idx_zero8 t
  rw [show iblk8 V c 0 t = V c main_v84 from funext fun j => congrArg (V c main_v84) (Shape.idx_ext₂ (win8_0.rect_emb_val_of_index_zero t (0 : Fin 2) a0 j) (win8_0.rect_emb_val_of_index_zero t (1 : Fin 2) a1 j)),
    show iblk8 V c 1 t = V c main_v85 from funext fun j => congrArg (V c main_v85) (Shape.idx_ext₂ (win8_1.rect_emb_val_of_index_zero t (0 : Fin 2) b0 j) (win8_1.rect_emb_val_of_index_zero t (1 : Fin 2) b1 j)),
    show iblk8 V c 2 t = V c main_v86 from funext fun j => congrArg (V c main_v86) (Shape.idx_ext₂ (win8_2.rect_emb_val_of_index_zero t (0 : Fin 2) c0 j) (win8_2.rect_emb_val_of_index_zero t (1 : Fin 2) c1 j))]
  funext j
  show k8_pay1 (V c main_v84) (V c main_v85) (V c main_v86) j = k8_pay1 (V c main_v84) (V c main_v85) (V c main_v86) (((cfg8.win 3).blk t).view.emb j)
  rw [show ((cfg8.win 3).blk t).view.emb j = j from Shape.idx_ext₂ (win8_3.rect_emb_val_of_index_zero t (0 : Fin 2) d0 j) (win8_3.rect_emb_val_of_index_zero t (1 : Fin 2) d1 j)]

theorem arr8_3 (c : Dev nD) : (dat8 V c).arrAt 3 cfg8.N = k8_pay1 (V c main_v84) (V c main_v85) (V c main_v86) :=
  (dat8 V c).arrAt_eq_of_cover 3 _ (fun t _ => flushed8_3_eq V c t) (fun i => ⟨t8_0, flush8_3 _, by
    obtain ⟨-, -, -, -, -, -, d0, d1⟩ := idx_zero8 t8_0
    have h := ((cfg8.win 3).blk t8_0).view.emb_mem_set i
    rw [show ((cfg8.win 3).blk t8_0).view.emb i = i from Shape.idx_ext₂ (win8_3.rect_emb_val_of_index_zero t8_0 (0 : Fin 2) d0 i) (win8_3.rect_emb_val_of_index_zero t8_0 (1 : Fin 2) d1 i)] at h; exact h⟩)
end AnyField

theorem final8 (V : (c : Dev nD) → (b : Ref sig .tc) → Buf (Elt Ideal) ((c : Thread nD τ).loc b)) (c : Dev nD) (a : Fin 512) (b : Fin 12) :
    (dat8 (F := Ideal) V c).arrAt 3 cfg8.N (ValueIdx.ix2 a b) = Cert.Spec.fc (V c main_v84) (V c main_v85) (V c main_v86) a b := by
  rw [arr8_3]
  unfold k8_pay1 Cert.Spec.fc
  simp only [shapeCast_self]
  have hm := Cert.LibPlainDot.matmul_zero_apply (M := 512) (K := 128) (N := 12) dot_S512x128_S128x12_S512x12_1_0_0_1_n_n rfl rfl rfl rfl rfl rfl none
    (truncf .bf16 (V c main_v84) bitsLt_bf16_f32) (truncf .bf16 (V c main_v85) bitsLt_bf16_f32) a b
  have hb : broadcastTo S512x12 (V c main_v86) broadcasts_S1x12_S512x12 (ValueIdx.ix2 a b) = V c main_v86 (ValueIdx.ix2 0 b) :=
    broadcastTo_apply _ _ _ _ (fun x => by
      match x with
      | ⟨0, _⟩ => rfl
      | ⟨1, _⟩ => rfl)
  exact congrArg Ideal.logistic (congrArg₂ (· + ·) hm hb)

end Cert.KernelIdeal.Hand

end
-- ==== Proof.BridgeOut.lean ====
import proofs.«424575_j83829171683414_1_alg».proof.Proof.KI.Val8
import proofs.«424575_j83829171683414_1_alg».proof.Proof.RefLin
import proofs.«424575_j83829171683414_1_alg».proof.Proof.BridgeWeights

set_option maxRecDepth 16384

noncomputable section

namespace Cert.Bridge

open Cert.KernelIdeal Cert.KernelIdeal.Gen Cert.KernelIdeal.Hand Cert.ReferenceIdeal.ReadP Cert.RefLegs
open Idealize.ShloMosaic Idealize.ShloMosaic.TcCoe Idealize.SL Idealize.SL.Sem Idealize.ShloMosaic.ValueIdx

variable (m : (ℓ : Loc nD τ sig) → Buf (Elt Ideal) ℓ) (c : Dev nD)

theorem res_eq (hpool : U23 m c main_v84 = val_main_v189 (F := Ideal) (U0 m c main_arg0) (U0 m c main_arg1) (U0 m c main_arg2) (U0 m c main_arg3) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg16) (U0 m c main_arg17) (U0 m c main_arg18) (U0 m c main_arg19) (U0 m c main_arg20) (U0 m c main_arg21) (U0 m c main_arg22) (U0 m c main_arg23) (U0 m c main_arg24) (U0 m c main_arg25) (U0 m c main_arg26) (U0 m c main_arg27) (U0 m c main_arg28) (U0 m c main_arg29) (U0 m c main_arg30) (U0 m c main_arg31)) :
    o24 m c = val_main_v200 (F := Ideal) (U0 m c main_arg0) (U0 m c main_arg1) (U0 m c main_arg2) (U0 m c main_arg3) (U0 m c main_arg4) (U0 m c main_arg5) (U0 m c main_arg6) (U0 m c main_arg7) (U0 m c main_arg8) (U0 m c main_arg9) (U0 m c main_arg10) (U0 m c main_arg11) (U0 m c main_arg12) (U0 m c main_arg13) (U0 m c main_arg14) (U0 m c main_arg15) (U0 m c main_arg16) (U0 m c main_arg17) (U0 m c main_arg18) (U0 m c main_arg19) (U0 m c main_arg20) (U0 m c main_arg21) (U0 m c main_arg22) (U0 m c main_arg23) (U0 m c main_arg24) (U0 m c main_arg25) (U0 m c main_arg26) (U0 m c main_arg27) (U0 m c main_arg28) (U0 m c main_arg29) (U0 m c main_arg30) (U0 m c main_arg31) (U0 m c main_arg32) (U0 m c main_arg33) :=
  eq_of_read (final8 (atRefs (U23 m)) c) fun a b => by
    rw [out_leg, ← hpool, ← w_r8_v85 m c, ← w_r8_v86 m c]

end Cert.Bridge

end
-- ==== Proof.BridgeAll.lean ====
import proofs.«424575_j83829171683414_1_alg».proof.Proof.BridgeLin
import proofs.«424575_j83829171683414_1_alg».proof.Proof.BridgeTake
import proofs.«424575_j83829171683414_1_alg».proof.Proof.BridgeConcat
import proofs.«424575_j83829171683414_1_alg».proof.Proof.BridgeMsg
import proofs.«424575_j83829171683414_1_alg».proof.Proof.BridgeScatter
import proofs.«424575_j83829171683414_1_alg».proof.Proof.BridgeBn
import proofs.«424575_j83829171683414_1_alg».proof.Proof.BridgeOut

set_option maxRecDepth 16384

noncomputable section

namespace Cert.Bridge

open Cert.KernelIdeal Cert.KernelIdeal.Gen Cert.KernelIdeal.Hand Cert.ReferenceIdeal.ReadP
open Idealize.ShloMosaic Idealize.ShloMosaic.TcCoe Idealize.SL Idealize.SL.Sem Idealize.ShloMosaic.ValueIdx

variable [Cert.Pre_finite_inputs.Facts]
variable (m : (ℓ : Loc nD τ sig) → Buf (Elt Ideal) ℓ)

theorem out_eq (hp : Cert.Pre_KernelIdeal m) (c : Dev nD) :
    o24 m c = Cert.ReferenceIdeal.ReadP.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) := by
  have e := e_eq m c
  have h0 := h0_eq m c
  have h1 := h1_eq m c hp (hs0 m c <| msg0_eq m c <| cat0_eq m c (dst0_eq m c hp h0) (src0_eq m c hp h0) e) (cn0 m c)
  have h2 := h2_eq m c hp (hs1 m c <| msg1_eq m c <| cat1_eq m c (dst1_eq m c hp h1) (src1_eq m c hp h1) e) (cn1 m c)
  have h3 := h3_eq m c hp (hs2 m c <| msg2_eq m c <| cat2_eq m c (dst2_eq m c hp h2) (src2_eq m c hp h2) e) (cn2 m c)
  exact res_eq m c (pool m c h3)

end Cert.Bridge

end
-- ==== Proof.lean ====
import proofs.«424575_j83829171683414_1_alg».proof.Defs
import proofs.«424575_j83829171683414_1_alg».proof.Proof.Gen.Kernel
import proofs.«424575_j83829171683414_1_alg».proof.Proof.Gen.KernelIdeal
import proofs.«424575_j83829171683414_1_alg».proof.Proof.Gen.ReferenceIdeal
import proofs.«424575_j83829171683414_1_alg».proof.Proof.RefRead
import proofs.«424575_j83829171683414_1_alg».proof.Proof.RefRun
import proofs.«424575_j83829171683414_1_alg».proof.Proof.Gen.Pre_finite_inputs
import proofs.«424575_j83829171683414_1_alg».proof.Proof.K.Frame
import proofs.«424575_j83829171683414_1_alg».proof.Proof.KI.Frame
import proofs.«424575_j83829171683414_1_alg».proof.Proof.KI.RegionsV
import proofs.«424575_j83829171683414_1_alg».proof.Proof.BridgeAll
import Idealize.ShloMosaic.Adequacy
import Idealize.ShloMosaic.Init

set_option maxRecDepth 16384

noncomputable section

namespace Cert.Proof

open Idealize.ShloMosaic Idealize.ShloMosaic.TcCoe Idealize.SL.Sem
open Idealize.SL Idealize.SL.BI
open scoped Idealize.SL.BI

theorem frame_k : Cert.frame_Kernel := Cert.Kernel.Hand.frame

theorem frame_ki : Cert.frame_KernelIdeal := Cert.KernelIdeal.Hand.frame

-- The reference launches no kernel: its frame is its run with the result dropped.
theorem frame_r : Cert.frame_ReferenceIdeal := fun m ρ _ =>
  (θ_run Cert.ReferenceIdeal.defs _ _).mono (fun _ h c => (h c).2) (Cert.ReferenceIdeal.ValueP.run (F := Ideal) m ρ)

open Cert.KernelIdeal Cert.KernelIdeal.Gen Cert.KernelIdeal.Hand in
-- The result buffer at the last boundary holds region 8's output array.
theorem result_read (m : (ℓ : Loc nD τ sig) → Buf (Elt Ideal) ℓ) (c : Dev nD) :
    V24 m (outsH m) c main_v87 = o24 m c := by
  rw [V24_eq]; exact Function.update_self ..

open Cert.KernelIdeal Cert.KernelIdeal.Gen Cert.KernelIdeal.Hand in
set_option backward.isDefEq.respectTransparency.types false in
-- Both programs end; region 8's output array and the reference's last stage are one array under the stated domain.
theorem algebraic : Cert.algebraic_KernelIdeal_ReferenceIdeal := by
  intro m ρ m' ρ' hpre hagree
  refine ⟨fun c => o24 m c, ?_, ?_⟩
  · exact (θ_run Cert.KernelIdeal.defs _ _).mono (fun r h c => ⟨(h c).1.trans (result_read m c), (h c).2⟩)
      (frame_cond_val m emb₁ () Variants.none Lz lvz (fun _ _ => rfl) ρ (outsH m) (pdats m) 0 (fun _ => iprop(emp)) u0 hu0
        (fun _ c => Rst c) (hE0 ρ) hE9
        (reg0 m) (hpre0 m) (hpost0 m) (reg1 m) (hpre1 m) (hpost1 m) (reg2 m) (hpre2 m) (hpost2 m)
        (reg3 m) (hpre3 m) (hpost3 m) (reg4 m) (hpre4 m) (hpost4 m) (reg5 m) (hpre5 m) (hpost5 m)
        (reg6 m) (hpre6 m) (hpost6 m) (reg7 m) (hpre7 m) (hpost7 m) (reg8 m) (hpre8 m) (hpost8 m))
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33⟩ := hagree c
    simp only [h0, h1, h2, h3, h4, h5, h6, h7, h8, h9, h10, h11, h12, h13, h14, h15, h16, h17, h18, h19, h20, h21, h22, h23, h24, h25, h26, h27, h28, h29, h30, h31, h32, h33]
    exact (Cert.Bridge.out_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
